-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v96)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v96) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v208) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x320000 : Shape := ⟨2, ![2, 320000]⟩
abbrev S100000 : Shape := ⟨1, ![100000]⟩
abbrev S256x256 : Shape := ⟨2, ![256, 256]⟩
abbrev S256 : Shape := ⟨1, ![256]⟩
abbrev S96x256 : Shape := ⟨2, ![96, 256]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S96x256 : S_.BroadcastsInDim S96x256 (![] : Fin 0 → Fin S96x256.rank)
  reducesTo_S96x256_S_d0_1 : S96x256.ReducesTo [0, 1] S_

variable [Facts]

def fn_part6 {F : FTy → Type} [FloatOps F] (main_arg17 : FVec F S256 .f32) (main_arg21 : FVec F S256 .f32) (main_v98 : IVec S_ 1) (main_v101 : IVec S_ 1) : IVec S_ 1 :=
  let main_v102 : IVec S_ 1 := andi main_v98 main_v101
  let main_cst_40 : FVec F S_ .f32 := constant S_ .f32 0x00000000#32
  let main_v103 : FVec F S256 .f32 := broadcastInDim S256 ![] bcast_S_S256 main_cst_40
  let main_v104 : IVec S256 1 := cmpf .oge main_arg17 main_v103
  let main_c_41 : IVec S_ 1 := constantI S_ 1 1#1
  let main_v105 : IVec S_ 1 := (fun x v => Host.reduce IntOp.andi x v reducesTo_S256_S_d0 h_S_) main_v104 main_c_41
  let main_v106 : IVec S_ 1 := andi main_v102 main_v105
  let main_cst_42 : FVec F S_ .f32 := constant S_ .f32 0x00000000#32
  let main_v107 : FVec F S256 .f32 := broadcastInDim S256 ![] bcast_S_S256 main_cst_42
  let main_v108 : IVec S256 1 := cmpf .oge main_arg21 main_v107
  let main_c_43 : IVec S_ 1 := constantI S_ 1 1#1
  let main_v109 : IVec S_ 1 := (fun x v => Host.reduce IntOp.andi x v reducesTo_S256_S_d0 h_S_) main_v108 main_c_43
  let main_v110 : IVec S_ 1 := andi main_v106 main_v109
  main_v110

def fn_part5 {F : FTy → Type} [FloatOps F] (main_arg13 : FVec F S256 .f32) (main_arg17 : FVec F S256 .f32) (main_arg20 : FVec F S256 .f32) (main_arg21 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg20
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256 .f32 := Host.absf main_arg21
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_cst_38 : FVec F S_ .f32 := constant S_ .f32 0x00000000#32
  let main_v99 : FVec F S256 .f32 := broadcastInDim S256 ![] bcast_S_S256 main_cst_38
  let main_v100 : IVec S256 1 := cmpf .oge main_arg13 main_v99
  let main_c_39 : IVec S_ 1 := constantI S_ 1 1#1
  let main_v101 : IVec S_ 1 := (fun x v => Host.reduce IntOp.andi x v reducesTo_S256_S_d0 h_S_) main_v100 main_c_39
  fn_part6 (F := F) main_arg17 main_arg21 main_v98 main_v101

def fn_part4 {F : FTy → Type} [FloatOps F] (main_arg13 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg19
  let main_cst_32 : FVec F S_ .f32 := constant S_ .f32 0x7F800000#32
  fn_part5 (F := F) main_arg13 main_arg17 main_arg20 main_arg21 main_v83 main_v84 main_cst_32

def fn_part3 {F : FTy → Type} [FloatOps F] (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg13 main_arg16 main_arg17 main_arg18 main_arg19 main_arg20 main_arg21 main_v63 main_v67

def fn_part2 {F : FTy → Type} [FloatOps F] (main_arg9 : FVec F S96x256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_v33 : IVec S_ 1) : IVec S_ 1 :=
  let main_v34 : FVec F S96x256 .f32 := Host.absf main_arg9
  let main_cst_12 : FVec F S_ .f32 := constant S_ .f32 0x7F800000#32
  let main_v35 : FVec F S96x256 .f32 := broadcastInDim S96x256 ![] bcast_S_S96x256 main_cst_12
  let main_v36 : IVec S96x256 1 := cmpf .olt main_v34 main_v35
  let main_c_13 : IVec S_ 1 := constantI S_ 1 1#1
  let main_v37 : IVec S_ 1 := (fun x v => Host.reduce IntOp.andi x v reducesTo_S96x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_arg19 main_arg20 main_arg21 main_v48 main_v49 main_v50

def fn_part1 {F : FTy → Type} [FloatOps F] (main_arg6 : FVec F S256 .f32) (main_arg7 : FVec F S256x256 .f32) (main_arg8 : FVec F S256 .f32) (main_arg9 : FVec F S96x256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_v33

def fn {F : FTy → Type} [FloatOps F] (main_arg0 : FVec F S100000x256 .f32) (main_arg1 : IVec S2x320000 32) (main_arg2 : IVec S100000 32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S96x256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_arg19 : FVec F S256 .f32) (main_arg20 : FVec F S256 .f32) (main_arg21 : FVec F S256 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S100000x256 : Shape := ⟨2, ![100000, 256]⟩
abbrev S2x320000 : Shape := ⟨2, ![2, 320000]⟩
abbrev S100000 : Shape := ⟨1, ![100000]⟩
abbrev S256x256 : Shape := ⟨2, ![256, 256]⟩
abbrev S256 : Shape := ⟨1, ![256]⟩
abbrev S96x256 : Shape := ⟨2, ![96, 256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S100000x1 : Shape := ⟨2, ![100000, 1]⟩
abbrev S1x256 : Shape := ⟨2, ![1, 256]⟩
abbrev S2000x256 : Shape := ⟨2, ![2000, 256]⟩
abbrev S2000x1 : Shape := ⟨2, ![2000, 1]⟩
abbrev S320000x256 : Shape := ⟨2, ![320000, 256]⟩
abbrev S256x1 : Shape := ⟨2, ![256, 1]⟩
abbrev S96 : Shape := ⟨1, ![96]⟩
abbrev S1x96 : Shape := ⟨2, ![1, 96]⟩
abbrev S256x96 : Shape := ⟨2, ![256, 96]⟩
abbrev S256x32x3 : Shape := ⟨3, ![256, 32, 3]⟩
abbrev S256x32 : Shape := ⟨2, ![256, 32]⟩

abbrev nBuf : Space → Nat
  | .hbm => 142
  | .vmem => 42
  | .smem => 0
  | _ => 0

abbrev hbmTy0_0 (i : Nat) : BufTy := match i % 128 with
  | 0 => ⟨S100000x256, .f32⟩
  | 1 => ⟨S2x320000, .i32⟩
  | 2 => ⟨S100000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S96x256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S1x320000, .i32⟩
  | 23 => ⟨S320000, .i32⟩
  | 24 => ⟨S1x320000, .i32⟩
  | 25 => ⟨S320000, .i32⟩
  | 26 => ⟨S_, .f32⟩
  | 27 => ⟨S320000, .f32⟩
  | 28 => ⟨S_, .f32⟩
  | 29 => ⟨S100000, .f32⟩
  | 30 => ⟨S320000x1, .i32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .i1⟩
  | 38 => ⟨S100000, .f32⟩
  | 39 => ⟨S_, .f32⟩
  | 40 => ⟨S_, .f32⟩
  | 41 => ⟨S100000, .f32⟩
  | 42 => ⟨S100000, .f32⟩
  | 43 => ⟨S100000x1, .f32⟩
  | 44 => ⟨S_, .f32⟩
  | 45 => ⟨S256, .f32⟩
  | 46 => ⟨S256, .f32⟩
  | 47 => ⟨S256, .f32⟩
  | 48 => ⟨S256, .f32⟩
  | 49 => ⟨S256, .f32⟩
  | 50 => ⟨S256, .f32⟩
  | 51 => ⟨S256, .f32⟩
  | 52 => ⟨S256, .f32⟩
  | 53 => ⟨S1x256, .f32⟩
  | 54 => ⟨S1x256, .f32⟩
  | 55 => ⟨S_, .f32⟩
  | 56 => ⟨S256, .f32⟩
  | 57 => ⟨S256, .f32⟩
  | 58 => ⟨S256, .f32⟩
  | 59 => ⟨S256, .f32⟩
  | 60 => ⟨S256, .f32⟩
  | 61 => ⟨S256, .f32⟩
  | 62 => ⟨S256, .f32⟩
  | 63 => ⟨S256, .f32⟩
  | 64 => ⟨S1x256, .f32⟩
  | 65 => ⟨S1x256, .f32⟩
  | 66 => ⟨S_, .f32⟩
  | 67 => ⟨S256, .f32⟩
  | 68 => ⟨S256, .f32⟩
  | 69 => ⟨S256, .f32⟩
  | 70 => ⟨S256, .f32⟩
  | 71 => ⟨S256, .f32⟩
  | 72 => ⟨S256, .f32⟩
  | 73 => ⟨S256, .f32⟩
  | 74 => ⟨S256, .f32⟩
  | 75 => ⟨S1x256, .f32⟩
  | 76 => ⟨S1x256, .f32⟩
  | 77 => ⟨S100000x256, .f32⟩
  | 78 => ⟨S_, .i32⟩
  | 79 => ⟨S320000, .i32⟩
  | 80 => ⟨S320000, .i1⟩
  | 81 => ⟨S_, .i32⟩
  | 82 => ⟨S320000, .i32⟩
  | 83 => ⟨S320000, .i32⟩
  | 84 => ⟨S320000, .i32⟩
  | 85 => ⟨S320000x1, .i32⟩
  | 86 => ⟨S320000x256, .f32⟩
  | 87 => ⟨S_, .f32⟩
  | 88 => ⟨S100000x256, .f32⟩
  | 89 => ⟨S320000x1, .i32⟩
  | 90 => ⟨S100000x256, .f32⟩
  | 91 => ⟨S100000x256, .f32⟩
  | 92 => ⟨S_, .i32⟩
  | 93 => ⟨S320000, .i32⟩
  | 94 => ⟨S320000, .i1⟩
  | 95 => ⟨S_, .i32⟩
  | 96 => ⟨S320000, .i32⟩
  | 97 => ⟨S320000, .i32⟩
  | 98 => ⟨S320000, .i32⟩
  | 99 => ⟨S320000x1, .i32⟩
  | 100 => ⟨S320000x256, .f32⟩
  | 101 => ⟨S_, .f32⟩
  | 102 => ⟨S100000x256, .f32⟩
  | 103 => ⟨S320000x1, .i32⟩
  | 104 => ⟨S100000x256, .f32⟩
  | 105 => ⟨S100000x256, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x256, .f32⟩
  | 115 => ⟨S_, .f32⟩
  | 116 => ⟨S100000x256, .f32⟩
  | 117 => ⟨S320000x1, .i32⟩
  | 118 => ⟨S100000x256, .f32⟩
  | 119 => ⟨S100000x1, .i32⟩
  | 120 => ⟨S256x256, .f32⟩
  | 121 => ⟨S256x256, .f32⟩
  | 122 => ⟨S_, .f32⟩
  | 123 => ⟨S256, .f32⟩
  | 124 => ⟨S256x1, .f32⟩
  | 125 => ⟨S96x256, .f32⟩
  | 126 => ⟨S_, .f32⟩
  | 127 => ⟨S96, .f32⟩
  | _ => ⟨S100000x256, .f32⟩

abbrev hbmTy0_1 (i : Nat) : BufTy := match i % 128 with
  | 0 => ⟨S1x96, .f32⟩
  | 1 => ⟨S256x96, .f32⟩
  | 2 => ⟨S256x96, .f32⟩
  | 3 => ⟨S256x96, .f32⟩
  | 4 => ⟨S_, .f32⟩
  | 5 => ⟨S256x256, .f32⟩
  | 6 => ⟨S256x256, .f32⟩
  | 7 => ⟨S256x96, .f32⟩
  | 8 => ⟨S256x96, .f32⟩
  | 9 => ⟨S256x96, .f32⟩
  | 10 => ⟨S256x32x3, .f32⟩
  | 11 => ⟨S_, .f32⟩
  | 12 => ⟨S256x32, .f32⟩
  | 13 => ⟨S256x32, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x1, .f32⟩
  | .local _ .vmem, ⟨12, _⟩ => ⟨S2000x1, .f32⟩
  | .local _ .vmem, ⟨13, _⟩ => ⟨S1x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x1, .f32⟩
  | .local _ .vmem, ⟨23, _⟩ => ⟨S2000x1, .f32⟩
  | .local _ .vmem, ⟨24, _⟩ => ⟨S1x256, .f32⟩
  | .local _ .vmem, ⟨25, _⟩ => ⟨S1x256, .f32⟩
  | .local _ .vmem, ⟨26, _⟩ => ⟨S256x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x1, .f32⟩
  | .local _ .vmem, ⟨34, _⟩ => ⟨S2000x1, .f32⟩
  | .local _ .vmem, ⟨35, _⟩ => ⟨S1x256, .f32⟩
  | .local _ .vmem, ⟨36, _⟩ => ⟨S1x256, .f32⟩
  | .local _ .vmem, ⟨37, _⟩ => ⟨S2000x1, .i32⟩
  | .local _ .vmem, ⟨38, _⟩ => ⟨S2000x1, .i32⟩
  | .local _ .vmem, ⟨39, _⟩ => ⟨S256x256, .f32⟩
  | .local _ .vmem, ⟨40, _⟩ => ⟨S256x256, .f32⟩
  | .local _ .vmem, ⟨41, _⟩ => ⟨S256x1, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_cst : Ref sig .tc := ⟨.hbm, 26, rfl⟩
abbrev main_v4 : Ref sig .tc := ⟨.hbm, 27, rfl⟩
abbrev main_cst_0 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_cst_1 : Ref sig .tc := ⟨.hbm, 32, rfl⟩
abbrev main_v8 : Ref sig .tc := ⟨.hbm, 33, rfl⟩
abbrev main_v9 : Ref sig .tc := ⟨.hbm, 34, rfl⟩
abbrev main_cst_2 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v13 : Ref sig .tc := ⟨.hbm, 42, rfl⟩
abbrev main_v14 : Ref sig .tc := ⟨.hbm, 43, rfl⟩
abbrev main_cst_4 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_5 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_6 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_c : Ref sig .tc := ⟨.hbm, 78, rfl⟩
abbrev main_v46 : Ref sig .tc := ⟨.hbm, 79, rfl⟩
abbrev main_v47 : Ref sig .tc := ⟨.hbm, 80, rfl⟩
abbrev main_c_7 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_8 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_9 : Ref sig .tc := ⟨.hbm, 92, rfl⟩
abbrev main_v57 : Ref sig .tc := ⟨.hbm, 93, rfl⟩
abbrev main_v58 : Ref sig .tc := ⟨.hbm, 94, rfl⟩
abbrev main_c_10 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_11 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_c_12 : Ref sig .tc := ⟨.hbm, 106, rfl⟩
abbrev main_v68 : Ref sig .tc := ⟨.hbm, 107, rfl⟩
abbrev main_v69 : Ref sig .tc := ⟨.hbm, 108, rfl⟩
abbrev main_c_13 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_cst_14 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_15 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_16 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_17 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_18 : Ref sig .tc := ⟨.hbm, 139, rfl⟩
abbrev main_v95 : Ref sig .tc := ⟨.hbm, 140, rfl⟩
abbrev main_v96 : Ref sig .tc := ⟨.hbm, 141, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_scratch0 : Ref sig .tc := ⟨.vmem, 40, rfl⟩
abbrev cc3_scratch1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem5_1 : DmaSem sig := 38
abbrev cc3_sem6_0 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def k3_cond2 (i : grid3.Coords) : BitVec 1 :=
  let arg0 : BitVec 32 := BitVec.ofNat 32 (i 0).val
  let c49_i32 : BitVec 32 := 49#32
  let v42 : BitVec 1 := Scalar.cmpi .eq arg0 c49_i32
  let v43 : BitVec 32 := Scalar.extui v42
  let c0_i32_22 : BitVec 32 := 0#32
  let v44 : BitVec 1 := Scalar.cmpi .ne v43 c0_i32_22
  v44

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 1 → Memref sig .tc .vmem S256x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S_S100000 : S_.BroadcastsInDim S100000 (![] : Fin 0 → Fin S100000.rank)
  bcast_S320000_S320000x1_0 : S320000.BroadcastsInDim S320000x1 (![0] : Fin 1 → Fin S320000x1.rank)
  shapeCasts_S100000_S100000x1 : S100000.ShapeCasts S100000x1
  bcast_S_S256 : S_.BroadcastsInDim S256 (![] : Fin 0 → Fin S256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  bcast_S_S100000x256 : S_.BroadcastsInDim S100000x256 (![] : Fin 0 → Fin S100000x256.rank)
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S2000x256_d1_w32 : S2000x256.Iotas .tc 32 [1]
  natLt_1_32 : 1 < 32
  broadcasts_S256x1_S256x256 : S256x1.Broadcasts S256x256
  reducesTo_S256x256_S256_d1 : S256x256.ReducesTo [1] S256
  h_S_ : 0 < S_.numel
  bcast_S256_S256x1_0 : S256.BroadcastsInDim S256x1 (![0] : Fin 1 → Fin S256x1.rank)
  reducesTo_S96x256_S96_d1 : S96x256.ReducesTo [1] S96
  bcast_S96_S1x96_1 : S96.BroadcastsInDim S1x96 (![1] : Fin 1 → Fin S1x96.rank)
  bcast_S256x1_S256x96_0_1 : S256x1.BroadcastsInDim S256x96 (![0, 1] : Fin 2 → Fin S256x96.rank)
  bcast_S1x96_S256x96_0_1 : S1x96.BroadcastsInDim S256x96 (![0, 1] : Fin 2 → Fin S256x96.rank)
  bcast_S_S256x256 : S_.BroadcastsInDim S256x256 (![] : Fin 0 → Fin S256x256.rank)
  transposes_S96x256_S256x96_1_0 : S96x256.Transposes [1, 0] S256x96
  shapeCasts_S256x96_S256x32x3 : S256x96.ShapeCasts S256x32x3
  reducesTo_S256x32x3_S256x32_d2 : S256x32x3.ReducesTo [2] S256x32
  scatter_S100000_S320000x1_S320000_n_0_0_1_wf : ScatterDims.WF S100000 S320000x1 S320000 [] [0] [0] 1
  dot_S2000x256_S256x256_S2000x256_1_0_0_1_n_n_wf : DotDims.WF S2000x256 S256x256 S2000x256 [1] [0] [0] [1] [] []
  gather_S100000x256_S320000x1_S320000x256_1_0_n_n_0_1_1256_wf : GatherDims.WF S100000x256 S320000x1 S320000x256 [1] [0] [] [0] [] 1 ![1, 256]
  scatter_S100000x256_S320000x1_S320000x256_1_0_0_1_wf : ScatterDims.WF S100000x256 S320000x1 S320000x256 [1] [0] [0] 1
  dot_S2000x256_S2000x256_S256x256_0_0_1_1_n_n_wf : DotDims.WF S2000x256 S2000x256 S256x256 [0] [0] [1] [1] [] []
  dot_S2000x256_S2000x1_S256x1_0_0_1_1_n_n_wf : DotDims.WF S2000x256 S2000x1 S256x1 [0] [0] [1] [1] [] []
  dot_S256x256_S256x96_S256x96_1_0_0_1_n_n_wf : DotDims.WF S256x256 S256x96 S256x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S100000x256.size a
  hwx1_6 : ∀ i : grid1.Coords, EltTy.bits .f32 = 32 ∨ (Rect.block (s := S100000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S100000x256.size a
  hwx2_1 : ∀ i : grid2.Coords, EltTy.bits .f32 = 32 ∨ (Rect.block (s := S100000x256) S2000x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S100000x1.size a
  hwx2_2 : ∀ i : grid2.Coords, EltTy.bits .f32 = 32 ∨ (Rect.block (s := S100000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .f32 = 32 ∨ (Rect.block (s := S256x256) S256x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x256.size a ≤ S100000x256.size a
  hwx2_6 : ∀ i : grid2.Coords, EltTy.bits .f32 = 32 ∨ (Rect.block (s := S100000x256) S2000x256.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S100000x256.size a
  hwx3_0 : ∀ i : grid3.Coords, EltTy.bits .f32 = 32 ∨ (Rect.block (s := S100000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S100000x256.size a
  hwx3_1 : ∀ i : grid3.Coords, EltTy.bits .f32 = 32 ∨ (Rect.block (s := S100000x256) S2000x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .i32 = 32 ∨ (Rect.block (s := S100000x1) S2000x1.size (cc3_transform_5 i) (hinb3_5 i)).WholeWords (EltTy.packing .i32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S256x256.size a ≤ S256x256.size a
  hwx3_6 : ∀ i : grid3.Coords, EltTy.bits .f32 = 32 ∨ (Rect.block (s := S256x256) S256x256.size (cc3_transform_6 i) (hinb3_6 i)).WholeWords (EltTy.packing .f32)

variable [Facts₀]

def scatter_S100000_S320000x1_S320000_n_0_0_1 : ScatterDims S100000 S320000x1 S320000 where
  updateWindowDims := []
  insertedWindowDims := [0]
  scatterDimsToOperandDims := [0]
  indexVectorDim := 1
  wf := scatter_S100000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S100000x256_S320000x1_S320000x256_1_0_n_n_0_1_1256 : GatherDims S100000x256 S320000x1 S320000x256 where
  offsetDims := [1]
  collapsedSliceDims := [0]
  operandBatchingDims := []
  startIndicesBatchingDims := []
  startIndexMap := [0]
  indexVectorDim := 1
  sliceSizes := ![1, 256]
  wf := gather_S100000x256_S320000x1_S320000x256_1_0_n_n_0_1_1256_wf
def scatter_S100000x256_S320000x1_S320000x256_1_0_0_1 : ScatterDims S100000x256 S320000x1 S320000x256 where
  updateWindowDims := [1]
  insertedWindowDims := [0]
  scatterDimsToOperandDims := [0]
  indexVectorDim := 1
  wf := scatter_S100000x256_S320000x1_S320000x256_1_0_0_1_wf
def dot_S2000x256_S2000x256_S256x256_0_0_1_1_n_n : DotDims S2000x256 S2000x256 S256x256 where
  lhsContracting := [0]
  rhsContracting := [0]
  lhsNonContracting := [1]
  rhsNonContracting := [1]
  lhsBatch := []
  rhsBatch := []
  wf := dot_S2000x256_S2000x256_S256x256_0_0_1_1_n_n_wf
def dot_S2000x256_S2000x1_S256x1_0_0_1_1_n_n : DotDims S2000x256 S2000x1 S256x1 where
  lhsContracting := [0]
  rhsContracting := [0]
  lhsNonContracting := [1]
  rhsNonContracting := [1]
  lhsBatch := []
  rhsBatch := []
  wf := dot_S2000x256_S2000x1_S256x1_0_0_1_1_n_n_wf
def dot_S256x256_S256x96_S256x96_1_0_0_1_n_n : DotDims S256x256 S256x96 S256x96 where
  lhsContracting := [1]
  rhsContracting := [0]
  lhsNonContracting := [0]
  rhsNonContracting := [1]
  lhsBatch := []
  rhsBatch := []
  wf := dot_S256x256_S256x96_S256x96_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v55) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v56) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v66) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v34) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v67) S2000x256.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v77) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v43) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v78) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v79) S256x256.size cc3_transform_6 reads3_6 true true 1 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev idle3 : Fin 7 → grid3.Coords → Bool := fun | 0 => fun _ => false | 1 => fun _ => false | 2 => fun _ => false | 3 => fun _ => false | 4 => fun _ => false | 5 => fun _ => false | 6 => fun i => !(k3_cond2 i == 1#1) | ⟨_ + 7, h⟩ => absurd h (Nat.not_lt.2 (Nat.le_add_left _ _))

class Facts : Prop extends Facts₀ where

variable [Facts]
-- ==== ReferenceIdeal.lean ====
abbrev S100000x256 : Shape := ⟨2, ![100000, 256]⟩
abbrev S2x320000 : Shape := ⟨2, ![2, 320000]⟩
abbrev S100000 : Shape := ⟨1, ![100000]⟩
abbrev S256x256 : Shape := ⟨2, ![256, 256]⟩
abbrev S256 : Shape := ⟨1, ![256]⟩
abbrev S96x256 : Shape := ⟨2, ![96, 256]⟩
abbrev S1x320000 : Shape := ⟨2, ![1, 320000]⟩
abbrev S320000 : Shape := ⟨1, ![320000]⟩
abbrev S420000 : Shape := ⟨1, ![420000]⟩
abbrev S_ : Shape := ⟨0, ![]⟩
abbrev S420000x1 : Shape := ⟨2, ![420000, 1]⟩
abbrev S420000x256 : Shape := ⟨2, ![420000, 256]⟩
abbrev S1x256 : Shape := ⟨2, ![1, 256]⟩
abbrev S100000x1 : Shape := ⟨2, ![100000, 1]⟩
abbrev S256x1 : Shape := ⟨2, ![256, 1]⟩
abbrev S96 : Shape := ⟨1, ![96]⟩
abbrev S1x96 : Shape := ⟨2, ![1, 96]⟩
abbrev S256x96 : Shape := ⟨2, ![256, 96]⟩
abbrev S256x32x3 : Shape := ⟨3, ![256, 32, 3]⟩
abbrev S256x32 : Shape := ⟨2, ![256, 32]⟩

abbrev nBuf : Space → Nat
  | .hbm => 285
  | .vmem => 0
  | .smem => 0
  | _ => 0

abbrev hbmTy0_0 (i : Nat) : BufTy := match i % 128 with
  | 0 => ⟨S100000x256, .f32⟩
  | 1 => ⟨S2x320000, .i32⟩
  | 2 => ⟨S100000, .i32⟩
  | 3 => ⟨S256x256, .f32⟩
  | 4 => ⟨S256, .f32⟩
  | 5 => ⟨S256x256, .f32⟩
  | 6 => ⟨S256, .f32⟩
  | 7 => ⟨S256x256, .f32⟩
  | 8 => ⟨S256, .f32⟩
  | 9 => ⟨S96x256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S256, .f32⟩
  | 20 => ⟨S256, .f32⟩
  | 21 => ⟨S256, .f32⟩
  | 22 => ⟨S1x320000, .i32⟩
  | 23 => ⟨S320000, .i32⟩
  | 24 => ⟨S1x320000, .i32⟩
  | 25 => ⟨S320000, .i32⟩
  | 26 => ⟨S100000x256, .f32⟩
  | 27 => ⟨S100000, .i32⟩
  | 28 => ⟨S420000, .i32⟩
  | 29 => ⟨S420000, .i32⟩
  | 30 => ⟨S_, .f32⟩
  | 31 => ⟨S420000, .f32⟩
  | 32 => ⟨S_, .f32⟩
  | 33 => ⟨S100000, .f32⟩
  | 34 => ⟨S420000x1, .i32⟩
  | 35 => ⟨S100000, .f32⟩
  | 36 => ⟨S_, .f32⟩
  | 37 => ⟨S100000, .f32⟩
  | 38 => ⟨S100000, .i1⟩
  | 39 => ⟨S100000, .f32⟩
  | 40 => ⟨S_, .f32⟩
  | 41 => ⟨S_, .f32⟩
  | 42 => ⟨S100000, .f32⟩
  | 43 => ⟨S100000, .f32⟩
  | 44 => ⟨S_, .i32⟩
  | 45 => ⟨S420000, .i32⟩
  | 46 => ⟨S420000, .i1⟩
  | 47 => ⟨S_, .i32⟩
  | 48 => ⟨S420000, .i32⟩
  | 49 => ⟨S420000, .i32⟩
  | 50 => ⟨S420000, .i32⟩
  | 51 => ⟨S420000x1, .i32⟩
  | 52 => ⟨S420000, .f32⟩
  | 53 => ⟨S_, .i32⟩
  | 54 => ⟨S420000, .i32⟩
  | 55 => ⟨S420000, .i1⟩
  | 56 => ⟨S_, .i32⟩
  | 57 => ⟨S420000, .i32⟩
  | 58 => ⟨S420000, .i32⟩
  | 59 => ⟨S420000, .i32⟩
  | 60 => ⟨S420000x1, .i32⟩
  | 61 => ⟨S420000, .f32⟩
  | 62 => ⟨S420000, .f32⟩
  | 63 => ⟨S420000x1, .f32⟩
  | 64 => ⟨S_, .i32⟩
  | 65 => ⟨S420000, .i32⟩
  | 66 => ⟨S420000, .i1⟩
  | 67 => ⟨S_, .i32⟩
  | 68 => ⟨S420000, .i32⟩
  | 69 => ⟨S420000, .i32⟩
  | 70 => ⟨S420000, .i32⟩
  | 71 => ⟨S420000x1, .i32⟩
  | 72 => ⟨S420000x256, .f32⟩
  | 73 => ⟨S420000x256, .f32⟩
  | 74 => ⟨S420000x256, .f32⟩
  | 75 => ⟨S_, .f32⟩
  | 76 => ⟨S100000x256, .f32⟩
  | 77 => ⟨S420000x1, .i32⟩
  | 78 => ⟨S100000x256, .f32⟩
  | 79 => ⟨S1x256, .f32⟩
  | 80 => ⟨S100000x256, .f32⟩
  | 81 => ⟨S100000x256, .f32⟩
  | 82 => ⟨S1x256, .f32⟩
  | 83 => ⟨S100000x256, .f32⟩
  | 84 => ⟨S100000x256, .f32⟩
  | 85 => ⟨S_, .f32⟩
  | 86 => ⟨S256, .f32⟩
  | 87 => ⟨S256, .f32⟩
  | 88 => ⟨S256, .f32⟩
  | 89 => ⟨S1x256, .f32⟩
  | 90 => ⟨S100000x256, .f32⟩
  | 91 => ⟨S100000x256, .f32⟩
  | 92 => ⟨S1x256, .f32⟩
  | 93 => ⟨S100000x256, .f32⟩
  | 94 => ⟨S100000x256, .f32⟩
  | 95 => ⟨S1x256, .f32⟩
  | 96 => ⟨S100000x256, .f32⟩
  | 97 => ⟨S100000x256, .f32⟩
  | 98 => ⟨S_, .f32⟩
  | 99 => ⟨S100000x256, .f32⟩
  | 100 => ⟨S100000x256, .f32⟩
  | 101 => ⟨S100000x256, .f32⟩
  | 102 => ⟨S100000, .i32⟩
  | 103 => ⟨S420000, .i32⟩
  | 104 => ⟨S420000, .i32⟩
  | 105 => ⟨S_, .f32⟩
  | 106 => ⟨S420000, .f32⟩
  | 107 => ⟨S_, .f32⟩
  | 108 => ⟨S100000, .f32⟩
  | 109 => ⟨S420000x1, .i32⟩
  | 110 => ⟨S100000, .f32⟩
  | 111 => ⟨S_, .f32⟩
  | 112 => ⟨S100000, .f32⟩
  | 113 => ⟨S100000, .i1⟩
  | 114 => ⟨S100000, .f32⟩
  | 115 => ⟨S_, .f32⟩
  | 116 => ⟨S_, .f32⟩
  | 117 => ⟨S100000, .f32⟩
  | 118 => ⟨S100000, .f32⟩
  | 119 => ⟨S_, .i32⟩
  | 120 => ⟨S420000, .i32⟩
  | 121 => ⟨S420000, .i1⟩
  | 122 => ⟨S_, .i32⟩
  | 123 => ⟨S420000, .i32⟩
  | 124 => ⟨S420000, .i32⟩
  | 125 => ⟨S420000, .i32⟩
  | 126 => ⟨S420000x1, .i32⟩
  | 127 => ⟨S420000, .f32⟩
  | _ => ⟨S100000x256, .f32⟩

abbrev hbmTy0_1 (i : Nat) : BufTy := match i % 128 with
  | 0 => ⟨S_, .i32⟩
  | 1 => ⟨S420000, .i32⟩
  | 2 => ⟨S420000, .i1⟩
  | 3 => ⟨S_, .i32⟩
  | 4 => ⟨S420000, .i32⟩
  | 5 => ⟨S420000, .i32⟩
  | 6 => ⟨S420000, .i32⟩
  | 7 => ⟨S420000x1, .i32⟩
  | 8 => ⟨S420000, .f32⟩
  | 9 => ⟨S420000, .f32⟩
  | 10 => ⟨S420000x1, .f32⟩
  | 11 => ⟨S_, .i32⟩
  | 12 => ⟨S420000, .i32⟩
  | 13 => ⟨S420000, .i1⟩
  | 14 => ⟨S_, .i32⟩
  | 15 => ⟨S420000, .i32⟩
  | 16 => ⟨S420000, .i32⟩
  | 17 => ⟨S420000, .i32⟩
  | 18 => ⟨S420000x1, .i32⟩
  | 19 => ⟨S420000x256, .f32⟩
  | 20 => ⟨S420000x256, .f32⟩
  | 21 => ⟨S420000x256, .f32⟩
  | 22 => ⟨S_, .f32⟩
  | 23 => ⟨S100000x256, .f32⟩
  | 24 => ⟨S420000x1, .i32⟩
  | 25 => ⟨S100000x256, .f32⟩
  | 26 => ⟨S1x256, .f32⟩
  | 27 => ⟨S100000x256, .f32⟩
  | 28 => ⟨S100000x256, .f32⟩
  | 29 => ⟨S1x256, .f32⟩
  | 30 => ⟨S100000x256, .f32⟩
  | 31 => ⟨S100000x256, .f32⟩
  | 32 => ⟨S_, .f32⟩
  | 33 => ⟨S256, .f32⟩
  | 34 => ⟨S256, .f32⟩
  | 35 => ⟨S256, .f32⟩
  | 36 => ⟨S1x256, .f32⟩
  | 37 => ⟨S100000x256, .f32⟩
  | 38 => ⟨S100000x256, .f32⟩
  | 39 => ⟨S1x256, .f32⟩
  | 40 => ⟨S100000x256, .f32⟩
  | 41 => ⟨S100000x256, .f32⟩
  | 42 => ⟨S1x256, .f32⟩
  | 43 => ⟨S100000x256, .f32⟩
  | 44 => ⟨S100000x256, .f32⟩
  | 45 => ⟨S_, .f32⟩
  | 46 => ⟨S100000x256, .f32⟩
  | 47 => ⟨S100000x256, .f32⟩
  | 48 => ⟨S100000x256, .f32⟩
  | 49 => ⟨S100000, .i32⟩
  | 50 => ⟨S420000, .i32⟩
  | 51 => ⟨S420000, .i32⟩
  | 52 => ⟨S_, .f32⟩
  | 53 => ⟨S420000, .f32⟩
  | 54 => ⟨S_, .f32⟩
  | 55 => ⟨S100000, .f32⟩
  | 56 => ⟨S420000x1, .i32⟩
  | 57 => ⟨S100000, .f32⟩
  | 58 => ⟨S_, .f32⟩
  | 59 => ⟨S100000, .f32⟩
  | 60 => ⟨S100000, .i1⟩
  | 61 => ⟨S100000, .f32⟩
  | 62 => ⟨S_, .f32⟩
  | 63 => ⟨S_, .f32⟩
  | 64 => ⟨S100000, .f32⟩
  | 65 => ⟨S100000, .f32⟩
  | 66 => ⟨S_, .i32⟩
  | 67 => ⟨S420000, .i32⟩
  | 68 => ⟨S420000, .i1⟩
  | 69 => ⟨S_, .i32⟩
  | 70 => ⟨S420000, .i32⟩
  | 71 => ⟨S420000, .i32⟩
  | 72 => ⟨S420000, .i32⟩
  | 73 => ⟨S420000x1, .i32⟩
  | 74 => ⟨S420000, .f32⟩
  | 75 => ⟨S_, .i32⟩
  | 76 => ⟨S420000, .i32⟩
  | 77 => ⟨S420000, .i1⟩
  | 78 => ⟨S_, .i32⟩
  | 79 => ⟨S420000, .i32⟩
  | 80 => ⟨S420000, .i32⟩
  | 81 => ⟨S420000, .i32⟩
  | 82 => ⟨S420000x1, .i32⟩
  | 83 => ⟨S420000, .f32⟩
  | 84 => ⟨S420000, .f32⟩
  | 85 => ⟨S420000x1, .f32⟩
  | 86 => ⟨S_, .i32⟩
  | 87 => ⟨S420000, .i32⟩
  | 88 => ⟨S420000, .i1⟩
  | 89 => ⟨S_, .i32⟩
  | 90 => ⟨S420000, .i32⟩
  | 91 => ⟨S420000, .i32⟩
  | 92 => ⟨S420000, .i32⟩
  | 93 => ⟨S420000x1, .i32⟩
  | 94 => ⟨S420000x256, .f32⟩
  | 95 => ⟨S420000x256, .f32⟩
  | 96 => ⟨S420000x256, .f32⟩
  | 97 => ⟨S_, .f32⟩
  | 98 => ⟨S100000x256, .f32⟩
  | 99 => ⟨S420000x1, .i32⟩
  | 100 => ⟨S100000x256, .f32⟩
  | 101 => ⟨S1x256, .f32⟩
  | 102 => ⟨S100000x256, .f32⟩
  | 103 => ⟨S100000x256, .f32⟩
  | 104 => ⟨S1x256, .f32⟩
  | 105 => ⟨S100000x256, .f32⟩
  | 106 => ⟨S100000x256, .f32⟩
  | 107 => ⟨S_, .f32⟩
  | 108 => ⟨S256, .f32⟩
  | 109 => ⟨S256, .f32⟩
  | 110 => ⟨S256, .f32⟩
  | 111 => ⟨S1x256, .f32⟩
  | 112 => ⟨S100000x256, .f32⟩
  | 113 => ⟨S100000x256, .f32⟩
  | 114 => ⟨S1x256, .f32⟩
  | 115 => ⟨S100000x256, .f32⟩
  | 116 => ⟨S100000x256, .f32⟩
  | 117 => ⟨S1x256, .f32⟩
  | 118 => ⟨S100000x256, .f32⟩
  | 119 => ⟨S100000x256, .f32⟩
  | 120 => ⟨S_, .f32⟩
  | 121 => ⟨S256x256, .f32⟩
  | 122 => ⟨S100000x1, .i32⟩
  | 123 => ⟨S256x256, .f32⟩
  | 124 => ⟨S_, .f32⟩
  | 125 => ⟨S100000, .f32⟩
  | 126 => ⟨S_, .f32⟩
  | 127 => ⟨S256, .f32⟩
  | _ => ⟨S100000x256, .f32⟩

abbrev hbmTy0_2 (i : Nat) : BufTy := match i % 128 with
  | 0 => ⟨S100000x1, .i32⟩
  | 1 => ⟨S256, .f32⟩
  | 2 => ⟨S_, .f32⟩
  | 3 => ⟨S256, .f32⟩
  | 4 => ⟨S256, .f32⟩
  | 5 => ⟨S256x1, .f32⟩
  | 6 => ⟨S256x256, .f32⟩
  | 7 => ⟨S256x256, .f32⟩
  | 8 => ⟨S256x256, .f32⟩
  | 9 => ⟨S_, .f32⟩
  | 10 => ⟨S256, .f32⟩
  | 11 => ⟨S256x1, .f32⟩
  | 12 => ⟨S96x256, .f32⟩
  | 13 => ⟨S_, .f32⟩
  | 14 => ⟨S96, .f32⟩
  | 15 => ⟨S1x96, .f32⟩
  | 16 => ⟨S256x96, .f32⟩
  | 17 => ⟨S256x96, .f32⟩
  | 18 => ⟨S256x96, .f32⟩
  | 19 => ⟨S_, .f32⟩
  | 20 => ⟨S256x256, .f32⟩
  | 21 => ⟨S256x256, .f32⟩
  | 22 => ⟨S256x96, .f32⟩
  | 23 => ⟨S256x96, .f32⟩
  | 24 => ⟨S256x96, .f32⟩
  | 25 => ⟨S256x32x3, .f32⟩
  | 26 => ⟨S_, .f32⟩
  | 27 => ⟨S256x32, .f32⟩
  | 28 => ⟨S256x32, .f32⟩
  | _ => ⟨S100000x256, .f32⟩

abbrev hbmTy (i : Nat) : BufTy := match i / 128 with
  | 0 => hbmTy0_0 i
  | 1 => hbmTy0_1 i
  | 2 => hbmTy0_2 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_cst : Ref sig .tc := ⟨.hbm, 30, rfl⟩
abbrev main_v8 : Ref sig .tc := ⟨.hbm, 31, rfl⟩
abbrev main_cst_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v15 : Ref sig .tc := ⟨.hbm, 43, rfl⟩
abbrev main_c : Ref sig .tc := ⟨.hbm, 44, rfl⟩
abbrev main_v16 : Ref sig .tc := ⟨.hbm, 45, rfl⟩
abbrev main_v17 : Ref sig .tc := ⟨.hbm, 46, rfl⟩
abbrev main_c_3 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_4 : Ref sig .tc := ⟨.hbm, 53, rfl⟩
abbrev main_v23 : Ref sig .tc := ⟨.hbm, 54, rfl⟩
abbrev main_v24 : Ref sig .tc := ⟨.hbm, 55, rfl⟩
abbrev main_c_5 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_c_6 : Ref sig .tc := ⟨.hbm, 64, rfl⟩
abbrev main_v32 : Ref sig .tc := ⟨.hbm, 65, rfl⟩
abbrev main_v33 : Ref sig .tc := ⟨.hbm, 66, rfl⟩
abbrev main_c_7 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_8 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_cst_9 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_call1_cst : Ref sig .tc := ⟨.hbm, 98, rfl⟩
abbrev main_call1_v0 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_10 : Ref sig .tc := ⟨.hbm, 105, rfl⟩
abbrev main_v67 : Ref sig .tc := ⟨.hbm, 106, rfl⟩
abbrev main_cst_11 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_12 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_13 : Ref sig .tc := ⟨.hbm, 115, rfl⟩
abbrev main_call2_v0 : Ref sig .tc := ⟨.hbm, 116, rfl⟩
abbrev main_call2_v1 : Ref sig .tc := ⟨.hbm, 117, rfl⟩
abbrev main_v74 : Ref sig .tc := ⟨.hbm, 118, rfl⟩
abbrev main_c_14 : Ref sig .tc := ⟨.hbm, 119, rfl⟩
abbrev main_v75 : Ref sig .tc := ⟨.hbm, 120, rfl⟩
abbrev main_v76 : Ref sig .tc := ⟨.hbm, 121, rfl⟩
abbrev main_c_15 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_c_16 : Ref sig .tc := ⟨.hbm, 128, rfl⟩
abbrev main_v82 : Ref sig .tc := ⟨.hbm, 129, rfl⟩
abbrev main_v83 : Ref sig .tc := ⟨.hbm, 130, rfl⟩
abbrev main_c_17 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_c_18 : Ref sig .tc := ⟨.hbm, 139, rfl⟩
abbrev main_v91 : Ref sig .tc := ⟨.hbm, 140, rfl⟩
abbrev main_v92 : Ref sig .tc := ⟨.hbm, 141, rfl⟩
abbrev main_c_19 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_20 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_21 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_call3_cst : Ref sig .tc := ⟨.hbm, 173, rfl⟩
abbrev main_call3_v0 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_cst_22 : Ref sig .tc := ⟨.hbm, 180, rfl⟩
abbrev main_v126 : Ref sig .tc := ⟨.hbm, 181, rfl⟩
abbrev main_cst_23 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_cst_24 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_cst_25 : Ref sig .tc := ⟨.hbm, 190, rfl⟩
abbrev main_call4_v0 : Ref sig .tc := ⟨.hbm, 191, rfl⟩
abbrev main_call4_v1 : Ref sig .tc := ⟨.hbm, 192, rfl⟩
abbrev main_v133 : Ref sig .tc := ⟨.hbm, 193, rfl⟩
abbrev main_c_26 : Ref sig .tc := ⟨.hbm, 194, rfl⟩
abbrev main_v134 : Ref sig .tc := ⟨.hbm, 195, rfl⟩
abbrev main_v135 : Ref sig .tc := ⟨.hbm, 196, rfl⟩
abbrev main_c_27 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_c_28 : Ref sig .tc := ⟨.hbm, 203, rfl⟩
abbrev main_v141 : Ref sig .tc := ⟨.hbm, 204, rfl⟩
abbrev main_v142 : Ref sig .tc := ⟨.hbm, 205, rfl⟩
abbrev main_c_29 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_c_30 : Ref sig .tc := ⟨.hbm, 214, rfl⟩
abbrev main_v150 : Ref sig .tc := ⟨.hbm, 215, rfl⟩
abbrev main_v151 : Ref sig .tc := ⟨.hbm, 216, rfl⟩
abbrev main_c_31 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_cst_32 : Ref sig .tc := ⟨.hbm, 225, rfl⟩
abbrev main_v159 : Ref sig .tc := ⟨.hbm, 226, rfl⟩
abbrev main_v160 : Ref sig .tc := ⟨.hbm, 227, rfl⟩
abbrev main_v161 : Ref sig .tc := ⟨.hbm, 228, rfl⟩
abbrev main_v162 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_cst_33 : Ref sig .tc := ⟨.hbm, 235, rfl⟩
abbrev main_v168 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_cst_34 : Ref sig .tc := ⟨.hbm, 248, rfl⟩
abbrev main_v180 : Ref sig .tc := ⟨.hbm, 249, rfl⟩
abbrev main_v181 : Ref sig .tc := ⟨.hbm, 250, rfl⟩
abbrev main_v182 : Ref sig .tc := ⟨.hbm, 251, rfl⟩
abbrev main_cst_35 : Ref sig .tc := ⟨.hbm, 252, rfl⟩
abbrev main_v183 : Ref sig .tc := ⟨.hbm, 253, rfl⟩
abbrev main_cst_36 : Ref sig .tc := ⟨.hbm, 254, rfl⟩
abbrev main_v184 : Ref sig .tc := ⟨.hbm, 255, rfl⟩
abbrev main_v185 : Ref sig .tc := ⟨.hbm, 256, rfl⟩
abbrev main_v186 : Ref sig .tc := ⟨.hbm, 257, rfl⟩
abbrev main_cst_37 : Ref sig .tc := ⟨.hbm, 258, rfl⟩
abbrev main_v187 : Ref sig .tc := ⟨.hbm, 259, rfl⟩
abbrev main_v188 : Ref sig .tc := ⟨.hbm, 260, rfl⟩
abbrev main_v189 : Ref sig .tc := ⟨.hbm, 261, rfl⟩
abbrev main_v190 : Ref sig .tc := ⟨.hbm, 262, rfl⟩
abbrev main_v191 : Ref sig .tc := ⟨.hbm, 263, rfl⟩
abbrev main_v192 : Ref sig .tc := ⟨.hbm, 264, rfl⟩
abbrev main_cst_38 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_cst_39 : Ref sig .tc := ⟨.hbm, 269, rfl⟩
abbrev main_v196 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_cst_40 : Ref sig .tc := ⟨.hbm, 275, rfl⟩
abbrev main_v201 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_cst_41 : Ref sig .tc := ⟨.hbm, 282, rfl⟩
abbrev main_v207 : Ref sig .tc := ⟨.hbm, 283, rfl⟩
abbrev main_v208 : Ref sig .tc := ⟨.hbm, 284, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S100000_S420000_d0 : Shape.Concatenates [S320000, S100000] S420000 0
  bcast_S_S420000 : S_.BroadcastsInDim S420000 (![] : Fin 0 → Fin S420000.rank)
  bcast_S_S100000 : S_.BroadcastsInDim S100000 (![] : Fin 0 → Fin S100000.rank)
  bcast_S420000_S420000x1_0 : S420000.BroadcastsInDim S420000x1 (![0] : Fin 1 → Fin S420000x1.rank)
  bcast_S420000x1_S420000x256_0_1 : S420000x1.BroadcastsInDim S420000x256 (![0, 1] : Fin 2 → Fin S420000x256.rank)
  bcast_S_S100000x256 : S_.BroadcastsInDim S100000x256 (![] : Fin 0 → Fin S100000x256.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S256 : S_.BroadcastsInDim S256 (![] : Fin 0 → Fin S256.rank)
  bcast_S_S256x256 : S_.BroadcastsInDim S256x256 (![] : Fin 0 → Fin S256x256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  reducesTo_S256x256_S256_d1 : S256x256.ReducesTo [1] S256
  h_S_ : 0 < S_.numel
  reducesTo_S96x256_S96_d1 : S96x256.ReducesTo [1] S96
  bcast_S96_S1x96_1 : S96.BroadcastsInDim S1x96 (![1] : Fin 1 → Fin S1x96.rank)
  bcast_S256x1_S256x96_0_1 : S256x1.BroadcastsInDim S256x96 (![0, 1] : Fin 2 → Fin S256x96.rank)
  bcast_S1x96_S256x96_0_1 : S1x96.BroadcastsInDim S256x96 (![0, 1] : Fin 2 → Fin S256x96.rank)
  transposes_S96x256_S256x96_1_0 : S96x256.Transposes [1, 0] S256x96
  shapeCasts_S256x96_S256x32x3 : S256x96.ShapeCasts S256x32x3
  reducesTo_S256x32x3_S256x32_d2 : S256x32x3.ReducesTo [2] S256x32
  dot_S100000x256_S256x256_S100000x256_1_0_0_1_n_n_wf : DotDims.WF S100000x256 S256x256 S100000x256 [1] [0] [0] [1] [] []
  scatter_S100000_S420000x1_S420000_n_0_0_1_wf : ScatterDims.WF S100000 S420000x1 S420000 [] [0] [0] 1
  gather_S100000_S420000x1_S420000_n_0_n_n_0_1_1_wf : GatherDims.WF S100000 S420000x1 S420000 [] [0] [] [0] [] 1 ![1]
  gather_S100000x256_S420000x1_S420000x256_1_0_n_n_0_1_1256_wf : GatherDims.WF S100000x256 S420000x1 S420000x256 [1] [0] [] [0] [] 1 ![1, 256]
  scatter_S100000x256_S420000x1_S420000x256_1_0_0_1_wf : ScatterDims.WF S100000x256 S420000x1 S420000x256 [1] [0] [0] 1
  scatter_S256x256_S100000x1_S100000x256_1_0_0_1_wf : ScatterDims.WF S256x256 S100000x1 S100000x256 [1] [0] [0] 1
  scatter_S256_S100000x1_S100000_n_0_0_1_wf : ScatterDims.WF S256 S100000x1 S100000 [] [0] [0] 1
  dot_S256x256_S256x96_S256x96_1_0_0_1_n_n_wf : DotDims.WF S256x256 S256x96 S256x96 [1] [0] [0] [1] [] []

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def scatter_S100000_S420000x1_S420000_n_0_0_1 : ScatterDims S100000 S420000x1 S420000 where
  updateWindowDims := []
  insertedWindowDims := [0]
  scatterDimsToOperandDims := [0]
  indexVectorDim := 1
  wf := scatter_S100000_S420000x1_S420000_n_0_0_1_wf
def gather_S100000_S420000x1_S420000_n_0_n_n_0_1_1 : GatherDims S100000 S420000x1 S420000 where
  offsetDims := []
  collapsedSliceDims := [0]
  operandBatchingDims := []
  startIndicesBatchingDims := []
  startIndexMap := [0]
  indexVectorDim := 1
  sliceSizes := ![1]
  wf := gather_S100000_S420000x1_S420000_n_0_n_n_0_1_1_wf
def gather_S100000x256_S420000x1_S420000x256_1_0_n_n_0_1_1256 : GatherDims S100000x256 S420000x1 S420000x256 where
  offsetDims := [1]
  collapsedSliceDims := [0]
  operandBatchingDims := []
  startIndicesBatchingDims := []
  startIndexMap := [0]
  indexVectorDim := 1
  sliceSizes := ![1, 256]
  wf := gather_S100000x256_S420000x1_S420000x256_1_0_n_n_0_1_1256_wf
def scatter_S100000x256_S420000x1_S420000x256_1_0_0_1 : ScatterDims S100000x256 S420000x1 S420000x256 where
  updateWindowDims := [1]
  insertedWindowDims := [0]
  scatterDimsToOperandDims := [0]
  indexVectorDim := 1
  wf := scatter_S100000x256_S420000x1_S420000x256_1_0_0_1_wf
def scatter_S256x256_S100000x1_S100000x256_1_0_0_1 : ScatterDims S256x256 S100000x1 S100000x256 where
  updateWindowDims := [1]
  insertedWindowDims := [0]
  scatterDimsToOperandDims := [0]
  indexVectorDim := 1
  wf := scatter_S256x256_S100000x1_S100000x256_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x256_S256x96_S256x96_1_0_0_1_n_n : DotDims S256x256 S256x96 S256x96 where
  lhsContracting := [1]
  rhsContracting := [0]
  lhsNonContracting := [0]
  rhsNonContracting := [1]
  lhsBatch := []
  rhsBatch := []
  wf := dot_S256x256_S256x96_S256x96_1_0_0_1_n_n_wf

class Facts : Prop extends Facts₀ where

variable [Facts]
-- ==== Proof.KI.Reg0.lean ====
import proofs.«405801_j48610439856177_2_alg».proof.Proof.Gen.KernelIdeal.Launch
import proofs.«405801_j48610439856177_2_alg».proof.Proof.Gen.KernelIdeal.Skeleton
import proofs.«405801_j48610439856177_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x256 := Rect.unit (s := S2000x256) ![0, 0] S2000x256.size inb_S2000x256_S2000x256_0_0
abbrev r0_1 : Rect S256x256 := Rect.unit (s := S256x256) ![0, 0] S256x256.size inb_S256x256_S256x256_0_0
abbrev r0_2 : Rect S2000x1 := Rect.unit (s := S2000x1) ![0, 0] S2000x1.size inb_S2000x1_S2000x1_0_0

variable (x0 : Vec F S2000x256 .f32) (x1 : Vec F S256x256 .f32) (x2 : Vec F S2000x1 .f32)

def out0_3 : Vec F S2000x256 .f32 :=
  View.canon [⟨r0_0, k0_pay1 (View.ld x0 r0_0) (View.ld x1 r0_1) (View.ld x2 r0_2)⟩]

set_option maxHeartbeats 1000000 in
-- the one store covers the whole output, so the result does not depend on what was there before
theorem sound_kernel0 {i : grid0.Coords} {arg1 arg4 : Memref sig .tc .vmem S2000x256 .f32} {arg2 : Memref sig .tc .vmem S256x256 .f32}
    {arg3 : Memref sig .tc .vmem S2000x1 .f32} {harg1 : arg1.IsWhole} {harg2 : arg2.IsWhole} {harg3 : arg3.IsWhole}
    {harg4 : arg4.IsWhole} {K : PUnit → sProp 𝕄} :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2
            ∗ owns c arg4 fullShare (out0_3 x0 x1 x2)) -∗ K ⟨⟩))
      ⊢ wp frame (wpE (defs₀ (F := F)) Variants.none c none) Set.univ
          (cc0__matmul_prescale_kernel i arg1 harg1 arg2 harg2 arg3 harg3 arg4 harg4) K := by
  simp only [cc0__matmul_prescale_kernel_eq_skeleton]; unfold cc0__matmul_prescale_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x256.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) :
    (dat0 V c).after 3 t = out0_3 (iblk0 V c 0 t) (iblk0 V c 1 t) (iblk0 V c 2 t) := by dsimp only [dat0]

-- the body only reads its inputs, so at every point each one is its array's own block
theorem before0 (t : Fin cfg0.N) : (∀ d, (dat0 V c).before 0 t d = iblk0 V c 0 t) ∧ (∀ d, (dat0 V c).before 1 t d = iblk0 V c 1 t)
    ∧ ∀ d, (dat0 V c).before 2 t d = iblk0 V c 2 t := by
  refine ⟨?_, ?_, ?_⟩ <;> exact fun d =>
    ((dat0 V c).before_in_eq_fetched _ rfl (fun _ => rfl) (fun _ _ _ => rfl) (fun _ => by dsimp only [dat0]; rfl) t d).trans rfl

theorem body_obligation0 : BodyObligation (dat0 (F := F) V c) (defs₀ (F := F)) Variants.none () Set.univ := fun t => by
  obtain ⟨b0, b1, b2⟩ := before0 V c t
  rw [bigSep_W0, bigSep_W0]
  show _ ⊢ wp _ _ _ (bodyAt0 t) _
  simp only [b0, b1, b2, show ∀ w i, cfg0.idle w i = false from fun _ _ => rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply sound_kernel0 c (iblk0 V c 0 t) (iblk0 V c 1 t) (iblk0 V c 2 t)
  iframe H0 H1 H2
  isplitl [H3]; · iexists _; iexact H3
  iintro H
  iframe

theorem hin0 : (Pipeline.ΦA spec0 c : sProp 𝕄) ⊢ (dat0 V c).Φ 0 := .rfl

theorem hout0 : (dat0 V c).Φ (Fin.last cfg0.N) ⊢ (Pipeline.ΦA spec0 c : sProp 𝕄) := .rfl

end Region0

end Cert.KernelIdeal.Hand
-- ==== Proof.KI.Reg1.lean ====
import proofs.«405801_j48610439856177_2_alg».proof.Proof.Gen.KernelIdeal.Launch
import proofs.«405801_j48610439856177_2_alg».proof.Proof.Gen.KernelIdeal.Skeleton
import proofs.«405801_j48610439856177_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x256 := Rect.unit (s := S2000x256) ![0, 0] S2000x256.size inb_S2000x256_S2000x256_0_0
abbrev r1_1 : Rect S2000x1 := Rect.unit (s := S2000x1) ![0, 0] S2000x1.size inb_S2000x1_S2000x1_0_0
abbrev r1_2 : Rect S1x256 := Rect.unit (s := S1x256) ![0, 0] S1x256.size inb_S1x256_S1x256_0_0
abbrev r1_3 : Rect S256x256 := Rect.unit (s := S256x256) ![0, 0] S256x256.size inb_S256x256_S256x256_0_0

variable (x0 x1 : Vec F S2000x256 .f32) (x2 : Vec F S2000x1 .f32) (x3 x4 : Vec F S1x256 .f32) (x5 : Vec F S256x256 .f32)

def out1_6 : Vec F S2000x256 .f32 :=
  View.canon [⟨r1_0, k1_pay1 (View.ld x2 r1_1) (View.ld x0 r1_0) (View.ld x1 r1_0) (View.ld x3 r1_2) (View.ld x4 r1_2) (View.ld x5 r1_3)⟩]

set_option maxHeartbeats 1000000 in
-- the one store covers the whole output, so the result does not depend on what was there before
theorem sound_kernel1 {i : grid1.Coords} {arg1 arg2 arg7 : Memref sig .tc .vmem S2000x256 .f32} {arg3 : Memref sig .tc .vmem S2000x1 .f32}
    {arg4 arg5 : Memref sig .tc .vmem S1x256 .f32} {arg6 : Memref sig .tc .vmem S256x256 .f32}
    {harg1 : arg1.IsWhole} {harg2 : arg2.IsWhole} {harg3 : arg3.IsWhole} {harg4 : arg4.IsWhole} {harg5 : arg5.IsWhole}
    {harg6 : arg6.IsWhole} {harg7 : arg7.IsWhole} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out1_6 x0 x1 x2 x3 x4 x5)) -∗ K ⟨⟩))
      ⊢ wp frame (wpE (defs₀ (F := F)) Variants.none c none) Set.univ
          (cc1__gcn_stage_kernel i arg1 harg1 arg2 harg2 arg3 harg3 arg4 harg4 arg5 harg5 arg6 harg6 arg7 harg7) K := by
  simp only [cc1__gcn_stage_kernel_eq_skeleton]; unfold cc1__gcn_stage_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x256.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (w : Fin cfg1.W) : (dat1 V c).A w = V c (Pipeline.arrRef spec1 w) := rfl

theorem after1_6 (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

-- the body only reads its inputs, so at every point each one is its array's own block
theorem before1 (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ ∀ d, (dat1 V c).before 5 t d = iblk1 V c 5 t := by
  refine ⟨?_, ?_, ?_, ?_, ?_, ?_⟩ <;> exact fun d =>
    ((dat1 V c).before_in_eq_fetched _ rfl (fun _ => rfl) (fun _ _ _ => rfl) (fun _ => by dsimp only [dat1]; rfl) t d).trans rfl

theorem body_obligation1 : BodyObligation (dat1 (F := F) V c) (defs₀ (F := F)) Variants.none () Set.univ := fun t => by
  obtain ⟨b0, b1, b2, b3, b4, b5⟩ := before1 V c t
  rw [bigSep_W1, bigSep_W1]
  show _ ⊢ wp _ _ _ (bodyAt1 t) _
  simp only [b0, b1, b2, b3, b4, b5, show ∀ w i, cfg1.idle w i = false from fun _ _ => rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel1 c (iblk1 V c 0 t) (iblk1 V c 1 t) (iblk1 V c 2 t) (iblk1 V c 3 t) (iblk1 V c 4 t) (iblk1 V c 5 t)
  iframe H0 H1 H2 H3 H4 H5
  isplitl [H6]; · iexists _; iexact H6
  iintro H
  iframe

theorem hin1 : (Pipeline.ΦA spec1 c : sProp 𝕄) ⊢ (dat1 V c).Φ 0 := .rfl

theorem hout1 : (dat1 V c).Φ (Fin.last cfg1.N) ⊢ (Pipeline.ΦA spec1 c : sProp 𝕄) := .rfl

end Region

end Cert.KernelIdeal.Hand

end
-- ==== Proof.KI.Reg2.lean ====
import proofs.«405801_j48610439856177_2_alg».proof.Proof.Gen.KernelIdeal.Launch
import proofs.«405801_j48610439856177_2_alg».proof.Proof.Gen.KernelIdeal.Skeleton
import proofs.«405801_j48610439856177_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x256 := Rect.unit (s := S2000x256) ![0, 0] S2000x256.size inb_S2000x256_S2000x256_0_0
abbrev r2_1 : Rect S2000x1 := Rect.unit (s := S2000x1) ![0, 0] S2000x1.size inb_S2000x1_S2000x1_0_0
abbrev r2_2 : Rect S1x256 := Rect.unit (s := S1x256) ![0, 0] S1x256.size inb_S1x256_S1x256_0_0
abbrev r2_3 : Rect S256x256 := Rect.unit (s := S256x256) ![0, 0] S256x256.size inb_S256x256_S256x256_0_0

variable (x0 x1 : Vec F S2000x256 .f32) (x2 : Vec F S2000x1 .f32) (x3 x4 : Vec F S1x256 .f32) (x5 : Vec F S256x256 .f32)

def out2_6 : Vec F S2000x256 .f32 :=
  View.canon [⟨r2_0, k2_pay1 (View.ld x2 r2_1) (View.ld x0 r2_0) (View.ld x1 r2_0) (View.ld x3 r2_2) (View.ld x4 r2_2) (View.ld x5 r2_3)⟩]

set_option maxHeartbeats 1000000 in
-- the one store covers the whole output, so the result does not depend on what was there before
theorem sound_kernel2 {i : grid2.Coords} {arg1 arg2 arg7 : Memref sig .tc .vmem S2000x256 .f32} {arg3 : Memref sig .tc .vmem S2000x1 .f32}
    {arg4 arg5 : Memref sig .tc .vmem S1x256 .f32} {arg6 : Memref sig .tc .vmem S256x256 .f32}
    {harg1 : arg1.IsWhole} {harg2 : arg2.IsWhole} {harg3 : arg3.IsWhole} {harg4 : arg4.IsWhole} {harg5 : arg5.IsWhole}
    {harg6 : arg6.IsWhole} {harg7 : arg7.IsWhole} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out2_6 x0 x1 x2 x3 x4 x5)) -∗ K ⟨⟩))
      ⊢ wp frame (wpE (defs₀ (F := F)) Variants.none c none) Set.univ
          (cc2__gcn_stage_kernel i arg1 harg1 arg2 harg2 arg3 harg3 arg4 harg4 arg5 harg5 arg6 harg6 arg7 harg7) K := by
  simp only [cc2__gcn_stage_kernel_eq_skeleton]; unfold cc2__gcn_stage_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x256.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (w : Fin cfg2.W) : (dat2 V c).A w = V c (Pipeline.arrRef spec2 w) := rfl

theorem after2_6 (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

-- the body only reads its inputs, so at every point each one is its array's own block
theorem before2 (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ ∀ d, (dat2 V c).before 5 t d = iblk2 V c 5 t := by
  refine ⟨?_, ?_, ?_, ?_, ?_, ?_⟩ <;> exact fun d =>
    ((dat2 V c).before_in_eq_fetched _ rfl (fun _ => rfl) (fun _ _ _ => rfl) (fun _ => by dsimp only [dat2]; rfl) t d).trans rfl

theorem body_obligation2 : BodyObligation (dat2 (F := F) V c) (defs₀ (F := F)) Variants.none () Set.univ := fun t => by
  obtain ⟨b0, b1, b2, b3, b4, b5⟩ := before2 V c t
  rw [bigSep_W2, bigSep_W2]
  show _ ⊢ wp _ _ _ (bodyAt2 t) _
  simp only [b0, b1, b2, b3, b4, b5, show ∀ w i, cfg2.idle w i = false from fun _ _ => rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk2 V c 0 t) (iblk2 V c 1 t) (iblk2 V c 2 t) (iblk2 V c 3 t) (iblk2 V c 4 t) (iblk2 V c 5 t)
  iframe H0 H1 H2 H3 H4 H5
  isplitl [H6]; · iexists _; iexact H6
  iintro H
  iframe

theorem hin2 : (Pipeline.ΦA spec2 c : sProp 𝕄) ⊢ (dat2 V c).Φ 0 := .rfl

theorem hout2 : (dat2 V c).Φ (Fin.last cfg2.N) ⊢ (Pipeline.ΦA spec2 c : sProp 𝕄) := .rfl

end Region

end Cert.KernelIdeal.Hand

end
-- ==== Proof.KI.Reg3Runs.lean ====
import proofs.«405801_j48610439856177_2_alg».proof.Proof.Gen.KernelIdeal.Launch
import proofs.«405801_j48610439856177_2_alg».proof.Proof.Gen.KernelIdeal.Skeleton
import proofs.«405801_j48610439856177_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 50 = 0 :=
  (by decide +kernel : ∀ t : Fin grid3.N, cond3_0 (grid3.coords t) ↔ t.val % 50 = 0)

abbrev cond3_1 (i : grid3.Coords) : Prop := k3_cond2 i = 1#1
theorem hcond3_1 : ∀ t : Fin cfg3.N, cond3_1 (grid3.coords t) ↔ t.val % 50 = 49 :=
  (by decide +kernel : ∀ t : Fin grid3.N, cond3_1 (grid3.coords t) ↔ t.val % 50 = 49)

theorem idleAt3_6 : ∀ t : Fin cfg3.N, ¬cond3_1 (grid3.coords t) → cfg3.idle 6 (grid3.coords t) = true ∧ (cfg3.win 6).flush t = false := by decide +kernel
theorem liveAt3_6 : ∀ t : Fin cfg3.N, cond3_1 (grid3.coords t) → cfg3.idle 6 (grid3.coords t) = false := by decide +kernel

abbrev VO3_6 : View sig .tc .vmem S256x256 .f32 := (Memref.whole cc3_stg6_0 : Memref sig .tc .vmem S256x256 .f32).view
abbrev ms3_0 (t : Fin cfg3.N) : Memref sig .tc .vmem S2000x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S256x256 .f32 := win3_6.stage (cfg3.slots t 6)
abbrev hs3_6 (t : Fin cfg3.N) : (ms3_6 t).IsWhole := hstage3_6 ((cfg3.slots t 6).cast nbuf3_6)
abbrev scM3_0 : Memref sig .tc .vmem S256x256 .f32 := Memref.whole cc3_scratch0
abbrev scM3_1 : Memref sig .tc .vmem S256x1 .f32 := Memref.whole cc3_scratch1
abbrev VS3_0 : View sig .tc .vmem S256x256 .f32 := scM3_0.view
abbrev VS3_1 : View sig .tc .vmem S256x1 .f32 := scM3_1.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Region3

end Cert.KernelIdeal.Hand

end
-- ==== Proof.KI.Reg3RunA.lean ====
import proofs.«405801_j48610439856177_2_alg».proof.Proof.KI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

set_option maxHeartbeats 4000000 in
noncomputable def kernelRun3_A (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x1 .i32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (hc0 : cond3_0 i) (hc1 : ¬cond3_1 i)
    (x0 : Vec F S2000x256 .f32) (x1 : Vec F S2000x256 .f32) (x2 : Vec F S2000x1 .f32) (x3 : Vec F S1x256 .f32) (x4 : Vec F S1x256 .f32) (x5 : Vec F S2000x1 .i32) :
    Σ' (L6 : List (View.Piece (Elt F) S256x256 .f32)) (LS0 : List (View.Piece (Elt F) S256x256 .f32)), { LS1 : List (View.Piece (Elt F) S256x1 .f32) //
      ∀ (xi6 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_pool_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc3__finalize_pool_kernel_eq_skeleton]; unfold cc3__finalize_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Region3

end Cert.KernelIdeal.Hand

end
-- ==== Proof.KI.Reg3RunB.lean ====
import proofs.«405801_j48610439856177_2_alg».proof.Proof.KI.Reg3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

set_option maxHeartbeats 4000000 in
noncomputable def kernelRun3_B (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x1 .i32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (hc0 : ¬cond3_0 i) (hc1 : ¬cond3_1 i)
    (x0 : Vec F S2000x256 .f32) (x1 : Vec F S2000x256 .f32) (x2 : Vec F S2000x1 .f32) (x3 : Vec F S1x256 .f32) (x4 : Vec F S1x256 .f32) (x5 : Vec F S2000x1 .i32) (xs0 : Vec F S256x256 .f32) (xs1 : Vec F S256x1 .f32) :
    Σ' (L6 : List (View.Piece (Elt F) S256x256 .f32)) (LS0 : List (View.Piece (Elt F) S256x256 .f32)), { LS1 : List (View.Piece (Elt F) S256x1 .f32) //
      ∀ (xi6 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_pool_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc3__finalize_pool_kernel_eq_skeleton]; unfold cc3__finalize_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Region3

end Cert.KernelIdeal.Hand

end
-- ==== Proof.KI.Reg3RunC.lean ====
import proofs.«405801_j48610439856177_2_alg».proof.Proof.KI.Reg3RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

set_option maxHeartbeats 4000000 in
noncomputable def kernelRun3_C (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x1 .i32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (hc0 : ¬cond3_0 i) (hc1 : cond3_1 i)
    (x0 : Vec F S2000x256 .f32) (x1 : Vec F S2000x256 .f32) (x2 : Vec F S2000x1 .f32) (x3 : Vec F S1x256 .f32) (x4 : Vec F S1x256 .f32) (x5 : Vec F S2000x1 .i32) (xs0 : Vec F S256x256 .f32) (xs1 : Vec F S256x1 .f32) :
    Σ' (L6 : List (View.Piece (Elt F) S256x256 .f32)) (LS0 : List (View.Piece (Elt F) S256x256 .f32)), { LS1 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_pool_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc3__finalize_pool_kernel_eq_skeleton]; unfold cc3__finalize_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Region3

end Cert.KernelIdeal.Hand

end
-- ==== Proof.KI.Reg3.lean ====
import proofs.«405801_j48610439856177_2_alg».proof.Proof.KI.Reg3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b)) (c : Dev nD)

section
variable (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x1 .i32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole)

section
variable (hc0 : cond3_0 i) (hc1 : ¬cond3_1 i) (x0 x1 : Vec F S2000x256 .f32) (x2 : Vec F S2000x1 .f32) (x3 x4 : Vec F S1x256 .f32) (x5 : Vec F S2000x1 .i32)

def out3_A_6 : Vec F S256x256 .f32 :=
  VO3_6.read (Elt F) (VO3_6.writes (Elt F) VO3_6.junk (kernelRun3_A c i arg1 harg1 arg2 harg2 arg3 harg3 arg4 harg4 arg5 harg5 arg6 harg6 arg7 harg7 arg8 harg8 arg9 harg9 hc0 hc1 x0 x1 x2 x3 x4 x5).1)

theorem scover3_A_0 (y : S256x256.Idx) : ∃ pc ∈ (kernelRun3_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL _ S256x256.size (by sl_kernel_rfl) y

def sout3_A_0 : Vec F S256x256 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3 x4 x5).2.1)

theorem scover3_A_1 (y : S256x1.Idx) : ∃ pc ∈ (kernelRun3_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL _ S256x1.size (by sl_kernel_rfl) y

def sout3_A_1 : Vec F S256x1 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 hc0 hc1 x0 x1 x2 x3 x4 x5).2.2.1)

end

section
variable (hc0 : ¬cond3_0 i) (hc1 : ¬cond3_1 i) (x0 x1 : Vec F S2000x256 .f32) (x2 : Vec F S2000x1 .f32) (x3 x4 : Vec F S1x256 .f32) (x5 : Vec F S2000x1 .i32) (xs0 : Vec F S256x256 .f32) (xs1 : Vec F S256x1 .f32)

def out3_B_6 : Vec F S256x256 .f32 :=
  VO3_6.read (Elt F) (VO3_6.writes (Elt F) VO3_6.junk (kernelRun3_B c i arg1 harg1 arg2 harg2 arg3 harg3 arg4 harg4 arg5 harg5 arg6 harg6 arg7 harg7 arg8 harg8 arg9 harg9 hc0 hc1 x0 x1 x2 x3 x4 x5 xs0 xs1).1)

theorem scover3_B_0 (y : S256x256.Idx) : ∃ pc ∈ (kernelRun3_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL _ S256x256.size (by sl_kernel_rfl) y

def sout3_B_0 : Vec F S256x256 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 x4 x5 xs0 xs1).2.1)

theorem scover3_B_1 (y : S256x1.Idx) : ∃ pc ∈ (kernelRun3_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL _ S256x1.size (by sl_kernel_rfl) y

def sout3_B_1 : Vec F S256x1 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 hc0 hc1 x0 x1 x2 x3 x4 x5 xs0 xs1).2.2.1)

end

section
variable (hc0 : ¬cond3_0 i) (hc1 : cond3_1 i) (x0 x1 : Vec F S2000x256 .f32) (x2 : Vec F S2000x1 .f32) (x3 x4 : Vec F S1x256 .f32) (x5 : Vec F S2000x1 .i32) (xs0 : Vec F S256x256 .f32) (xs1 : Vec F S256x1 .f32)

theorem cover3_C_6 (y : S256x256.Idx) : ∃ pc ∈ (kernelRun3_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL _ S256x256.size (by sl_kernel_rfl) y

def out3_C_6 : Vec F S256x256 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 x4 x5 xs0 xs1).1)

theorem scover3_C_0 (y : S256x256.Idx) : ∃ pc ∈ (kernelRun3_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL _ S256x256.size (by sl_kernel_rfl) y

def sout3_C_0 : Vec F S256x256 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 x4 x5 xs0 xs1).2.1)

theorem scover3_C_1 (y : S256x1.Idx) : ∃ pc ∈ (kernelRun3_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL _ S256x1.size (by sl_kernel_rfl) y

def sout3_C_1 : Vec F S256x1 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 hc0 hc1 x0 x1 x2 x3 x4 x5 xs0 xs1).2.2.1)

end

end

-- the three buffers' contents once a run's pieces are written
def reads3 {p : List (View.Piece (Elt F) S256x256 .f32) → List (View.Piece (Elt F) S256x256 .f32) → List (View.Piece (Elt F) S256x1 .f32) → Prop}
    (r : Σ' (L6 : List (View.Piece (Elt F) S256x256 .f32)) (LS0 : List (View.Piece (Elt F) S256x256 .f32)), { LS1 : List (View.Piece (Elt F) S256x1 .f32) // p L6 LS0 LS1 }) : Vec F S256x256 .f32 × Vec F S256x256 .f32 × Vec F S256x1 .f32 :=
  (VO3_6.read (Elt F) (VO3_6.writes (Elt F) VO3_6.junk r.1), VS3_0.read (Elt F) (VS3_0.writes (Elt F) VS3_0.junk r.2.1), VS3_1.read (Elt F) (VS3_1.writes (Elt F) VS3_1.junk r.2.2.1))

-- one point of the fold: the first point ignores the accumulators, the others run over what the point before left
def stepAt3 (t : Fin cfg3.N) (acc : ¬t.val % 50 = 0 → Vec F S256x256 .f32 × Vec F S256x1 .f32) : Vec F S256x256 .f32 × Vec F S256x256 .f32 × Vec F S256x1 .f32 :=
  if h0 : t.val % 50 = 0 then
    reads3 (kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => by have := (hcond3_1 t).mp h; omega) (iblk3 V c 0 t) (iblk3 V c 1 t) (iblk3 V c 2 t) (iblk3 V c 3 t) (iblk3 V c 4 t) (iblk3 V c 5 t))
  else if h1 : t.val % 50 = 49 then
    reads3 (kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (acc h0).1 (acc h0).2)
  else
    reads3 (kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (acc h0).1 (acc h0).2)

def outsAt3 : (n : ℕ) → n < cfg3.N → Vec F S256x256 .f32 × Vec F S256x256 .f32 × Vec F S256x1 .f32
  | 0, hn => stepAt3 V c ⟨0, hn⟩ fun h => absurd (Nat.zero_mod _) h
  | n + 1, hn => stepAt3 V c ⟨n + 1, hn⟩ fun _ => (outsAt3 n (Nat.lt_of_succ_lt hn)).2

theorem outsAt3_A (t : Fin cfg3.N) (h0 : t.val % 50 = 0) (h1 : ¬t.val % 50 = 49) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t),
      sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t),
      sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨_ | n, hn⟩ := t <;> (rw [outsAt3, stepAt3, dif_pos h0]; rfl)

theorem outsAt3_B (t : Fin cfg3.N) (h0 : ¬t.val % 50 = 0) (h1 : ¬t.val % 50 = 49) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨_ | n, hn⟩ := t
  · exact absurd (Nat.zero_mod _) h0
  · rw [outsAt3, stepAt3, dif_neg h0, dif_neg h1]; rfl

theorem outsAt3_C (t : Fin cfg3.N) (h0 : ¬t.val % 50 = 0) (h1 : t.val % 50 = 49) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨_ | n, hn⟩ := t
  · exact absurd (Nat.zero_mod _) h0
  · rw [outsAt3, stepAt3, dif_neg h0, dif_pos h1]; rfl

-- the region invariant once the accumulators hold `s`
def PhiAt3 (s : Vec F S256x256 .f32 × Vec F S256x1 .f32) : sProp 𝕄 :=
  iprop(iprop(iprop(owns (c : Thread nD τ) scM3_0 fullShare s.1 ∗ owns (c : Thread nD τ) scM3_1 fullShare s.2)
          ∗ Pipeline.scopedRestBut (Ix := Unit) (Name := ℕ) (U := UR sig nD τ) (Lvl := ℕ) (Val := Elt F) spec3 c [cc3_scratch0, cc3_scratch1]) ∗ (∃ r, prngReg c r))

def PhiS3 : (n : ℕ) → n ≤ cfg3.N → sProp 𝕄
  | 0, _ => Pipeline.ΦA spec3 c
  | n + 1, hn => PhiAt3 c (outsAt3 V c n hn).2

theorem PhiS3_zero (n : ℕ) (h : n ≤ cfg3.N) (hz : n = 0) : PhiS3 V c n h = Pipeline.ΦA spec3 c := by
  subst hz; rfl

theorem PhiS3_pos (n : ℕ) (h : n ≤ cfg3.N) (hz : n ≠ 0) : PhiS3 V c n h = PhiAt3 c (outsAt3 V c (n - 1) (by omega)).2 := by
  cases n with
  | zero => exact absurd rfl hz
  | succ n => rfl

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := by
  dsimp only [dat3]

theorem after3_6 (t : Fin cfg3.N) : (dat3 V c).after 6 t = (outsAt3 V c t.val t.isLt).1 := by dsimp only [dat3]

theorem before3_0 (t : Fin cfg3.N) (d) : (dat3 V c).before 0 t d = iblk3 V c 0 t :=
  ((dat3 V c).before_in_eq_fetched 0 rfl (fun _ => rfl) (fun _ _ _ => rfl) (fun _ => rfl) t d).trans rfl
theorem before3_1 (t : Fin cfg3.N) (d) : (dat3 V c).before 1 t d = iblk3 V c 1 t :=
  ((dat3 V c).before_in_eq_fetched 1 rfl (fun _ => rfl) (fun _ _ _ => rfl) (fun _ => rfl) t d).trans rfl
theorem before3_2 (t : Fin cfg3.N) (d) : (dat3 V c).before 2 t d = iblk3 V c 2 t :=
  ((dat3 V c).before_in_eq_fetched 2 rfl (fun _ => rfl) (fun _ _ _ => rfl) (fun _ => rfl) t d).trans rfl
theorem before3_3 (t : Fin cfg3.N) (d) : (dat3 V c).before 3 t d = iblk3 V c 3 t :=
  ((dat3 V c).before_in_eq_fetched 3 rfl (fun _ => rfl) (fun _ _ _ => rfl) (fun _ => rfl) t d).trans rfl
theorem before3_4 (t : Fin cfg3.N) (d) : (dat3 V c).before 4 t d = iblk3 V c 4 t :=
  ((dat3 V c).before_in_eq_fetched 4 rfl (fun _ => rfl) (fun _ _ _ => rfl) (fun _ => rfl) t d).trans rfl
theorem before3_5 (t : Fin cfg3.N) (d) : (dat3 V c).before 5 t d = iblk3 V c 5 t :=
  ((dat3 V c).before_in_eq_fetched 5 rfl (fun _ => rfl) (fun _ _ _ => rfl) (fun _ => rfl) t d).trans rfl

def bodyPre3 (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (t : Fin cfg3.N) : sProp 𝕄 :=
  iprop(PhiAt3 c (outsAt3 V c t.val t.isLt).2 ∗ (dat3 V c).owesAt () t.castSucc
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ owns (c : Thread nD τ) (ms3_4 t) fullShare (iblk3 V c 4 t)
    ∗ owns (c : Thread nD τ) (ms3_5 t) fullShare (iblk3 V c 5 t)
    ∗ (dat3 V c).leavesExact 6 t)

set_option maxHeartbeats 8000000 in
theorem sound_body3 (t : Fin cfg3.N) :
    bodyPre3 V c t ⊢ wp frame (wpE (defs₀ (F := F)) Variants.none c none) Set.univ (bodyAt3 t) (fun _ => bodyPost3 V c t) := by
  unfold bodyPre3 bodyPost3 bodyAt3 PhiAt3
  simp only [before3_0, before3_1, before3_2, before3_3, before3_4, before3_5]
  rw [show (dat3 V c).Φ t.castSucc = PhiS3 V c t.val (Nat.le_of_lt t.isLt) from rfl]
  have hN : t.val < 50 := lt_of_lt_of_eq t.isLt (show cfg3.N = 50 from N_3)
  by_cases h0 : t.val % 50 = 0
  · have h1 : ¬t.val % 50 = 49 := by omega
    rw [Dat.leavesExact_idle (dat3 V c) 6 t (idleAt3_6 t (fun h => h1 ((hcond3_1 t).mp h))).1 (idleAt3_6 t (fun h => h1 ((hcond3_1 t).mp h))).2, outsAt3_A V c t h0 h1]
    unfold sout3_A_0 sout3_A_1; (try dsimp only)
    rw [PhiS3_zero V c _ _ (by omega), PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2 _ Set.univ _)
    iframe H0 H1 H2 H3 H4 H5 H6 HS0 HS1
    iintro ⟨H0, H1, H2, H3, H4, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_A_0 _ _ _ _ _ _ _ _ _ _ _ _ _ _ _ _ _ _ _ _ _ _ _ _ _ _ _ _)
          unfold owns; iexists _; isplitr
          swap; · iexact HS1
          ipureintro; exact View.read_writes_of_cover _ _ _ _ _ (scover3_A_1 _ _ _ _ _ _ _ _ _ _ _ _ _ _ _ _ _ _ _ _ _ _ _ _ _ _ _ _)
        iexact HR
      iexact Hg
    iframe Ho H0 H1 H2 H3 H4 H5
    iexists _; iexact H6
  · rw [PhiS3_pos V c _ _ (fun hz => h0 (by rw [hz])), PhiAt3]
    by_cases h1 : t.val % 50 = 49
    · rw [show (dat3 V c).leavesExact 6 t = owns (c : Thread nD τ) (ms3_6 t) fullShare ((dat3 V c).after 6 t) from by
        unfold Dat.leavesExact; rw [liveAt3_6 t ((hcond3_1 t).mpr h1)], after3_6, outsAt3_C V c t h0 h1]
      unfold out3_C_6 sout3_C_0 sout3_C_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_C_1 _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover3_C_6 _ _ _ _ _ _ _ _ _ _ _ _ _ _ _ _ _ _ _ _ _ _ _ _ _ _ _ _ _ _)
    · rw [Dat.leavesExact_idle (dat3 V c) 6 t (idleAt3_6 t (fun h => h1 ((hcond3_1 t).mp h))).1 (idleAt3_6 t (fun h => h1 ((hcond3_1 t).mp h))).2, outsAt3_B V c t h0 h1]
      unfold sout3_B_0 sout3_B_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _ _).2.2.2 _ Set.univ _)
      iframe H0 H1 H2 H3 H4 H5 H6 HS0 HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_B_1 _ _ _ _ _ _ _ _ _ _ _ _ _ _ _ _ _ _ _ _ _ _ _ _ _ _ _ _ _ _)
          iexact HR
        iexact Hg
      iframe Ho H0 H1 H2 H3 H4 H5
      iexists _; iexact H6

theorem body_obligation3 : BodyObligation (dat3 (F := F) V c) (defs₀ (F := F)) Variants.none () Set.univ := fun t => by
  rw [bigSep_W3, bigSep_W3]
  exact sound_body3 V c t

theorem hin3 : (Pipeline.ΦA spec3 c : sProp 𝕄) ⊢ (dat3 V c).Φ 0 :=
  Idealize.SL.BI.Entails.refl _

theorem hout3 : (dat3 V c).Φ (Fin.last cfg3.N) ⊢ (Pipeline.ΦA spec3 c : sProp 𝕄) := by
  rw [show (dat3 V c).Φ (Fin.last cfg3.N) = PhiS3 V c cfg3.N (Nat.le_refl _) from rfl, PhiS3_pos V c _ _ (by have : cfg3.N = 50 := N_3; omega), PhiAt3, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region3

end Cert.KernelIdeal.Hand

end
-- ==== Proof.KI.Run.lean ====
import proofs.«405801_j48610439856177_2_alg».proof.Proof.Gen.KernelIdeal.Launch
import proofs.«405801_j48610439856177_2_alg».proof.Proof.Gen.KernelIdeal.Skeleton
import proofs.«405801_j48610439856177_2_alg».proof.Proof.Gen.KernelIdeal.Points
import proofs.«405801_j48610439856177_2_alg».proof.Proof.Gen.KernelIdeal.Regions
import proofs.«405801_j48610439856177_2_alg».proof.Proof.KI.Reg0
import proofs.«405801_j48610439856177_2_alg».proof.Proof.KI.Reg1
import proofs.«405801_j48610439856177_2_alg».proof.Proof.KI.Reg2
import proofs.«405801_j48610439856177_2_alg».proof.Proof.KI.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (r : Ref sig .tc) (h : r ∉ hostOps0_W) :
    W1 m ρ c (Proc.devRef .tc r) = W0 m ρ c (Proc.devRef .tc r) :=
  StableHlo.after_of_writes_sub hostOps0 _ hostOps0_writes h
abbrev W2 : Dev nD → Valuation τ sig (Elt F) := fun c => StableHlo.after hostOps0_1 (W1 m ρ c)
theorem W2_of (r : Ref sig .tc) (h : r ∉ hostOps0_1_W) :
    W2 m ρ c (Proc.devRef .tc r) = W1 m ρ c (Proc.devRef .tc r) :=
  StableHlo.after_of_writes_sub hostOps0_1 _ hostOps0_1_writes h
abbrev W3 : Dev nD → Valuation τ sig (Elt F) := fun c => StableHlo.after hostOps0_2 (W2 m ρ c)
theorem W3_of (r : Ref sig .tc) (h : r ∉ hostOps0_2_W) :
    W3 m ρ c (Proc.devRef .tc r) = W2 m ρ c (Proc.devRef .tc r) :=
  StableHlo.after_of_writes_sub hostOps0_2 _ hostOps0_2_writes h
abbrev V3 : (c : Dev nD) → (b : Ref sig .tc) → Buf (Elt F) ((c : Thread nD τ).loc b) := fun c b => W3 m ρ c b
def W4 : Valuation τ sig (Elt F) :=
  Pipeline.withArrays spec0 c (W3 m ρ c) fun w => (dat0 (V3 m ρ) c).arrAt w cfg0.N
theorem W4_arr (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev W5 : Dev nD → Valuation τ sig (Elt F) := fun c => StableHlo.after hostOps1 (W4 m ρ c)
theorem W5_of (r : Ref sig .tc) (h : r ∉ hostOps1_W) :
    W5 m ρ c (Proc.devRef .tc r) = W4 m ρ c (Proc.devRef .tc r) :=
  StableHlo.after_of_writes_sub hostOps1 _ hostOps1_writes h
abbrev V5 : (c : Dev nD) → (b : Ref sig .tc) → Buf (Elt F) ((c : Thread nD τ).loc b) := fun c b => W5 m ρ c b
def W6 : Valuation τ sig (Elt F) :=
  Pipeline.withArrays spec1 c (W5 m ρ c) fun w => (dat1 (V5 m ρ) c).arrAt w cfg1.N
theorem W6_arr (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (b : Ref sig .tc) (hb : ∀ w, Pipeline.arrRef spec1 w ≠ b) :
    W6 m ρ c (Proc.devRef .tc b) = W5 m ρ c (Proc.devRef .tc b) :=
  Pipeline.withArrays_of_ne spec1 c _ _ b hb
abbrev W7 : Dev nD → Valuation τ sig (Elt F) := fun c => StableHlo.after hostOps2 (W6 m ρ c)
theorem W7_of (r : Ref sig .tc) (h : r ∉ hostOps2_W) :
    W7 m ρ c (Proc.devRef .tc r) = W6 m ρ c (Proc.devRef .tc r) :=
  StableHlo.after_of_writes_sub hostOps2 _ hostOps2_writes h
abbrev V7 : (c : Dev nD) → (b : Ref sig .tc) → Buf (Elt F) ((c : Thread nD τ).loc b) := fun c b => W7 m ρ c b
def W8 : Valuation τ sig (Elt F) :=
  Pipeline.withArrays spec2 c (W7 m ρ c) fun w => (dat2 (V7 m ρ) c).arrAt w cfg2.N
theorem W8_arr (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (b : Ref sig .tc) (hb : ∀ w, Pipeline.arrRef spec2 w ≠ b) :
    W8 m ρ c (Proc.devRef .tc b) = W7 m ρ c (Proc.devRef .tc b) :=
  Pipeline.withArrays_of_ne spec2 c _ _ b hb
abbrev W9 : Dev nD → Valuation τ sig (Elt F) := fun c => StableHlo.after hostOps3 (W8 m ρ c)
theorem W9_of (r : Ref sig .tc) (h : r ∉ hostOps3_W) :
    W9 m ρ c (Proc.devRef .tc r) = W8 m ρ c (Proc.devRef .tc r) :=
  StableHlo.after_of_writes_sub hostOps3 _ hostOps3_writes h
abbrev V9 : (c : Dev nD) → (b : Ref sig .tc) → Buf (Elt F) ((c : Thread nD τ).loc b) := fun c b => W9 m ρ c b
def W10 : Valuation τ sig (Elt F) :=
  Pipeline.withArrays spec3 c (W9 m ρ c) fun w => (dat3 (V9 m ρ) c).arrAt w cfg3.N
theorem W10_arr (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (b : Ref sig .tc) (hb : ∀ w, Pipeline.arrRef spec3 w ≠ b) :
    W10 m ρ c (Proc.devRef .tc b) = W9 m ρ c (Proc.devRef .tc b) :=
  Pipeline.withArrays_of_ne spec3 c _ _ b hb
abbrev W11 : Dev nD → Valuation τ sig (Elt F) := fun c => StableHlo.after hostOps4 (W10 m ρ c)
theorem W11_of (r : Ref sig .tc) (h : r ∉ hostOps4_W) :
    W11 m ρ c (Proc.devRef .tc r) = W10 m ρ c (Proc.devRef .tc r) :=
  StableHlo.after_of_writes_sub hostOps4 _ hostOps4_writes h

-- The exit valuation agrees with the entry one at a reference whose windows are all inputs: an input's array keeps its entry contents.
theorem keep {cfg : Pipeline.Cfg sig Λ₀} {c : Dev nD} (d : Dat τ (Elt F) Unit ℕ (UR sig nD τ) ℕ cfg c)
    (hinj : Function.Injective (Pipeline.arrRef cfg.spec)) (V : Valuation τ sig (Elt F))
    (hA : ∀ w, d.A w = V (Proc.devRef .tc (Pipeline.arrRef cfg.spec w))) (r : Ref sig .tc)
    (hr : ∀ w, Pipeline.arrRef cfg.spec w = r → (cfg.win w).isOut = false) :
    Pipeline.withArrays cfg.spec c V (fun w => d.arrAt w cfg.N) (Proc.devRef .tc r) = V (Proc.devRef .tc r) := by
  by_cases hb : ∃ w, Pipeline.arrRef cfg.spec w = r
  · obtain ⟨w, rfl⟩ := hb
    exact (Pipeline.withArrays_arr cfg.spec hinj c V _ w).trans ((d.arrAt_in w (hr w rfl) _).trans (hA w))
  · exact Pipeline.withArrays_of_ne cfg.spec c V _ r fun w e => hb ⟨w, e⟩

-- Walk the fold back to the launch memory: every host stretch and every region leaves `r` as it found it.
theorem W11_kept (r : Ref sig .tc)
    (h : r ∉ hostOps0_W ∧ r ∉ hostOps0_1_W ∧ r ∉ hostOps0_2_W ∧ r ∉ hostOps1_W ∧ r ∉ hostOps2_W ∧ r ∉ hostOps3_W ∧ r ∉ hostOps4_W
      ∧ (∀ w, Pipeline.arrRef spec0 w = r → (cfg0.win w).isOut = false) ∧ (∀ w, Pipeline.arrRef spec1 w = r → (cfg1.win w).isOut = false)
      ∧ (∀ w, Pipeline.arrRef spec2 w = r → (cfg2.win w).isOut = false) ∧ ∀ w, Pipeline.arrRef spec3 w = r → (cfg3.win w).isOut = false) :
    W11 m ρ c (Proc.devRef .tc r) = m ((c : Thread nD τ).loc r) := by
  obtain ⟨a0, a1, a2, a4, a6, a8, a10, e0, e1, e2, e3⟩ := h
  exact (W11_of m ρ c r a10).trans <| (keep (dat3 (V9 m ρ) c) launch3.win.arr_inj _ (A_eq3 (V9 m ρ) c) r e3).trans <|
    (W9_of m ρ c r a8).trans <| (keep (dat2 (V7 m ρ) c) launch2.win.arr_inj _ (A_eq2 (V7 m ρ) c) r e2).trans <|
    (W7_of m ρ c r a6).trans <| (keep (dat1 (V5 m ρ) c) launch1.win.arr_inj _ (A_eq1 (V5 m ρ) c) r e1).trans <|
    (W5_of m ρ c r a4).trans <| (keep (dat0 (V3 m ρ) c) launch0.win.arr_inj _ (A_eq0 (V3 m ρ) c) r e0).trans <|
    (W3_of m ρ c r a2).trans <| (W2_of m ρ c r a1).trans <| W1_of m ρ c r a0

theorem W11_main_arg0 : W11 m ρ c (Proc.devRef .tc main_arg0) = m ((c : Thread nD τ).loc main_arg0) :=
  W11_kept m ρ c _ (by decide)
theorem W11_main_arg1 : W11 m ρ c (Proc.devRef .tc main_arg1) = m ((c : Thread nD τ).loc main_arg1) :=
  W11_kept m ρ c _ (by decide)
theorem W11_main_arg2 : W11 m ρ c (Proc.devRef .tc main_arg2) = m ((c : Thread nD τ).loc main_arg2) :=
  W11_kept m ρ c _ (by decide)
theorem W11_main_arg3 : W11 m ρ c (Proc.devRef .tc main_arg3) = m ((c : Thread nD τ).loc main_arg3) :=
  W11_kept m ρ c _ (by decide)
theorem W11_main_arg4 : W11 m ρ c (Proc.devRef .tc main_arg4) = m ((c : Thread nD τ).loc main_arg4) :=
  W11_kept m ρ c _ (by decide)
theorem W11_main_arg5 : W11 m ρ c (Proc.devRef .tc main_arg5) = m ((c : Thread nD τ).loc main_arg5) :=
  W11_kept m ρ c _ (by decide)
theorem W11_main_arg6 : W11 m ρ c (Proc.devRef .tc main_arg6) = m ((c : Thread nD τ).loc main_arg6) :=
  W11_kept m ρ c _ (by decide)
theorem W11_main_arg7 : W11 m ρ c (Proc.devRef .tc main_arg7) = m ((c : Thread nD τ).loc main_arg7) :=
  W11_kept m ρ c _ (by decide)
theorem W11_main_arg8 : W11 m ρ c (Proc.devRef .tc main_arg8) = m ((c : Thread nD τ).loc main_arg8) :=
  W11_kept m ρ c _ (by decide)
theorem W11_main_arg9 : W11 m ρ c (Proc.devRef .tc main_arg9) = m ((c : Thread nD τ).loc main_arg9) :=
  W11_kept m ρ c _ (by decide)
theorem W11_main_arg10 : W11 m ρ c (Proc.devRef .tc main_arg10) = m ((c : Thread nD τ).loc main_arg10) :=
  W11_kept m ρ c _ (by decide)
theorem W11_main_arg11 : W11 m ρ c (Proc.devRef .tc main_arg11) = m ((c : Thread nD τ).loc main_arg11) :=
  W11_kept m ρ c _ (by decide)
theorem W11_main_arg12 : W11 m ρ c (Proc.devRef .tc main_arg12) = m ((c : Thread nD τ).loc main_arg12) :=
  W11_kept m ρ c _ (by decide)
theorem W11_main_arg13 : W11 m ρ c (Proc.devRef .tc main_arg13) = m ((c : Thread nD τ).loc main_arg13) :=
  W11_kept m ρ c _ (by decide)
theorem W11_main_arg14 : W11 m ρ c (Proc.devRef .tc main_arg14) = m ((c : Thread nD τ).loc main_arg14) :=
  W11_kept m ρ c _ (by decide)
theorem W11_main_arg15 : W11 m ρ c (Proc.devRef .tc main_arg15) = m ((c : Thread nD τ).loc main_arg15) :=
  W11_kept m ρ c _ (by decide)
theorem W11_main_arg16 : W11 m ρ c (Proc.devRef .tc main_arg16) = m ((c : Thread nD τ).loc main_arg16) :=
  W11_kept m ρ c _ (by decide)
theorem W11_main_arg17 : W11 m ρ c (Proc.devRef .tc main_arg17) = m ((c : Thread nD τ).loc main_arg17) :=
  W11_kept m ρ c _ (by decide)
theorem W11_main_arg18 : W11 m ρ c (Proc.devRef .tc main_arg18) = m ((c : Thread nD τ).loc main_arg18) :=
  W11_kept m ρ c _ (by decide)
theorem W11_main_arg19 : W11 m ρ c (Proc.devRef .tc main_arg19) = m ((c : Thread nD τ).loc main_arg19) :=
  W11_kept m ρ c _ (by decide)
theorem W11_main_arg20 : W11 m ρ c (Proc.devRef .tc main_arg20) = m ((c : Thread nD τ).loc main_arg20) :=
  W11_kept m ρ c _ (by decide)
theorem W11_main_arg21 : W11 m ρ c (Proc.devRef .tc main_arg21) = m ((c : Thread nD τ).loc main_arg21) :=
  W11_kept m ρ c _ (by decide)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region as a segment: its arrays leave the unscoped buffers at entry and return at their exit contents; nothing is owed.
def reg (p : Fin 4) (la : Pipeline.LaunchFacts (nD := nD) (τ := τ) cfgs p) (Wi Wo : Dev nD → Valuation τ sig (Elt F))
    (hb : ∀ c, BodyObligation (pdats m ρ p c) defs₀ 𝒱₀ () Set.univ)
    (hq : ∀ c w, (pdats m ρ p c).q w = fullShare)
    (hA : ∀ c w, (pdats m ρ p c).A w = Wi c (Proc.devRef .tc (Pipeline.arrRef (cfgs p).spec w)))
    (hz : ∀ c t, (pdats m ρ p c).owed t = 0) (hrc : ∀ c x, x ∈ (pdats m ρ p c).recorded 0)
    (hi : ∀ c, Pipeline.ΦA (cfgs p).spec c ⊢ (pdats m ρ p c).Φ 0)
    (ho : ∀ c, (pdats m ρ p c).Φ (Fin.last (cfgs p).N) ⊢ Pipeline.ΦA (cfgs p).spec c)
    (hF : ∀ c w, Wo c (Proc.devRef .tc (Pipeline.arrRef (cfgs p).spec w)) = (pdats m ρ p c).arrAt w (cfgs p).N)
    (hr : ∀ c b, (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c (Proc.devRef .tc b)
  hentry c := by
    rw [Pipeline.ownSems0_none]
    have hsplit := Pipeline.arrays_of_unscopedBufs (pcfgs (F := F)) adm (pdats m ρ) la.win la.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hz c]
      icases HO with ⟨%W, HO⟩; iexists W; isplitr; · ipureintro; exact fun _ _ => Or.inl (hrc c _)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (pcfgs (F := F)) adm (Ix := Unit) (Name := ℕ) (U := UR sig nD τ) (Lvl := ℕ)
      la.win la.arr_whole c (pdats m ρ) ((pdats m ρ p c).share_full (hq c))
      (fun b => Wi c (Proc.devRef .tc b)) (fun b => Wo c (Proc.devRef .tc b)) ((pdats m ρ p c).arrAt · (cfgs p).N) (fun w => (hF c w).symm)
      fun b hb => hr c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hz c]
    icases HO with ⟨%W, -, HO⟩; iexists W; iexact HO

abbrev reg0 := reg m ρ 0 launch0 (W3 m ρ) (W4 m ρ) (body_obligation0 (V3 m ρ)) (fun _ _ => rfl) (fun _ _ => rfl) (fun _ _ => rfl) (fun _ _ => trivial)
  (hin0 (V3 m ρ)) (hout0 (V3 m ρ)) (W4_arr m ρ) (W4_of_ne m ρ)
abbrev reg1 := reg m ρ 1 launch1 (W5 m ρ) (W6 m ρ) (body_obligation1 (V5 m ρ)) (fun _ _ => rfl) (fun _ _ => rfl) (fun _ _ => rfl) (fun _ _ => trivial)
  (hin1 (V5 m ρ)) (hout1 (V5 m ρ)) (W6_arr m ρ) (W6_of_ne m ρ)
abbrev reg2 := reg m ρ 2 launch2 (W7 m ρ) (W8 m ρ) (body_obligation2 (V7 m ρ)) (fun _ _ => rfl) (fun _ _ => rfl) (fun _ _ => rfl) (fun _ _ => trivial)
  (hin2 (V7 m ρ)) (hout2 (V7 m ρ)) (W8_arr m ρ) (W8_of_ne m ρ)
abbrev reg3 := reg m ρ 3 launch3 (W9 m ρ) (W10 m ρ) (body_obligation3 (V9 m ρ)) (fun _ _ => rfl) (fun _ _ => rfl) (fun _ _ => rfl) (fun _ _ => trivial)
  (hin3 (V9 m ρ)) (hout3 (V9 m ρ)) (W10_arr m ρ) (W10_of_ne m ρ)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]
theorem main_run : main (F := F) c = Pipeline.Seg.run (segs m ρ) := (main_chain c).trans (by chain_rfl)

set_option backward.isDefEq.respectTransparency.types false in
-- The launch over the segments, at any post that follows from every unscoped buffer holding the last boundary's contents.
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W11 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := hQ)

theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  run_post m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  run_post m ρ fun s h c => by
    and_intros <;> exact (h c _ (mem_uc _ (by decide))).trans (W11_kept m ρ c _ (by decide))

end Cert.KernelIdeal.Hand

end
-- ==== Proof.K.Reg0.lean ====
import proofs.«405801_j48610439856177_2_alg».proof.Proof.Gen.Kernel.Launch
import proofs.«405801_j48610439856177_2_alg».proof.Proof.Gen.Kernel.Skeleton
import proofs.«405801_j48610439856177_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b)) (c : Dev nD)

def iblk0 (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x256 := Rect.unit (s := S2000x256) ![0, 0] S2000x256.size inb_S2000x256_S2000x256_0_0
abbrev r0_1 : Rect S256x256 := Rect.unit (s := S256x256) ![0, 0] S256x256.size inb_S256x256_S256x256_0_0
abbrev r0_2 : Rect S2000x1 := Rect.unit (s := S2000x1) ![0, 0] S2000x1.size inb_S2000x1_S2000x1_0_0

variable (x0 : Vec F S2000x256 .f32) (x1 : Vec F S256x256 .f32) (x2 : Vec F S2000x1 .f32)

def out0_3 : Vec F S2000x256 .f32 :=
  View.canon [⟨r0_0, k0_pay1 (View.ld x0 r0_0) (View.ld x1 r0_1) (View.ld x2 r0_2)⟩]

set_option maxHeartbeats 1000000 in
-- the one store covers the whole output, so the result does not depend on what was there before
theorem sound_kernel0 {i : grid0.Coords} {arg1 arg4 : Memref sig .tc .vmem S2000x256 .f32} {arg2 : Memref sig .tc .vmem S256x256 .f32}
    {arg3 : Memref sig .tc .vmem S2000x1 .f32} {harg1 : arg1.IsWhole} {harg2 : arg2.IsWhole} {harg3 : arg3.IsWhole}
    {harg4 : arg4.IsWhole} {K : PUnit → sProp 𝕄} :
    iprop(owns c arg1 fullShare x0 ∗ owns c arg2 fullShare x1 ∗ owns c arg3 fullShare x2 ∗ (∃ d, owns c arg4 fullShare d)
        ∗ (iprop(owns c arg1 fullShare x0 ∗ owns c arg2 fullShare x1 ∗ owns c arg3 fullShare x2
            ∗ owns c arg4 fullShare (out0_3 x0 x1 x2)) -∗ K ⟨⟩))
      ⊢ wp frame (wpE (defs₀ (F := F)) Variants.none c none) Set.univ
          (cc0__matmul_prescale_kernel i arg1 harg1 arg2 harg2 arg3 harg3 arg4 harg4) K := by
  simp only [cc0__matmul_prescale_kernel_eq_skeleton]; unfold cc0__matmul_prescale_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2000x256.size (by rfl))

def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (w : Fin cfg0.W) : (dat0 V c).A w = V c (Pipeline.arrRef spec0 w) := rfl

theorem after0_3 (t : Fin cfg0.N) :
    (dat0 V c).after 3 t = out0_3 (iblk0 V c 0 t) (iblk0 V c 1 t) (iblk0 V c 2 t) := by dsimp only [dat0]

-- the body only reads its inputs, so at every point each one is its array's own block
theorem before0 (t : Fin cfg0.N) : (∀ d, (dat0 V c).before 0 t d = iblk0 V c 0 t) ∧ (∀ d, (dat0 V c).before 1 t d = iblk0 V c 1 t)
    ∧ ∀ d, (dat0 V c).before 2 t d = iblk0 V c 2 t := by
  refine ⟨?_, ?_, ?_⟩ <;> exact fun d =>
    ((dat0 V c).before_in_eq_fetched _ rfl (fun _ => rfl) (fun _ _ _ => rfl) (fun _ => by dsimp only [dat0]; rfl) t d).trans rfl

theorem body_obligation0 : BodyObligation (dat0 (F := F) V c) (defs₀ (F := F)) Variants.none () Set.univ := fun t => by
  obtain ⟨b0, b1, b2⟩ := before0 V c t
  rw [bigSep_W0, bigSep_W0]
  show _ ⊢ wp _ _ _ (bodyAt0 t) _
  simp only [b0, b1, b2, show ∀ w i, cfg0.idle w i = false from fun _ _ => rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩⟩
  iapply sound_kernel0 c (iblk0 V c 0 t) (iblk0 V c 1 t) (iblk0 V c 2 t)
  iframe H0 H1 H2
  isplitl [H3]; · iexists _; iexact H3
  iintro H
  iframe

theorem hin0 : (Pipeline.ΦA spec0 c : sProp 𝕄) ⊢ (dat0 V c).Φ 0 := .rfl

theorem hout0 : (dat0 V c).Φ (Fin.last cfg0.N) ⊢ (Pipeline.ΦA spec0 c : sProp 𝕄) := .rfl

end Region0

end Cert.Kernel.Hand
-- ==== Proof.K.Reg1.lean ====
import proofs.«405801_j48610439856177_2_alg».proof.Proof.Gen.Kernel.Launch
import proofs.«405801_j48610439856177_2_alg».proof.Proof.Gen.Kernel.Skeleton
import proofs.«405801_j48610439856177_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S2000x256 := Rect.unit (s := S2000x256) ![0, 0] S2000x256.size inb_S2000x256_S2000x256_0_0
abbrev r1_1 : Rect S2000x1 := Rect.unit (s := S2000x1) ![0, 0] S2000x1.size inb_S2000x1_S2000x1_0_0
abbrev r1_2 : Rect S1x256 := Rect.unit (s := S1x256) ![0, 0] S1x256.size inb_S1x256_S1x256_0_0
abbrev r1_3 : Rect S256x256 := Rect.unit (s := S256x256) ![0, 0] S256x256.size inb_S256x256_S256x256_0_0

variable (x0 x1 : Vec F S2000x256 .f32) (x2 : Vec F S2000x1 .f32) (x3 x4 : Vec F S1x256 .f32) (x5 : Vec F S256x256 .f32)

def out1_6 : Vec F S2000x256 .f32 :=
  View.canon [⟨r1_0, k1_pay1 (View.ld x2 r1_1) (View.ld x0 r1_0) (View.ld x1 r1_0) (View.ld x3 r1_2) (View.ld x4 r1_2) (View.ld x5 r1_3)⟩]

set_option maxHeartbeats 1000000 in
-- the one store covers the whole output, so the result does not depend on what was there before
theorem sound_kernel1 {i : grid1.Coords} {arg1 arg2 arg7 : Memref sig .tc .vmem S2000x256 .f32} {arg3 : Memref sig .tc .vmem S2000x1 .f32}
    {arg4 arg5 : Memref sig .tc .vmem S1x256 .f32} {arg6 : Memref sig .tc .vmem S256x256 .f32}
    {harg1 : arg1.IsWhole} {harg2 : arg2.IsWhole} {harg3 : arg3.IsWhole} {harg4 : arg4.IsWhole} {harg5 : arg5.IsWhole}
    {harg6 : arg6.IsWhole} {harg7 : arg7.IsWhole} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out1_6 x0 x1 x2 x3 x4 x5)) -∗ K ⟨⟩))
      ⊢ wp frame (wpE (defs₀ (F := F)) Variants.none c none) Set.univ
          (cc1__gcn_stage_kernel i arg1 harg1 arg2 harg2 arg3 harg3 arg4 harg4 arg5 harg5 arg6 harg6 arg7 harg7) K := by
  simp only [cc1__gcn_stage_kernel_eq_skeleton]; unfold cc1__gcn_stage_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x256.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (w : Fin cfg1.W) : (dat1 V c).A w = V c (Pipeline.arrRef spec1 w) := rfl

theorem after1_6 (t : Fin cfg1.N) : (dat1 V c).after 6 t =
    out1_6 (iblk1 V c 0 t) (iblk1 V c 1 t) (iblk1 V c 2 t) (iblk1 V c 3 t) (iblk1 V c 4 t) (iblk1 V c 5 t) := by dsimp only [dat1]

-- the body only reads its inputs, so at every point each one is its array's own block
theorem before1 (t : Fin cfg1.N) : (∀ d, (dat1 V c).before 0 t d = iblk1 V c 0 t) ∧ (∀ d, (dat1 V c).before 1 t d = iblk1 V c 1 t)
    ∧ (∀ d, (dat1 V c).before 2 t d = iblk1 V c 2 t) ∧ (∀ d, (dat1 V c).before 3 t d = iblk1 V c 3 t)
    ∧ (∀ d, (dat1 V c).before 4 t d = iblk1 V c 4 t) ∧ ∀ d, (dat1 V c).before 5 t d = iblk1 V c 5 t := by
  refine ⟨?_, ?_, ?_, ?_, ?_, ?_⟩ <;> exact fun d =>
    ((dat1 V c).before_in_eq_fetched _ rfl (fun _ => rfl) (fun _ _ _ => rfl) (fun _ => by dsimp only [dat1]; rfl) t d).trans rfl

theorem body_obligation1 : BodyObligation (dat1 (F := F) V c) (defs₀ (F := F)) Variants.none () Set.univ := fun t => by
  obtain ⟨b0, b1, b2, b3, b4, b5⟩ := before1 V c t
  rw [bigSep_W1, bigSep_W1]
  show _ ⊢ wp _ _ _ (bodyAt1 t) _
  simp only [b0, b1, b2, b3, b4, b5, show ∀ w i, cfg1.idle w i = false from fun _ _ => rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel1 c (iblk1 V c 0 t) (iblk1 V c 1 t) (iblk1 V c 2 t) (iblk1 V c 3 t) (iblk1 V c 4 t) (iblk1 V c 5 t)
  iframe H0 H1 H2 H3 H4 H5
  isplitl [H6]; · iexists _; iexact H6
  iintro H
  iframe

theorem hin1 : (Pipeline.ΦA spec1 c : sProp 𝕄) ⊢ (dat1 V c).Φ 0 := .rfl

theorem hout1 : (dat1 V c).Φ (Fin.last cfg1.N) ⊢ (Pipeline.ΦA spec1 c : sProp 𝕄) := .rfl

end Region

end Cert.Kernel.Hand

end
-- ==== Proof.K.Reg2.lean ====
import proofs.«405801_j48610439856177_2_alg».proof.Proof.Gen.Kernel.Launch
import proofs.«405801_j48610439856177_2_alg».proof.Proof.Gen.Kernel.Skeleton
import proofs.«405801_j48610439856177_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S2000x256 := Rect.unit (s := S2000x256) ![0, 0] S2000x256.size inb_S2000x256_S2000x256_0_0
abbrev r2_1 : Rect S2000x1 := Rect.unit (s := S2000x1) ![0, 0] S2000x1.size inb_S2000x1_S2000x1_0_0
abbrev r2_2 : Rect S1x256 := Rect.unit (s := S1x256) ![0, 0] S1x256.size inb_S1x256_S1x256_0_0
abbrev r2_3 : Rect S256x256 := Rect.unit (s := S256x256) ![0, 0] S256x256.size inb_S256x256_S256x256_0_0

variable (x0 x1 : Vec F S2000x256 .f32) (x2 : Vec F S2000x1 .f32) (x3 x4 : Vec F S1x256 .f32) (x5 : Vec F S256x256 .f32)

def out2_6 : Vec F S2000x256 .f32 :=
  View.canon [⟨r2_0, k2_pay1 (View.ld x2 r2_1) (View.ld x0 r2_0) (View.ld x1 r2_0) (View.ld x3 r2_2) (View.ld x4 r2_2) (View.ld x5 r2_3)⟩]

set_option maxHeartbeats 1000000 in
-- the one store covers the whole output, so the result does not depend on what was there before
theorem sound_kernel2 {i : grid2.Coords} {arg1 arg2 arg7 : Memref sig .tc .vmem S2000x256 .f32} {arg3 : Memref sig .tc .vmem S2000x1 .f32}
    {arg4 arg5 : Memref sig .tc .vmem S1x256 .f32} {arg6 : Memref sig .tc .vmem S256x256 .f32}
    {harg1 : arg1.IsWhole} {harg2 : arg2.IsWhole} {harg3 : arg3.IsWhole} {harg4 : arg4.IsWhole} {harg5 : arg5.IsWhole}
    {harg6 : arg6.IsWhole} {harg7 : arg7.IsWhole} {K : PUnit → sProp 𝕄} :
    iprop(owns c arg1 fullShare x0 ∗ owns c arg2 fullShare x1 ∗ owns c arg3 fullShare x2 ∗ owns c arg4 fullShare x3
        ∗ owns c arg5 fullShare x4 ∗ owns c arg6 fullShare x5 ∗ (∃ d, owns c arg7 fullShare d)
        ∗ (iprop(owns c arg1 fullShare x0 ∗ owns c arg2 fullShare x1 ∗ owns c arg3 fullShare x2 ∗ owns c arg4 fullShare x3
            ∗ owns c arg5 fullShare x4 ∗ owns c arg6 fullShare x5 ∗ owns c arg7 fullShare (out2_6 x0 x1 x2 x3 x4 x5)) -∗ K ⟨⟩))
      ⊢ wp frame (wpE (defs₀ (F := F)) Variants.none c none) Set.univ
          (cc2__gcn_stage_kernel i arg1 harg1 arg2 harg2 arg3 harg3 arg4 harg4 arg5 harg5 arg6 harg6 arg7 harg7) K := by
  simp only [cc2__gcn_stage_kernel_eq_skeleton]; unfold cc2__gcn_stage_kernel_skel owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (View.cover_of_tiled _ S2000x256.size (by rfl))

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (w : Fin cfg2.W) : (dat2 V c).A w = V c (Pipeline.arrRef spec2 w) := rfl

theorem after2_6 (t : Fin cfg2.N) : (dat2 V c).after 6 t =
    out2_6 (iblk2 V c 0 t) (iblk2 V c 1 t) (iblk2 V c 2 t) (iblk2 V c 3 t) (iblk2 V c 4 t) (iblk2 V c 5 t) := by dsimp only [dat2]

-- the body only reads its inputs, so at every point each one is its array's own block
theorem before2 (t : Fin cfg2.N) : (∀ d, (dat2 V c).before 0 t d = iblk2 V c 0 t) ∧ (∀ d, (dat2 V c).before 1 t d = iblk2 V c 1 t)
    ∧ (∀ d, (dat2 V c).before 2 t d = iblk2 V c 2 t) ∧ (∀ d, (dat2 V c).before 3 t d = iblk2 V c 3 t)
    ∧ (∀ d, (dat2 V c).before 4 t d = iblk2 V c 4 t) ∧ ∀ d, (dat2 V c).before 5 t d = iblk2 V c 5 t := by
  refine ⟨?_, ?_, ?_, ?_, ?_, ?_⟩ <;> exact fun d =>
    ((dat2 V c).before_in_eq_fetched _ rfl (fun _ => rfl) (fun _ _ _ => rfl) (fun _ => by dsimp only [dat2]; rfl) t d).trans rfl

theorem body_obligation2 : BodyObligation (dat2 (F := F) V c) (defs₀ (F := F)) Variants.none () Set.univ := fun t => by
  obtain ⟨b0, b1, b2, b3, b4, b5⟩ := before2 V c t
  rw [bigSep_W2, bigSep_W2]
  show _ ⊢ wp _ _ _ (bodyAt2 t) _
  simp only [b0, b1, b2, b3, b4, b5, show ∀ w i, cfg2.idle w i = false from fun _ _ => rfl,
    show (dat2 V c).owesAt () t.succ = (dat2 V c).owesAt () t.castSucc from rfl]
  dsimp only [dat2]
  iintro ⟨HΦ, Ho, ⟨%d0, H0⟩, ⟨%d1, H1⟩, ⟨%d2, H2⟩, ⟨%d3, H3⟩, ⟨%d4, H4⟩, ⟨%d5, H5⟩, ⟨%d6, H6⟩⟩
  iapply sound_kernel2 c (iblk2 V c 0 t) (iblk2 V c 1 t) (iblk2 V c 2 t) (iblk2 V c 3 t) (iblk2 V c 4 t) (iblk2 V c 5 t)
  iframe H0 H1 H2 H3 H4 H5
  isplitl [H6]; · iexists _; iexact H6
  iintro H
  iframe

theorem hin2 : (Pipeline.ΦA spec2 c : sProp 𝕄) ⊢ (dat2 V c).Φ 0 := .rfl

theorem hout2 : (dat2 V c).Φ (Fin.last cfg2.N) ⊢ (Pipeline.ΦA spec2 c : sProp 𝕄) := .rfl

end Region

end Cert.Kernel.Hand

end
-- ==== Proof.K.Reg3Runs.lean ====
import proofs.«405801_j48610439856177_2_alg».proof.Proof.Gen.Kernel.Launch
import proofs.«405801_j48610439856177_2_alg».proof.Proof.Gen.Kernel.Skeleton
import proofs.«405801_j48610439856177_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev cond3_0 (i : grid3.Coords) : Prop := (Scalar.cmpi .ne (Scalar.extui (Scalar.cmpi .eq (BitVec.ofNat 32 (i 0).val) 0#32)) 0#32) = 1#1
theorem hcond3_0 : ∀ t : Fin cfg3.N, cond3_0 (grid3.coords t) ↔ t.val % 50 = 0 :=
  (by decide +kernel : ∀ t : Fin grid3.N, cond3_0 (grid3.coords t) ↔ t.val % 50 = 0)

abbrev cond3_1 (i : grid3.Coords) : Prop := k3_cond2 i = 1#1
theorem hcond3_1 : ∀ t : Fin cfg3.N, cond3_1 (grid3.coords t) ↔ t.val % 50 = 49 :=
  (by decide +kernel : ∀ t : Fin grid3.N, cond3_1 (grid3.coords t) ↔ t.val % 50 = 49)

theorem idleAt3_6 : ∀ t : Fin cfg3.N, ¬cond3_1 (grid3.coords t) → cfg3.idle 6 (grid3.coords t) = true ∧ (cfg3.win 6).flush t = false := by decide +kernel
theorem liveAt3_6 : ∀ t : Fin cfg3.N, cond3_1 (grid3.coords t) → cfg3.idle 6 (grid3.coords t) = false := by decide +kernel

abbrev VO3_6 : View sig .tc .vmem S256x256 .f32 := (Memref.whole cc3_stg6_0 : Memref sig .tc .vmem S256x256 .f32).view
abbrev ms3_0 (t : Fin cfg3.N) : Memref sig .tc .vmem S2000x256 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S2000x256 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S2000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x256 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x256 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S2000x1 .i32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S256x256 .f32 := win3_6.stage (cfg3.slots t 6)
abbrev hs3_6 (t : Fin cfg3.N) : (ms3_6 t).IsWhole := hstage3_6 ((cfg3.slots t 6).cast nbuf3_6)
abbrev scM3_0 : Memref sig .tc .vmem S256x256 .f32 := Memref.whole cc3_scratch0
abbrev scM3_1 : Memref sig .tc .vmem S256x1 .f32 := Memref.whole cc3_scratch1
abbrev VS3_0 : View sig .tc .vmem S256x256 .f32 := scM3_0.view
abbrev VS3_1 : View sig .tc .vmem S256x1 .f32 := scM3_1.view

theorem PhiA3_eq (c : Dev nD) :
    (Pipeline.ΦA spec3 c : sProp 𝕄)
      = iprop(iprop(iprop((∃ d, owns (c : Thread nD τ) scM3_0 fullShare d) ∗ (∃ d, owns (c : Thread nD τ) scM3_1 fullShare d))
          ∗ Pipeline.scopedRestBut (Ix := Unit) (Name := ℕ) (U := UR sig nD τ) (Lvl := ℕ) (Val := Elt F) spec3 c [cc3_scratch0, cc3_scratch1]) ∗ (∃ r, prngReg c r)) := by
  unfold Pipeline.ΦA; rw [scopedRest3_split]; simp only [scM3_0, scM3_1, owns_whole]; try rfl

end Region3

end Cert.Kernel.Hand

end
-- ==== Proof.K.Reg3RunA.lean ====
import proofs.«405801_j48610439856177_2_alg».proof.Proof.K.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

set_option maxHeartbeats 4000000 in
noncomputable def kernelRun3_A (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x1 .i32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (hc0 : cond3_0 i) (hc1 : ¬cond3_1 i)
    (x0 : Vec F S2000x256 .f32) (x1 : Vec F S2000x256 .f32) (x2 : Vec F S2000x1 .f32) (x3 : Vec F S1x256 .f32) (x4 : Vec F S1x256 .f32) (x5 : Vec F S2000x1 .i32) :
    Σ' (L6 : List (View.Piece (Elt F) S256x256 .f32)) (LS0 : List (View.Piece (Elt F) S256x256 .f32)), { LS1 : List (View.Piece (Elt F) S256x1 .f32) //
      ∀ (xi6 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_pool_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc3__finalize_pool_kernel_eq_skeleton]; unfold cc3__finalize_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Region3

end Cert.Kernel.Hand

end
-- ==== Proof.K.Reg3RunB.lean ====
import proofs.«405801_j48610439856177_2_alg».proof.Proof.K.Reg3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

set_option maxHeartbeats 4000000 in
noncomputable def kernelRun3_B (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x1 .i32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (hc0 : ¬cond3_0 i) (hc1 : ¬cond3_1 i)
    (x0 : Vec F S2000x256 .f32) (x1 : Vec F S2000x256 .f32) (x2 : Vec F S2000x1 .f32) (x3 : Vec F S1x256 .f32) (x4 : Vec F S1x256 .f32) (x5 : Vec F S2000x1 .i32) (xs0 : Vec F S256x256 .f32) (xs1 : Vec F S256x1 .f32) :
    Σ' (L6 : List (View.Piece (Elt F) S256x256 .f32)) (LS0 : List (View.Piece (Elt F) S256x256 .f32)), { LS1 : List (View.Piece (Elt F) S256x1 .f32) //
      ∀ (xi6 : Vec F S256x256 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_pool_kernel i arg1 harg1 arg2 harg2 arg3 harg3 arg4 harg4 arg5 harg5 arg6 harg6 arg7 harg7 arg8 harg8 arg9 harg9) K } := by
  refine ⟨[], ?_, ?_, fun xi6 E K => ?run⟩
  case run =>
    simp only [cc3__finalize_pool_kernel_eq_skeleton]; unfold cc3__finalize_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [HS0]; · iexists _; iexact HS0
    iexists _; iexact HS1

end Region3

end Cert.Kernel.Hand

end
-- ==== Proof.K.Reg3RunC.lean ====
import proofs.«405801_j48610439856177_2_alg».proof.Proof.K.Reg3RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

set_option maxHeartbeats 4000000 in
noncomputable def kernelRun3_C (c : Dev nD) (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x1 .i32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole) (hc0 : ¬cond3_0 i) (hc1 : cond3_1 i)
    (x0 : Vec F S2000x256 .f32) (x1 : Vec F S2000x256 .f32) (x2 : Vec F S2000x1 .f32) (x3 : Vec F S1x256 .f32) (x4 : Vec F S1x256 .f32) (x5 : Vec F S2000x1 .i32) (xs0 : Vec F S256x256 .f32) (xs1 : Vec F S256x1 .f32) :
    Σ' (L6 : List (View.Piece (Elt F) S256x256 .f32)) (LS0 : List (View.Piece (Elt F) S256x256 .f32)), { LS1 : List (View.Piece (Elt F) S256x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare xs0 ∗ owns (c : Thread nD τ) arg9 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc3__finalize_pool_kernel i arg1 harg1 arg2 harg2 arg3 harg3 arg4 harg4 arg5 harg5 arg6 harg6 arg7 harg7 arg8 harg8 arg9 harg9) K } := by
  refine ⟨?_, ?_, ?_, fun E K => ?run⟩
  case run =>
    simp only [cc3__finalize_pool_kernel_eq_skeleton]; unfold cc3__finalize_pool_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [HS0]; · iexists _; iexact HS0
    iexists _; iexact HS1

end Region3

end Cert.Kernel.Hand

end
-- ==== Proof.K.Reg3.lean ====
import proofs.«405801_j48610439856177_2_alg».proof.Proof.K.Reg3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b)) (c : Dev nD)

section
variable (i : grid3.Coords) (arg1 : Memref sig .tc .vmem S2000x256 .f32) (harg1 : arg1.IsWhole) (arg2 : Memref sig .tc .vmem S2000x256 .f32) (harg2 : arg2.IsWhole) (arg3 : Memref sig .tc .vmem S2000x1 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S2000x1 .i32) (harg6 : arg6.IsWhole) (arg7 : Memref sig .tc .vmem S256x256 .f32) (harg7 : arg7.IsWhole) (arg8 : Memref sig .tc .vmem S256x256 .f32) (harg8 : arg8.IsWhole) (arg9 : Memref sig .tc .vmem S256x1 .f32) (harg9 : arg9.IsWhole)

section
variable (hc0 : cond3_0 i) (hc1 : ¬cond3_1 i) (x0 x1 : Vec F S2000x256 .f32) (x2 : Vec F S2000x1 .f32) (x3 x4 : Vec F S1x256 .f32) (x5 : Vec F S2000x1 .i32)

def out3_A_6 : Vec F S256x256 .f32 :=
  VO3_6.read (Elt F) (VO3_6.writes (Elt F) VO3_6.junk (kernelRun3_A c i arg1 harg1 arg2 harg2 arg3 harg3 arg4 harg4 arg5 harg5 arg6 harg6 arg7 harg7 arg8 harg8 arg9 harg9 hc0 hc1 x0 x1 x2 x3 x4 x5).1)

theorem scover3_A_0 (y : S256x256.Idx) : ∃ pc ∈ (kernelRun3_A c i arg1 harg1 arg2 harg2 arg3 harg3 arg4 harg4 arg5 harg5 arg6 harg6 arg7 harg7 arg8 harg8 arg9 harg9 hc0 hc1 x0 x1 x2 x3 x4 x5).2.1, y ∈ pc.1.set :=
  View.cover_of_tiledL _ S256x256.size (by sl_kernel_rfl) y

def sout3_A_0 : Vec F S256x256 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 hc0 hc1 x0 x1 x2 x3 x4 x5).2.1)

theorem scover3_A_1 (y : S256x1.Idx) : ∃ pc ∈ (kernelRun3_A c i arg1 harg1 arg2 harg2 arg3 harg3 arg4 harg4 arg5 harg5 arg6 harg6 arg7 harg7 arg8 harg8 arg9 harg9 hc0 hc1 x0 x1 x2 x3 x4 x5).2.2.1, y ∈ pc.1.set :=
  View.cover_of_tiledL _ S256x1.size (by sl_kernel_rfl) y

def sout3_A_1 : Vec F S256x1 .f32 :=
  VS3_1.read (Elt F) (VS3_1.writes (Elt F) VS3_1.junk (kernelRun3_A c i arg1 harg1 arg2 harg2 arg3 harg3 arg4 harg4 arg5 harg5 arg6 harg6 arg7 harg7 arg8 harg8 arg9 harg9 hc0 hc1 x0 x1 x2 x3 x4 x5).2.2.1)

end

section
variable (hc0 : ¬cond3_0 i) (hc1 : ¬cond3_1 i) (x0 x1 : Vec F S2000x256 .f32) (x2 : Vec F S2000x1 .f32) (x3 x4 : Vec F S1x256 .f32) (x5 : Vec F S2000x1 .i32) (xs0 : Vec F S256x256 .f32) (xs1 : Vec F S256x1 .f32)

def out3_B_6 : Vec F S256x256 .f32 :=
  VO3_6.read (Elt F) (VO3_6.writes (Elt F) VO3_6.junk (kernelRun3_B c i arg1 harg1 arg2 harg2 arg3 harg3 arg4 harg4 arg5 harg5 arg6 harg6 arg7 harg7 arg8 harg8 arg9 harg9 hc0 hc1 x0 x1 x2 x3 x4 x5 xs0 xs1).1)

theorem scover3_B_0 (y : S256x256.Idx) : ∃ pc ∈ (kernelRun3_B c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL _ S256x256.size (by sl_kernel_rfl) y

def sout3_B_0 : Vec F S256x256 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 hc0 hc1 x0 x1 x2 x3 x4 x5 xs0 xs1).2.1)

theorem scover3_B_1 (y : S256x1.Idx) : ∃ pc ∈ (kernelRun3_B c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL _ S256x1.size (by sl_kernel_rfl) y

def sout3_B_1 : Vec F S256x1 .f32 :=
  VS3_1.read (Elt F) (VS3_1.writes (Elt F) VS3_1.junk (kernelRun3_B c i arg1 harg1 arg2 harg2 arg3 harg3 arg4 harg4 arg5 harg5 arg6 harg6 arg7 harg7 arg8 harg8 arg9 harg9 hc0 hc1 x0 x1 x2 x3 x4 x5 xs0 xs1).2.2.1)

end

section
variable (hc0 : ¬cond3_0 i) (hc1 : cond3_1 i) (x0 x1 : Vec F S2000x256 .f32) (x2 : Vec F S2000x1 .f32) (x3 x4 : Vec F S1x256 .f32) (x5 : Vec F S2000x1 .i32) (xs0 : Vec F S256x256 .f32) (xs1 : Vec F S256x1 .f32)

theorem cover3_C_6 (y : S256x256.Idx) : ∃ pc ∈ (kernelRun3_C c i arg1 harg1 arg2 harg2 arg3 harg3 arg4 harg4 arg5 harg5 arg6 harg6 arg7 harg7 arg8 harg8 arg9 harg9 hc0 hc1 x0 x1 x2 x3 x4 x5 xs0 xs1).1, y ∈ pc.1.set :=
  View.cover_of_tiledL _ S256x256.size (by sl_kernel_rfl) y

def out3_C_6 : Vec F S256x256 .f32 :=
  VO3_6.read (Elt F) (VO3_6.writes (Elt F) VO3_6.junk (kernelRun3_C c i arg1 harg1 arg2 harg2 arg3 harg3 arg4 harg4 arg5 harg5 arg6 harg6 arg7 harg7 arg8 harg8 arg9 harg9 hc0 hc1 x0 x1 x2 x3 x4 x5 xs0 xs1).1)

theorem scover3_C_0 (y : S256x256.Idx) : ∃ pc ∈ (kernelRun3_C c i arg1 harg1 arg2 harg2 arg3 harg3 arg4 harg4 arg5 harg5 arg6 harg6 arg7 harg7 arg8 harg8 arg9 harg9 hc0 hc1 x0 x1 x2 x3 x4 x5 xs0 xs1).2.1, y ∈ pc.1.set :=
  View.cover_of_tiledL _ S256x256.size (by sl_kernel_rfl) y

def sout3_C_0 : Vec F S256x256 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 hc0 hc1 x0 x1 x2 x3 x4 x5 xs0 xs1).2.1)

theorem scover3_C_1 (y : S256x1.Idx) : ∃ pc ∈ (kernelRun3_C c i arg1 harg1 arg2 harg2 arg3 harg3 arg4 harg4 arg5 harg5 arg6 harg6 arg7 harg7 arg8 harg8 arg9 harg9 hc0 hc1 x0 x1 x2 x3 x4 x5 xs0 xs1).2.2.1, y ∈ pc.1.set :=
  View.cover_of_tiledL _ S256x1.size (by sl_kernel_rfl) y

def sout3_C_1 : Vec F S256x1 .f32 :=
  VS3_1.read (Elt F) (VS3_1.writes (Elt F) VS3_1.junk (kernelRun3_C c i arg1 harg1 arg2 harg2 arg3 harg3 arg4 harg4 arg5 harg5 arg6 harg6 arg7 harg7 arg8 harg8 arg9 harg9 hc0 hc1 x0 x1 x2 x3 x4 x5 xs0 xs1).2.2.1)

end

end

-- the three buffers' contents once a run's pieces are written
def reads3 {p : List (View.Piece (Elt F) S256x256 .f32) → List (View.Piece (Elt F) S256x256 .f32) → List (View.Piece (Elt F) S256x1 .f32) → Prop}
    (r : Σ' (L6 : List (View.Piece (Elt F) S256x256 .f32)) (LS0 : List (View.Piece (Elt F) S256x256 .f32)), { LS1 : List (View.Piece (Elt F) S256x1 .f32) // p L6 LS0 LS1 }) : Vec F S256x256 .f32 × Vec F S256x256 .f32 × Vec F S256x1 .f32 :=
  (VO3_6.read (Elt F) (VO3_6.writes (Elt F) VO3_6.junk r.1), VS3_0.read (Elt F) (VS3_0.writes (Elt F) VS3_0.junk r.2.1), VS3_1.read (Elt F) (VS3_1.writes (Elt F) VS3_1.junk r.2.2.1))

-- one point of the fold: the first point ignores the accumulators, the others run over what the point before left
def stepAt3 (t : Fin cfg3.N) (acc : ¬t.val % 50 = 0 → Vec F S256x256 .f32 × Vec F S256x1 .f32) : Vec F S256x256 .f32 × Vec F S256x256 .f32 × Vec F S256x1 .f32 :=
  if h0 : t.val % 50 = 0 then
    reads3 (kernelRun3_A c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => by have := (hcond3_1 t).mp h; omega) (iblk3 V c 0 t) (iblk3 V c 1 t) (iblk3 V c 2 t) (iblk3 V c 3 t) (iblk3 V c 4 t) (iblk3 V c 5 t))
  else if h1 : t.val % 50 = 49 then
    reads3 (kernelRun3_C c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (acc h0).1 (acc h0).2)
  else
    reads3 (kernelRun3_B c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (acc h0).1 (acc h0).2)

def outsAt3 : (n : ℕ) → n < cfg3.N → Vec F S256x256 .f32 × Vec F S256x256 .f32 × Vec F S256x1 .f32
  | 0, hn => stepAt3 V c ⟨0, hn⟩ fun h => absurd (Nat.zero_mod _) h
  | n + 1, hn => stepAt3 V c ⟨n + 1, hn⟩ fun _ => (outsAt3 n (Nat.lt_of_succ_lt hn)).2

theorem outsAt3_A (t : Fin cfg3.N) (h0 : t.val % 50 = 0) (h1 : ¬t.val % 50 = 49) :
    outsAt3 V c t.val t.isLt = (out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t),
      sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t),
      sout3_A_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t)) := by
  obtain ⟨_ | n, hn⟩ := t <;> (rw [outsAt3, stepAt3, dif_pos h0]; rfl)

theorem outsAt3_B (t : Fin cfg3.N) (h0 : ¬t.val % 50 = 0) (h1 : ¬t.val % 50 = 49) :
    outsAt3 V c t.val t.isLt = (out3_B_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
      sout3_B_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨_ | n, hn⟩ := t
  · exact absurd (Nat.zero_mod _) h0
  · rw [outsAt3, stepAt3, dif_neg h0, dif_neg h1]; rfl

theorem outsAt3_C (t : Fin cfg3.N) (h0 : ¬t.val % 50 = 0) (h1 : t.val % 50 = 49) :
    outsAt3 V c t.val t.isLt = (out3_C_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2,
      sout3_C_1 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) scM3_0 (Memref.isWhole_whole _) scM3_1 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨_ | n, hn⟩ := t
  · exact absurd (Nat.zero_mod _) h0
  · rw [outsAt3, stepAt3, dif_neg h0, dif_pos h1]; rfl

-- the region invariant once the accumulators hold `s`
def PhiAt3 (s : Vec F S256x256 .f32 × Vec F S256x1 .f32) : sProp 𝕄 :=
  iprop(iprop(iprop(owns (c : Thread nD τ) scM3_0 fullShare s.1 ∗ owns (c : Thread nD τ) scM3_1 fullShare s.2)
          ∗ Pipeline.scopedRestBut (Ix := Unit) (Name := ℕ) (U := UR sig nD τ) (Lvl := ℕ) (Val := Elt F) spec3 c [cc3_scratch0, cc3_scratch1]) ∗ (∃ r, prngReg c r))

def PhiS3 : (n : ℕ) → n ≤ cfg3.N → sProp 𝕄
  | 0, _ => Pipeline.ΦA spec3 c
  | n + 1, hn => PhiAt3 c (outsAt3 V c n hn).2

theorem PhiS3_zero (n : ℕ) (h : n ≤ cfg3.N) (hz : n = 0) : PhiS3 V c n h = Pipeline.ΦA spec3 c := by
  subst hz; rfl

theorem PhiS3_pos (n : ℕ) (h : n ≤ cfg3.N) (hz : n ≠ 0) : PhiS3 V c n h = PhiAt3 c (outsAt3 V c (n - 1) (by omega)).2 := by
  cases n with
  | zero => exact absurd rfl hz
  | succ n => rfl

def dat3 : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => (outsAt3 V c t.val t.isLt).1
  Φ t := PhiS3 V c t.val (Nat.le_of_lt_succ t.isLt)
  q _ := fullShare
  owed _ := 0

theorem A_eq3 (w : Fin cfg3.W) : (dat3 V c).A w = V c (Pipeline.arrRef spec3 w) := by
  dsimp only [dat3]

theorem after3_6 (t : Fin cfg3.N) : (dat3 V c).after 6 t = (outsAt3 V c t.val t.isLt).1 := by dsimp only [dat3]

theorem before3_0 (t : Fin cfg3.N) (d) : (dat3 V c).before 0 t d = iblk3 V c 0 t :=
  ((dat3 V c).before_in_eq_fetched 0 rfl (fun _ => rfl) (fun _ _ _ => rfl) (fun _ => rfl) t d).trans rfl
theorem before3_1 (t : Fin cfg3.N) (d) : (dat3 V c).before 1 t d = iblk3 V c 1 t :=
  ((dat3 V c).before_in_eq_fetched 1 rfl (fun _ => rfl) (fun _ _ _ => rfl) (fun _ => rfl) t d).trans rfl
theorem before3_2 (t : Fin cfg3.N) (d) : (dat3 V c).before 2 t d = iblk3 V c 2 t :=
  ((dat3 V c).before_in_eq_fetched 2 rfl (fun _ => rfl) (fun _ _ _ => rfl) (fun _ => rfl) t d).trans rfl
theorem before3_3 (t : Fin cfg3.N) (d) : (dat3 V c).before 3 t d = iblk3 V c 3 t :=
  ((dat3 V c).before_in_eq_fetched 3 rfl (fun _ => rfl) (fun _ _ _ => rfl) (fun _ => rfl) t d).trans rfl
theorem before3_4 (t : Fin cfg3.N) (d) : (dat3 V c).before 4 t d = iblk3 V c 4 t :=
  ((dat3 V c).before_in_eq_fetched 4 rfl (fun _ => rfl) (fun _ _ _ => rfl) (fun _ => rfl) t d).trans rfl
theorem before3_5 (t : Fin cfg3.N) (d) : (dat3 V c).before 5 t d = iblk3 V c 5 t :=
  ((dat3 V c).before_in_eq_fetched 5 rfl (fun _ => rfl) (fun _ _ _ => rfl) (fun _ => rfl) t d).trans rfl

def bodyPre3 (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d)))

def bodyPost3 (t : Fin cfg3.N) : sProp 𝕄 :=
  iprop(PhiAt3 c (outsAt3 V c t.val t.isLt).2 ∗ (dat3 V c).owesAt () t.castSucc
    ∗ owns (c : Thread nD τ) (ms3_0 t) fullShare (iblk3 V c 0 t)
    ∗ owns (c : Thread nD τ) (ms3_1 t) fullShare (iblk3 V c 1 t)
    ∗ owns (c : Thread nD τ) (ms3_2 t) fullShare (iblk3 V c 2 t)
    ∗ owns (c : Thread nD τ) (ms3_3 t) fullShare (iblk3 V c 3 t)
    ∗ owns (c : Thread nD τ) (ms3_4 t) fullShare (iblk3 V c 4 t)
    ∗ owns (c : Thread nD τ) (ms3_5 t) fullShare (iblk3 V c 5 t)
    ∗ (dat3 V c).leavesExact 6 t)

set_option maxHeartbeats 8000000 in
theorem sound_body3 (t : Fin cfg3.N) :
    bodyPre3 V c t ⊢ wp frame (wpE (defs₀ (F := F)) Variants.none c none) Set.univ (bodyAt3 t) (fun _ => bodyPost3 V c t) := by
  unfold bodyPre3 bodyPost3 bodyAt3 PhiAt3
  simp only [before3_0, before3_1, before3_2, before3_3, before3_4, before3_5]
  rw [show (dat3 V c).Φ t.castSucc = PhiS3 V c t.val (Nat.le_of_lt t.isLt) from rfl]
  have hN : t.val < 50 := lt_of_lt_of_eq t.isLt (show cfg3.N = 50 from N_3)
  by_cases h0 : t.val % 50 = 0
  · have h1 : ¬t.val % 50 = 49 := by omega
    rw [Dat.leavesExact_idle (dat3 V c) 6 t (idleAt3_6 t (fun h => h1 ((hcond3_1 t).mp h))).1 (idleAt3_6 t (fun h => h1 ((hcond3_1 t).mp h))).2, outsAt3_A V c t h0 h1]
    unfold sout3_A_0 sout3_A_1; (try dsimp only)
    rw [PhiS3_zero V c _ _ (by omega), PhiA3_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun3_A c (grid3.coords t) _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t)).2.2.2 _ Set.univ _)
    iframe H0 H1 H2 H3 H4 H5 H6 HS0 HS1
    iintro ⟨H0, H1, H2, H3, H4, H5, H6, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover3_A_0 _ _ _ _ _ _ _ _ _ _ _ _ _ _ _ _ _ _ _ _ _ _ _ _ _ _ _ _)
          unfold owns; iexists _; isplitr
          swap; · iexact HS1
          ipureintro; exact View.read_writes_of_cover _ _ _ _ _ (scover3_A_1 _ _ _ _ _ _ _ _ _ _ _ _ _ _ _ _ _ _ _ _ _ _ _ _ _ _ _ _)
        iexact HR
      iexact Hg
    iframe Ho H0 H1 H2 H3 H4 H5
    iexists _; iexact H6
  · rw [PhiS3_pos V c _ _ (fun hz => h0 (by rw [hz])), PhiAt3]
    by_cases h1 : t.val % 50 = 49
    · rw [show (dat3 V c).leavesExact 6 t = owns (c : Thread nD τ) (ms3_6 t) fullShare ((dat3 V c).after 6 t) from by
        unfold Dat.leavesExact; rw [liveAt3_6 t ((hcond3_1 t).mpr h1)], after3_6, outsAt3_C V c t h0 h1]
      unfold out3_C_6 sout3_C_0 sout3_C_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_C c (grid3.coords t) _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) _ _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, ⟨%e6, H6⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_C_0 _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_C_1 _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover3_C_6 _ _ _ _ _ _ _ _ _ _ _ _ _ _ _ _ _ _ _ _ _ _ _ _ _ _ _ _ _ _)
    · rw [Dat.leavesExact_idle (dat3 V c) 6 t (idleAt3_6 t (fun h => h1 ((hcond3_1 t).mp h))).1 (idleAt3_6 t (fun h => h1 ((hcond3_1 t).mp h))).2, outsAt3_B V c t h0 h1]
      unfold sout3_B_0 sout3_B_1; (try dsimp only)
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun3_B c (grid3.coords t) _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) _ _).2.2.2 _ Set.univ _)
      iframe H0 H1 H2 H3 H4 H5 H6 HS0 HS1
      iintro ⟨H0, H1, H2, H3, H4, H5, H6, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover3_B_0 _ _ _ _ _ _ _ _ _ _ _ _ _ _ _ _ _ _ _ _ _ _ _ _ _ _ _ _ _ _)
            unfold owns; iexists _; isplitr
            swap; · iexact HS1
            ipureintro; exact View.read_writes_of_cover _ _ _ _ _ (scover3_B_1 _ _ _ _ _ _ _ _ _ _ _ _ _ _ _ _ _ _ _ _ _ _ _ _ _ _ _ _ _ _)
          iexact HR
        iexact Hg
      iframe Ho H0 H1 H2 H3 H4 H5
      iexists _; iexact H6

theorem body_obligation3 : BodyObligation (dat3 (F := F) V c) (defs₀ (F := F)) Variants.none () Set.univ := fun t => by
  rw [bigSep_W3, bigSep_W3]
  exact sound_body3 V c t

theorem hin3 : (Pipeline.ΦA spec3 c : sProp 𝕄) ⊢ (dat3 V c).Φ 0 :=
  Idealize.SL.BI.Entails.refl _

theorem hout3 : (dat3 V c).Φ (Fin.last cfg3.N) ⊢ (Pipeline.ΦA spec3 c : sProp 𝕄) := by
  rw [show (dat3 V c).Φ (Fin.last cfg3.N) = PhiS3 V c cfg3.N (Nat.le_refl _) from rfl, PhiS3_pos V c _ _ (by have : cfg3.N = 50 := N_3; omega), PhiAt3, PhiA3_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

end Region3

end Cert.Kernel.Hand

end
-- ==== Proof.K.Run.lean ====
import proofs.«405801_j48610439856177_2_alg».proof.Proof.Gen.Kernel.Launch
import proofs.«405801_j48610439856177_2_alg».proof.Proof.Gen.Kernel.Skeleton
import proofs.«405801_j48610439856177_2_alg».proof.Proof.Gen.Kernel.Points
import proofs.«405801_j48610439856177_2_alg».proof.Proof.Gen.Kernel.Regions
import proofs.«405801_j48610439856177_2_alg».proof.Proof.K.Reg0
import proofs.«405801_j48610439856177_2_alg».proof.Proof.K.Reg1
import proofs.«405801_j48610439856177_2_alg».proof.Proof.K.Reg2
import proofs.«405801_j48610439856177_2_alg».proof.Proof.K.Reg3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (r : Ref sig .tc) (h : r ∉ hostOps0_W) :
    W1 m ρ c (Proc.devRef .tc r) = W0 m ρ c (Proc.devRef .tc r) :=
  StableHlo.after_of_writes_sub hostOps0 _ hostOps0_writes h
abbrev W2 : Dev nD → Valuation τ sig (Elt F) := fun c => StableHlo.after hostOps0_1 (W1 m ρ c)
theorem W2_of (r : Ref sig .tc) (h : r ∉ hostOps0_1_W) :
    W2 m ρ c (Proc.devRef .tc r) = W1 m ρ c (Proc.devRef .tc r) :=
  StableHlo.after_of_writes_sub hostOps0_1 _ hostOps0_1_writes h
abbrev W3 : Dev nD → Valuation τ sig (Elt F) := fun c => StableHlo.after hostOps0_2 (W2 m ρ c)
theorem W3_of (r : Ref sig .tc) (h : r ∉ hostOps0_2_W) :
    W3 m ρ c (Proc.devRef .tc r) = W2 m ρ c (Proc.devRef .tc r) :=
  StableHlo.after_of_writes_sub hostOps0_2 _ hostOps0_2_writes h
abbrev V3 : (c : Dev nD) → (b : Ref sig .tc) → Buf (Elt F) ((c : Thread nD τ).loc b) := fun c b => W3 m ρ c b
def W4 : Valuation τ sig (Elt F) :=
  Pipeline.withArrays spec0 c (W3 m ρ c) fun w => (dat0 (V3 m ρ) c).arrAt w cfg0.N
theorem W4_arr (w : Fin cfg0.W) :
    W4 m ρ c (Proc.devRef .tc (Pipeline.arrRef spec0 w)) = (dat0 (V3 m ρ) c).arrAt w cfg0.N :=
  Pipeline.withArrays_arr spec0 launch0.win.arr_inj c _ _ w
theorem W4_of_ne (b : Ref sig .tc) (hb : ∀ w, Pipeline.arrRef spec0 w ≠ b) :
    W4 m ρ c (Proc.devRef .tc b) = W3 m ρ c (Proc.devRef .tc b) :=
  Pipeline.withArrays_of_ne spec0 c _ _ b hb
abbrev W5 : Dev nD → Valuation τ sig (Elt F) := fun c => StableHlo.after hostOps1 (W4 m ρ c)
theorem W5_of (r : Ref sig .tc) (h : r ∉ hostOps1_W) :
    W5 m ρ c (Proc.devRef .tc r) = W4 m ρ c (Proc.devRef .tc r) :=
  StableHlo.after_of_writes_sub hostOps1 _ hostOps1_writes h
abbrev V5 : (c : Dev nD) → (b : Ref sig .tc) → Buf (Elt F) ((c : Thread nD τ).loc b) := fun c b => W5 m ρ c b
def W6 : Valuation τ sig (Elt F) :=
  Pipeline.withArrays spec1 c (W5 m ρ c) fun w => (dat1 (V5 m ρ) c).arrAt w cfg1.N
theorem W6_arr (w : Fin cfg1.W) :
    W6 m ρ c (Proc.devRef .tc (Pipeline.arrRef spec1 w)) = (dat1 (V5 m ρ) c).arrAt w cfg1.N :=
  Pipeline.withArrays_arr spec1 launch1.win.arr_inj c _ _ w
theorem W6_of_ne (b : Ref sig .tc) (hb : ∀ w, Pipeline.arrRef spec1 w ≠ b) :
    W6 m ρ c (Proc.devRef .tc b) = W5 m ρ c (Proc.devRef .tc b) :=
  Pipeline.withArrays_of_ne spec1 c _ _ b hb
abbrev W7 : Dev nD → Valuation τ sig (Elt F) := fun c => StableHlo.after hostOps2 (W6 m ρ c)
theorem W7_of (r : Ref sig .tc) (h : r ∉ hostOps2_W) :
    W7 m ρ c (Proc.devRef .tc r) = W6 m ρ c (Proc.devRef .tc r) :=
  StableHlo.after_of_writes_sub hostOps2 _ hostOps2_writes h
abbrev V7 : (c : Dev nD) → (b : Ref sig .tc) → Buf (Elt F) ((c : Thread nD τ).loc b) := fun c b => W7 m ρ c b
def W8 : Valuation τ sig (Elt F) :=
  Pipeline.withArrays spec2 c (W7 m ρ c) fun w => (dat2 (V7 m ρ) c).arrAt w cfg2.N
theorem W8_arr (w : Fin cfg2.W) :
    W8 m ρ c (Proc.devRef .tc (Pipeline.arrRef spec2 w)) = (dat2 (V7 m ρ) c).arrAt w cfg2.N :=
  Pipeline.withArrays_arr spec2 launch2.win.arr_inj c _ _ w
theorem W8_of_ne (b : Ref sig .tc) (hb : ∀ w, Pipeline.arrRef spec2 w ≠ b) :
    W8 m ρ c (Proc.devRef .tc b) = W7 m ρ c (Proc.devRef .tc b) :=
  Pipeline.withArrays_of_ne spec2 c _ _ b hb
abbrev W9 : Dev nD → Valuation τ sig (Elt F) := fun c => StableHlo.after hostOps3 (W8 m ρ c)
theorem W9_of (r : Ref sig .tc) (h : r ∉ hostOps3_W) :
    W9 m ρ c (Proc.devRef .tc r) = W8 m ρ c (Proc.devRef .tc r) :=
  StableHlo.after_of_writes_sub hostOps3 _ hostOps3_writes h
abbrev V9 : (c : Dev nD) → (b : Ref sig .tc) → Buf (Elt F) ((c : Thread nD τ).loc b) := fun c b => W9 m ρ c b
def W10 : Valuation τ sig (Elt F) :=
  Pipeline.withArrays spec3 c (W9 m ρ c) fun w => (dat3 (V9 m ρ) c).arrAt w cfg3.N
theorem W10_arr (w : Fin cfg3.W) :
    W10 m ρ c (Proc.devRef .tc (Pipeline.arrRef spec3 w)) = (dat3 (V9 m ρ) c).arrAt w cfg3.N :=
  Pipeline.withArrays_arr spec3 launch3.win.arr_inj c _ _ w
theorem W10_of_ne (b : Ref sig .tc) (hb : ∀ w, Pipeline.arrRef spec3 w ≠ b) :
    W10 m ρ c (Proc.devRef .tc b) = W9 m ρ c (Proc.devRef .tc b) :=
  Pipeline.withArrays_of_ne spec3 c _ _ b hb
abbrev W11 : Dev nD → Valuation τ sig (Elt F) := fun c => StableHlo.after hostOps4 (W10 m ρ c)
theorem W11_of (r : Ref sig .tc) (h : r ∉ hostOps4_W) :
    W11 m ρ c (Proc.devRef .tc r) = W10 m ρ c (Proc.devRef .tc r) :=
  StableHlo.after_of_writes_sub hostOps4 _ hostOps4_writes h

-- The exit valuation agrees with the entry one at a reference whose windows are all inputs: an input's array keeps its entry contents.
theorem keep {cfg : Pipeline.Cfg sig Λ₀} {c : Dev nD} (d : Dat τ (Elt F) Unit ℕ (UR sig nD τ) ℕ cfg c)
    (hinj : Function.Injective (Pipeline.arrRef cfg.spec)) (V : Valuation τ sig (Elt F))
    (hA : ∀ w, d.A w = V (Proc.devRef .tc (Pipeline.arrRef cfg.spec w))) (r : Ref sig .tc)
    (hr : ∀ w, Pipeline.arrRef cfg.spec w = r → (cfg.win w).isOut = false) :
    Pipeline.withArrays cfg.spec c V (fun w => d.arrAt w cfg.N) (Proc.devRef .tc r) = V (Proc.devRef .tc r) := by
  by_cases hb : ∃ w, Pipeline.arrRef cfg.spec w = r
  · obtain ⟨w, rfl⟩ := hb
    exact (Pipeline.withArrays_arr cfg.spec hinj c V _ w).trans ((d.arrAt_in w (hr w rfl) _).trans (hA w))
  · exact Pipeline.withArrays_of_ne cfg.spec c V _ r fun w e => hb ⟨w, e⟩

-- Walk the fold back to the launch memory: every host stretch and every region leaves `r` as it found it.
theorem W11_kept (r : Ref sig .tc)
    (h : r ∉ hostOps0_W ∧ r ∉ hostOps0_1_W ∧ r ∉ hostOps0_2_W ∧ r ∉ hostOps1_W ∧ r ∉ hostOps2_W ∧ r ∉ hostOps3_W ∧ r ∉ hostOps4_W
      ∧ (∀ w, Pipeline.arrRef spec0 w = r → (cfg0.win w).isOut = false) ∧ (∀ w, Pipeline.arrRef spec1 w = r → (cfg1.win w).isOut = false)
      ∧ (∀ w, Pipeline.arrRef spec2 w = r → (cfg2.win w).isOut = false) ∧ ∀ w, Pipeline.arrRef spec3 w = r → (cfg3.win w).isOut = false) :
    W11 m ρ c (Proc.devRef .tc r) = m ((c : Thread nD τ).loc r) := by
  obtain ⟨a0, a1, a2, a4, a6, a8, a10, e0, e1, e2, e3⟩ := h
  exact (W11_of m ρ c r a10).trans <| (keep (dat3 (V9 m ρ) c) launch3.win.arr_inj _ (A_eq3 (V9 m ρ) c) r e3).trans <|
    (W9_of m ρ c r a8).trans <| (keep (dat2 (V7 m ρ) c) launch2.win.arr_inj _ (A_eq2 (V7 m ρ) c) r e2).trans <|
    (W7_of m ρ c r a6).trans <| (keep (dat1 (V5 m ρ) c) launch1.win.arr_inj _ (A_eq1 (V5 m ρ) c) r e1).trans <|
    (W5_of m ρ c r a4).trans <| (keep (dat0 (V3 m ρ) c) launch0.win.arr_inj _ (A_eq0 (V3 m ρ) c) r e0).trans <|
    (W3_of m ρ c r a2).trans <| (W2_of m ρ c r a1).trans <| W1_of m ρ c r a0

theorem W11_main_arg0 : W11 m ρ c (Proc.devRef .tc main_arg0) = m ((c : Thread nD τ).loc main_arg0) :=
  W11_kept m ρ c _ (by decide)
theorem W11_main_arg1 : W11 m ρ c (Proc.devRef .tc main_arg1) = m ((c : Thread nD τ).loc main_arg1) :=
  W11_kept m ρ c _ (by decide)
theorem W11_main_arg2 : W11 m ρ c (Proc.devRef .tc main_arg2) = m ((c : Thread nD τ).loc main_arg2) :=
  W11_kept m ρ c _ (by decide)
theorem W11_main_arg3 : W11 m ρ c (Proc.devRef .tc main_arg3) = m ((c : Thread nD τ).loc main_arg3) :=
  W11_kept m ρ c _ (by decide)
theorem W11_main_arg4 : W11 m ρ c (Proc.devRef .tc main_arg4) = m ((c : Thread nD τ).loc main_arg4) :=
  W11_kept m ρ c _ (by decide)
theorem W11_main_arg5 : W11 m ρ c (Proc.devRef .tc main_arg5) = m ((c : Thread nD τ).loc main_arg5) :=
  W11_kept m ρ c _ (by decide)
theorem W11_main_arg6 : W11 m ρ c (Proc.devRef .tc main_arg6) = m ((c : Thread nD τ).loc main_arg6) :=
  W11_kept m ρ c _ (by decide)
theorem W11_main_arg7 : W11 m ρ c (Proc.devRef .tc main_arg7) = m ((c : Thread nD τ).loc main_arg7) :=
  W11_kept m ρ c _ (by decide)
theorem W11_main_arg8 : W11 m ρ c (Proc.devRef .tc main_arg8) = m ((c : Thread nD τ).loc main_arg8) :=
  W11_kept m ρ c _ (by decide)
theorem W11_main_arg9 : W11 m ρ c (Proc.devRef .tc main_arg9) = m ((c : Thread nD τ).loc main_arg9) :=
  W11_kept m ρ c _ (by decide)
theorem W11_main_arg10 : W11 m ρ c (Proc.devRef .tc main_arg10) = m ((c : Thread nD τ).loc main_arg10) :=
  W11_kept m ρ c _ (by decide)
theorem W11_main_arg11 : W11 m ρ c (Proc.devRef .tc main_arg11) = m ((c : Thread nD τ).loc main_arg11) :=
  W11_kept m ρ c _ (by decide)
theorem W11_main_arg12 : W11 m ρ c (Proc.devRef .tc main_arg12) = m ((c : Thread nD τ).loc main_arg12) :=
  W11_kept m ρ c _ (by decide)
theorem W11_main_arg13 : W11 m ρ c (Proc.devRef .tc main_arg13) = m ((c : Thread nD τ).loc main_arg13) :=
  W11_kept m ρ c _ (by decide)
theorem W11_main_arg14 : W11 m ρ c (Proc.devRef .tc main_arg14) = m ((c : Thread nD τ).loc main_arg14) :=
  W11_kept m ρ c _ (by decide)
theorem W11_main_arg15 : W11 m ρ c (Proc.devRef .tc main_arg15) = m ((c : Thread nD τ).loc main_arg15) :=
  W11_kept m ρ c _ (by decide)
theorem W11_main_arg16 : W11 m ρ c (Proc.devRef .tc main_arg16) = m ((c : Thread nD τ).loc main_arg16) :=
  W11_kept m ρ c _ (by decide)
theorem W11_main_arg17 : W11 m ρ c (Proc.devRef .tc main_arg17) = m ((c : Thread nD τ).loc main_arg17) :=
  W11_kept m ρ c _ (by decide)
theorem W11_main_arg18 : W11 m ρ c (Proc.devRef .tc main_arg18) = m ((c : Thread nD τ).loc main_arg18) :=
  W11_kept m ρ c _ (by decide)
theorem W11_main_arg19 : W11 m ρ c (Proc.devRef .tc main_arg19) = m ((c : Thread nD τ).loc main_arg19) :=
  W11_kept m ρ c _ (by decide)
theorem W11_main_arg20 : W11 m ρ c (Proc.devRef .tc main_arg20) = m ((c : Thread nD τ).loc main_arg20) :=
  W11_kept m ρ c _ (by decide)
theorem W11_main_arg21 : W11 m ρ c (Proc.devRef .tc main_arg21) = m ((c : Thread nD τ).loc main_arg21) :=
  W11_kept m ρ c _ (by decide)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L : GSem nD τ sig → Finset Unit := fun _ => ∅
abbrev lv : GSem nD τ sig → Unit → ℕ := fun _ _ => 0
abbrev R : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
-- A region as a segment: its arrays leave the unscoped buffers at entry and return at their exit contents; nothing is owed.
def reg (p : Fin 4) (la : Pipeline.LaunchFacts (nD := nD) (τ := τ) cfgs p) (Wi Wo : Dev nD → Valuation τ sig (Elt F))
    (hb : ∀ c, BodyObligation (pdats m ρ p c) defs₀ 𝒱₀ () Set.univ)
    (hq : ∀ c w, (pdats m ρ p c).q w = fullShare)
    (hA : ∀ c w, (pdats m ρ p c).A w = Wi c (Proc.devRef .tc (Pipeline.arrRef (cfgs p).spec w)))
    (hz : ∀ c t, (pdats m ρ p c).owed t = 0) (hrc : ∀ c x, x ∈ (pdats m ρ p c).recorded 0)
    (hi : ∀ c, Pipeline.ΦA (cfgs p).spec c ⊢ (pdats m ρ p c).Φ 0)
    (ho : ∀ c, (pdats m ρ p c).Φ (Fin.last (cfgs p).N) ⊢ Pipeline.ΦA (cfgs p).spec c)
    (hF : ∀ c w, Wo c (Proc.devRef .tc (Pipeline.arrRef (cfgs p).spec w)) = (pdats m ρ p c).arrAt w (cfgs p).N)
    (hr : ∀ c b, (∀ w, Pipeline.arrRef (cfgs p).spec w ≠ b) → Wo c (Proc.devRef .tc b) = Wi c (Proc.devRef .tc b)) :
    Pipeline.RegionSeg (pcfgs (F := F)) adm (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c (Proc.devRef .tc b)
  hentry c := by
    rw [Pipeline.ownSems0_none]
    have hsplit := Pipeline.arrays_of_unscopedBufs (pcfgs (F := F)) adm (pdats m ρ) la.win la.arr_whole c
      ((pdats m ρ p c).share_full (hq c)) (fun b => Wi c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [hz c]
      icases HO with ⟨%W, HO⟩; iexists W; isplitr; · ipureintro; exact fun _ _ => Or.inl (hrc c _)
      iexact HO
    isplitl [Hp]; · iexact Hp
    iexact Hrest
  hin c := by
    refine BIBase.Entails.trans ?_ (hi c)
    unfold Pipeline.ΦA
    iintro ⟨Hp, -, Hr⟩
    isplitl [Hr]; · iexact Hr
    iexact Hp
  hout c := by
    rw [Pipeline.ownSems0_none]
    refine BIBase.Entails.trans (ho c) ?_
    unfold Pipeline.ΦA
    iintro ⟨Hr, Hp⟩
    isplitl [Hp]; · iexact Hp
    isplitr; · iempintro
    iexact Hr
  hexit c := by
    have hjoin := Pipeline.unscopedBufs_of_arrays (pcfgs (F := F)) adm (Ix := Unit) (Name := ℕ) (U := UR sig nD τ) (Lvl := ℕ)
      la.win la.arr_whole c (pdats m ρ) ((pdats m ρ p c).share_full (hq c))
      (fun b => Wi c (Proc.devRef .tc b)) (fun b => Wo c (Proc.devRef .tc b)) ((pdats m ρ p c).arrAt · (cfgs p).N) (fun w => (hF c w).symm)
      fun b hb => hr c b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [hz c]
    icases HO with ⟨%W, -, HO⟩; iexists W; iexact HO

abbrev reg0 := reg m ρ 0 launch0 (W3 m ρ) (W4 m ρ) (body_obligation0 (V3 m ρ)) (fun _ _ => rfl) (fun _ _ => rfl) (fun _ _ => rfl) (fun _ _ => trivial)
  (hin0 (V3 m ρ)) (hout0 (V3 m ρ)) (W4_arr m ρ) (W4_of_ne m ρ)
abbrev reg1 := reg m ρ 1 launch1 (W5 m ρ) (W6 m ρ) (body_obligation1 (V5 m ρ)) (fun _ _ => rfl) (fun _ _ => rfl) (fun _ _ => rfl) (fun _ _ => trivial)
  (hin1 (V5 m ρ)) (hout1 (V5 m ρ)) (W6_arr m ρ) (W6_of_ne m ρ)
abbrev reg2 := reg m ρ 2 launch2 (W7 m ρ) (W8 m ρ) (body_obligation2 (V7 m ρ)) (fun _ _ => rfl) (fun _ _ => rfl) (fun _ _ => rfl) (fun _ _ => trivial)
  (hin2 (V7 m ρ)) (hout2 (V7 m ρ)) (W8_arr m ρ) (W8_of_ne m ρ)
abbrev reg3 := reg m ρ 3 launch3 (W9 m ρ) (W10 m ρ) (body_obligation3 (V9 m ρ)) (fun _ _ => rfl) (fun _ _ => rfl) (fun _ _ => rfl) (fun _ _ => trivial)
  (hin3 (V9 m ρ)) (hout3 (V9 m ρ)) (W10_arr m ρ) (W10_of_ne m ρ)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]
theorem main_run : main (F := F) c = Pipeline.Seg.run (segs m ρ) := (main_chain c).trans (by chain_rfl)

set_option backward.isDefEq.respectTransparency.types false in
-- The launch over the segments, at any post that follows from every unscoped buffer holding the last boundary's contents.
theorem run_post {Q : PUnit × MemSt nD τ sig (Elt F) → Prop}
    (hQ : ∀ s : MemSt nD τ sig (Elt F), (∀ c : Dev nD, ∀ b ∈ Pipeline.ucRefs τ sig, s.mem (((c : Thread nD τ)).1, b) = W11 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W11 m ρ c) ∗ ∃ r, prngReg c r))
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := hQ)

theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  run_post m ρ fun _ h => h

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  run_post m ρ fun s h c => by
    and_intros <;> exact (h c _ (mem_uc _ (by decide))).trans (W11_kept m ρ c _ (by decide))

end Cert.Kernel.Hand

end
-- ==== Proof.KI.KWalk.lean ====
import proofs.«405801_j48610439856177_2_alg».proof.Proof.KI.Run

set_option maxRecDepth 16384

noncomputable section

namespace Cert.KernelIdeal.Hand

open Idealize.ShloMosaic Idealize.ShloMosaic.TcCoe
open Cert.KernelIdeal Cert.KernelIdeal.Gen

variable {F : FTy → Type} [FloatOps F] (m : (ℓ : Loc nD τ sig) → Buf (Elt F) ℓ) (ρ : Dev nD → PrngReg)
  (c : Dev nD) (r : Ref sig .tc)

-- What no stretch so far has written is still as launched.
theorem at2 (h : r ∉ hostOps0_W ∧ r ∉ hostOps0_1_W := by decide) :
    W2 m ρ c (Proc.devRef .tc r) = m ((c : Thread nD τ).loc r) :=
  (W2_of m ρ c r h.2).trans (W1_of m ρ c r h.1)
theorem at3 (h : (r ∉ hostOps0_W ∧ r ∉ hostOps0_1_W) ∧ r ∉ hostOps0_2_W := by decide) :
    W3 m ρ c (Proc.devRef .tc r) = m ((c : Thread nD τ).loc r) :=
  (W3_of m ρ c r h.2).trans (at2 m ρ c r h.1)

-- What a region does not touch, and the stretch after it does not write, passes both unchanged.
theorem W5_3 (h : (∀ w, Pipeline.arrRef spec0 w ≠ r) ∧ r ∉ hostOps1_W := by decide) :
    W5 m ρ c (Proc.devRef .tc r) = W3 m ρ c (Proc.devRef .tc r) :=
  (W5_of m ρ c r h.2).trans (W4_of_ne m ρ c r h.1)
theorem W7_5 (h : (∀ w, Pipeline.arrRef spec1 w ≠ r) ∧ r ∉ hostOps2_W := by decide) :
    W7 m ρ c (Proc.devRef .tc r) = W5 m ρ c (Proc.devRef .tc r) :=
  (W7_of m ρ c r h.2).trans (W6_of_ne m ρ c r h.1)
theorem W9_7 (h : (∀ w, Pipeline.arrRef spec2 w ≠ r) ∧ r ∉ hostOps3_W := by decide) :
    W9 m ρ c (Proc.devRef .tc r) = W7 m ρ c (Proc.devRef .tc r) :=
  (W9_of m ρ c r h.2).trans (W8_of_ne m ρ c r h.1)

-- The same from the end of the first stretch to the exit of region 0.
theorem W4_1 (h : (∀ w, Pipeline.arrRef spec0 w ≠ r) ∧ r ∉ hostOps0_2_W ∧ r ∉ hostOps0_1_W := by decide) :
    W4 m ρ c (Proc.devRef .tc r) = W1 m ρ c (Proc.devRef .tc r) :=
  (W4_of_ne m ρ c r h.1).trans ((W3_of m ρ c r h.2.1).trans (W2_of m ρ c r h.2.2))

-- The column of inverse square roots is only read by regions 0 to 2: it leaves each as it entered.
theorem v14_5 : W5 m ρ c (Proc.devRef .tc main_v14) = W3 m ρ c (Proc.devRef .tc main_v14) :=
  (W5_of m ρ c main_v14 (by decide)).trans ((W4_arr m ρ c 2).trans
    (((dat0 (V3 m ρ) c).arrAt_in 2 rfl _).trans (A_eq0 (V3 m ρ) c 2)))
theorem v14_7 : W7 m ρ c (Proc.devRef .tc main_v14) = W3 m ρ c (Proc.devRef .tc main_v14) :=
  (W7_of m ρ c main_v14 (by decide)).trans ((W6_arr m ρ c 2).trans
    (((dat1 (V5 m ρ) c).arrAt_in 2 rfl _).trans ((A_eq1 (V5 m ρ) c 2).trans (v14_5 m ρ c))))
theorem v14_9 : W9 m ρ c (Proc.devRef .tc main_v14) = W3 m ρ c (Proc.devRef .tc main_v14) :=
  (W9_of m ρ c main_v14 (by decide)).trans ((W8_arr m ρ c 2).trans
    (((dat2 (V7 m ρ) c).arrAt_in 2 rfl _).trans ((A_eq2 (V7 m ρ) c 2).trans (v14_7 m ρ c))))

end Cert.KernelIdeal.Hand

end
-- ==== Proof.KI.ValOps.lean ====
import proofs.«405801_j48610439856177_2_alg».proof.Proof.Gen.KernelIdeal
import proofs.«405801_j48610439856177_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open scoped BigOperators

-- With a zero accumulator the block product at an entry is the plain sum over the contracted axis.
theorem mm_apply {φ₁ φ₂ : FTy} (a : FVec Ideal S2000x256 φ₁) (b : FVec Ideal S256x256 φ₂) (p : Fin 2000) (q : Fin 256) :
    matmul dot_S2000x256_S256x256_S2000x256_1_0_0_1_n_n none a b (constant S2000x256 .f32 0x00000000#32) (ix2 p q) = ∑ k : Fin 256, a (ix2 p k) * b (ix2 k q) := by
  refine (Ideal.matmul_constant_zero_apply _ none a b (ix2 p q)).trans ?_
  rw [← Equiv.sum_comp (contrEquiv1 _ 256 rfl rfl).symm]
  refine Finset.sum_congr rfl fun k _ => ?_
  have hk := contrEquiv1_symm_val dot_S2000x256_S256x256_S2000x256_1_0_0_1_n_n 256 rfl rfl k
  rw [show DotDims.lhsIdx _ (ix2 p q) _ = ix2 p k from Shape.idx_ext₂ rfl ((DotDims.lhsIdx_val_of_single _ rfl _ _).trans hk),
    show DotDims.rhsIdx _ (ix2 p q) _ = ix2 k q from Shape.idx_ext₂ ((DotDims.rhsIdx_val_of_single _ rfl _ _).trans hk) rfl]

theorem bcol_apply {α : Type} (x : S2000x1.Idx → α) (p : Fin 2000) (q : Fin 256) :
    broadcastTo S2000x256 x broadcasts_S2000x1_S2000x256 (ix2 p q) = x (ix2 p 0) :=
  broadcastTo_apply x _ (ix2 p q) (ix2 p 0) (Fin.forall_fin_two.mpr ⟨rfl, rfl⟩)

theorem hzz : (![0, 0] : Fin 2 → Nat) = fun _ => 0 := funext (Fin.forall_fin_two.mpr ⟨rfl, rfl⟩)

-- What places a block in its array: the block index is the grid point on an axis the block splits, zero on one it spans.
def Tiled (cfg : Pipeline.Cfg sig Λ₀) : Prop :=
  ∀ (t : Fin cfg.N) (w : Fin cfg.W) (a : Fin (cfg.win w).shape.rank),
    (cfg.win w).index t a = if (cfg.win w).size a < (cfg.win w).shape.size a then t.val else 0

section
variable {cfg : Pipeline.Cfg sig Λ₀} (h : Tiled cfg) (t : Fin cfg.N) (w : Fin cfg.W) (a : Fin (cfg.win w).shape.rank)
include h

theorem Tiled.emb_split (ha : (cfg.win w).size a < (cfg.win w).shape.size a) (y : ((cfg.win w).xblock (cfg.grid.coords t)).Idx) :
    (((cfg.win w).rect t).emb y a : ℕ) = t.val * (cfg.win w).size a + y a :=
  ((cfg.win w).rect_emb_val t y a).trans (by rw [h, if_pos ha])

theorem Tiled.emb_whole (ha : ¬(cfg.win w).size a < (cfg.win w).shape.size a) (y : ((cfg.win w).xblock (cfg.grid.coords t)).Idx) :
    (((cfg.win w).rect t).emb y a : ℕ) = y a :=
  (cfg.win w).rect_emb_val_of_index_zero t a ((h t w a).trans (if_neg ha)) y
end

abbrev row (t : Fin 50) (p : Fin 2000) : Fin 100000 :=
  ⟨t.val * 2000 + p.val, by have := t.isLt; have := p.isLt; omega⟩

def rows {n : ℕ} {α : Type} (f : (⟨2, ![100000, n]⟩ : Shape).Idx → α) (t : Fin 50) : (⟨2, ![2000, n]⟩ : Shape).Idx → α :=
  fun y => f (ix2 (row t (y 0)) (y 1))

theorem rows_eq {n : ℕ} {α : Type} (f : (⟨2, ![100000, n]⟩ : Shape).Idx → α) (t : Fin 50)
    (e : (⟨2, ![2000, n]⟩ : Shape).Idx → (⟨2, ![100000, n]⟩ : Shape).Idx)
    (h0 : ∀ y, (e y 0 : ℕ) = t.val * 2000 + y 0) (h1 : ∀ y, (e y 1 : ℕ) = y 1) : (fun y => f (e y)) = rows f t :=
  funext fun y => congrArg f (Shape.idx_ext₂ (h0 y) (h1 y))

theorem whole_eq {m n : ℕ} {α : Type} (f : (⟨2, ![m, n]⟩ : Shape).Idx → α) (e : (⟨2, ![m, n]⟩ : Shape).Idx → (⟨2, ![m, n]⟩ : Shape).Idx)
    (h0 : ∀ y, (e y 0 : ℕ) = y 0) (h1 : ∀ y, (e y 1 : ℕ) = y 1) : (fun y => f (e y)) = f :=
  funext fun y => congrArg f (Shape.idx_ext₂ (h0 y) (h1 y))

theorem idx_row (i : S100000x256.Idx) : ∃ (t : Fin 50) (p : Fin 2000) (q : Fin 256), i = ix2 (row t p) q := by
  have hi : (i 0).val < 100000 := (i 0).isLt
  exact ⟨⟨(i 0).val / 2000, by omega⟩, ⟨(i 0).val % 2000, by omega⟩, i 1,
    Shape.idx_ext₂ (by show (i 0).val = (i 0).val / 2000 * 2000 + (i 0).val % 2000; omega) rfl⟩

theorem pay1_apply (x0 x1 : Vec Ideal S2000x256 .f32) (x2 : Vec Ideal S2000x1 .f32) (x3 x4 : Vec Ideal S1x256 .f32)
    (x5 : Vec Ideal S256x256 .f32) (p : Fin 2000) (q : Fin 256) :
    k1_pay1 x2 x0 x1 x3 x4 x5 (ix2 p q)
      = (∑ k : Fin 256, max ((x2 (ix2 p 0) * (x0 (ix2 p k) + x1 (ix2 p k))) * x3 (ix2 0 k) + x4 (ix2 0 k)) 0 * x5 (ix2 k q))
          * x2 (ix2 p 0) := by
  unfold k1_pay1
  rw [mulf_apply, mm_apply, bcol_apply]
  simp only [shapeCast_self]
  refine congrArg (· * x2 (ix2 p 0)) (Finset.sum_congr rfl fun k _ => ?_)
  rw [truncf_apply, truncf_apply, maximumf_apply, addf_apply, mulf_apply, mulf_apply, addf_apply, bcol_apply, broadcastTo_1b_ab_apply,
    broadcastTo_1b_ab_apply, broadcast_apply]
  exact congrArg (max _ · * _) Ideal.ofBits_zero_f32

section
variable (s h : S100000x256.Idx → EReal) (d : S100000x1.Idx → EReal) (sc bi : S1x256.Idx → EReal) (w : S256x256.Idx → EReal)

-- A hidden layer over whole arrays: rectified, normalised rows times the weights, scaled by `d` at the row.
def G12 : S100000x256.Idx → EReal := fun i =>
  (∑ k : Fin 256, max ((d (ix2 (i 0) 0) * (s (ix2 (i 0) k) + h (ix2 (i 0) k))) * sc (ix2 0 k) + bi (ix2 0 k)) 0 * w (ix2 k (i 1)))
    * d (ix2 (i 0) 0)

theorem pay12_rows (t : Fin 50) (p : Fin 2000) (q : Fin 256) :
    k1_pay1 (F := Ideal) (rows d t) (rows s t) (rows h t) sc bi w (ix2 p q) = G12 s h d sc bi w (ix2 (row t p) q) :=
  pay1_apply (rows s t) (rows h t) (rows d t) sc bi w p q
end

end Cert.KernelIdeal.Hand
-- ==== Proof.KI.Val0.lean ====
import proofs.«405801_j48610439856177_2_alg».proof.Proof.KI.Reg0
import proofs.«405801_j48610439856177_2_alg».proof.Proof.KI.ValOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

theorem pay0_apply (x0 : Vec Ideal S2000x256 .f32) (x1 : Vec Ideal S256x256 .f32) (x2 : Vec Ideal S2000x1 .f32) (p : Fin 2000) (q : Fin 256) :
    k0_pay1 x0 x1 x2 (ix2 p q) = (∑ k : Fin 256, x0 (ix2 p k) * x1 (ix2 k q)) * x2 (ix2 p 0) := by
  unfold k0_pay1
  rw [mulf_apply, mm_apply, shapeCast_self, bcol_apply]
  rfl

theorem tiled0 : Tiled cfg0 := by unfold Tiled; decide +kernel

section Value0
variable (V : (c : Dev nD) → (b : Ref sig .tc) → Buf (Elt Ideal) ((c : Thread nD τ).loc b))

abbrev arr0_x (c : Dev nD) : S100000x256.Idx → EReal := V c main_arg0
abbrev arr0_w (c : Dev nD) : S256x256.Idx → EReal := V c main_arg3
abbrev arr0_d (c : Dev nD) : S100000x1.Idx → EReal := V c main_v14

variable (c : Dev nD) (t : Fin cfg0.N)

def G0 : S100000x256.Idx → EReal := fun i =>
  (∑ k : Fin 256, arr0_x V c (ix2 (i 0) k) * arr0_w V c (ix2 k (i 1))) * arr0_d V c (ix2 (i 0) 0)

theorem iblk0_0 : iblk0 V c 0 t = rows (arr0_x V c) t :=
  rows_eq (V c main_arg0) t _ (tiled0.emb_split t 0 0 (by decide)) (tiled0.emb_whole t 0 1 (by decide))
theorem iblk0_1 : iblk0 V c 1 t = arr0_w V c :=
  whole_eq (V c main_arg3) _ (tiled0.emb_whole t 1 0 (by decide)) (tiled0.emb_whole t 1 1 (by decide))
theorem iblk0_2 : iblk0 V c 2 t = rows (arr0_d V c) t :=
  rows_eq (V c main_v14) t _ (tiled0.emb_split t 2 0 (by decide)) (tiled0.emb_whole t 2 1 (by decide))

theorem emb0_3 (p : Fin 2000) (q : Fin 256) :
    ((cfg0.win 3).blk t).view.emb (ix2 p q) = (ix2 (row t p) q : S100000x256.Idx) :=
  Shape.idx_ext₂ (tiled0.emb_split t 3 0 (by decide) _) (tiled0.emb_whole t 3 1 (by decide) _)

theorem flushed0_eq : (dat0 (F := Ideal) V c).flushed 3 t = ((cfg0.win 3).blk t).view.read (Elt Ideal) (G0 V c) := by
  show (cfg0.win 3).cut (grid0.coords t) ((dat0 (F := Ideal) V c).after 3 t) = _
  rw [after0_3, iblk0_0, iblk0_1, iblk0_2]
  unfold out0_3
  rw [View.canon_unit_zero hzz]
  simp only [View.ld_unit_zero (S := S2000x256) hzz, View.ld_unit_zero (S := S256x256) hzz, View.ld_unit_zero (S := S2000x1) hzz]
  funext j
  obtain ⟨p, q, rfl⟩ : ∃ (p : Fin 2000) (q : Fin 256), j = ix2 p q := ⟨j 0, j 1, eq_ix2 j⟩
  exact (pay0_apply _ _ _ p q).trans (congrArg (G0 V c) (emb0_3 t p q).symm)

theorem final0 (p : Fin 100000) (q : Fin 256) :
    (dat0 (F := Ideal) V c).arrAt 3 cfg0.N (ix2 p q)
      = (∑ k : Fin 256, arr0_x V c (ix2 p k) * arr0_w V c (ix2 k q)) * arr0_d V c (ix2 p 0) :=
  congrFun ((dat0 (F := Ideal) V c).arrAt_eq_of_cover 3 _ (fun t _ => flushed0_eq V c t) fun i => by
    obtain ⟨t, p, q, rfl⟩ := idx_row i
    exact ⟨t, flush0_3 t, by rw [← emb0_3 t p q]; exact View.emb_mem_set _ _⟩) (ix2 p q)

end Value0

end Cert.KernelIdeal.Hand
-- ==== Proof.KI.Val1.lean ====
import proofs.«405801_j48610439856177_2_alg».proof.Proof.KI.Reg1
import proofs.«405801_j48610439856177_2_alg».proof.Proof.KI.ValOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

theorem tiled1 : Tiled cfg1 := by unfold Tiled; decide +kernel

section Value1
variable (V : (c : Dev nD) → (b : Ref sig .tc) → Buf (Elt Ideal) ((c : Thread nD τ).loc b))

abbrev arr1_s (c : Dev nD) : S100000x256.Idx → EReal := V c main_v55
abbrev arr1_h (c : Dev nD) : S100000x256.Idx → EReal := V c main_v45
abbrev arr1_d (c : Dev nD) : S100000x1.Idx → EReal := V c main_v14
abbrev arr1_sc (c : Dev nD) : S1x256.Idx → EReal := V c main_v23
abbrev arr1_bi (c : Dev nD) : S1x256.Idx → EReal := V c main_v24
abbrev arr1_w (c : Dev nD) : S256x256.Idx → EReal := V c main_arg5

variable (c : Dev nD) (t : Fin cfg1.N)

theorem iblk1_0 : iblk1 V c 0 t = rows (arr1_s V c) t :=
  rows_eq (V c main_v55) t _ (tiled1.emb_split t 0 0 (by decide)) (tiled1.emb_whole t 0 1 (by decide))
theorem iblk1_1 : iblk1 V c 1 t = rows (arr1_h V c) t :=
  rows_eq (V c main_v45) t _ (tiled1.emb_split t 1 0 (by decide)) (tiled1.emb_whole t 1 1 (by decide))
theorem iblk1_2 : iblk1 V c 2 t = rows (arr1_d V c) t :=
  rows_eq (V c main_v14) t _ (tiled1.emb_split t 2 0 (by decide)) (tiled1.emb_whole t 2 1 (by decide))
theorem iblk1_3 : iblk1 V c 3 t = arr1_sc V c :=
  whole_eq (V c main_v23) _ (tiled1.emb_whole t 3 0 (by decide)) (tiled1.emb_whole t 3 1 (by decide))
theorem iblk1_4 : iblk1 V c 4 t = arr1_bi V c :=
  whole_eq (V c main_v24) _ (tiled1.emb_whole t 4 0 (by decide)) (tiled1.emb_whole t 4 1 (by decide))
theorem iblk1_5 : iblk1 V c 5 t = arr1_w V c :=
  whole_eq (V c main_arg5) _ (tiled1.emb_whole t 5 0 (by decide)) (tiled1.emb_whole t 5 1 (by decide))

theorem emb1_6 (p : Fin 2000) (q : Fin 256) :
    ((cfg1.win 6).blk t).view.emb (ix2 p q) = (ix2 (row t p) q : S100000x256.Idx) :=
  Shape.idx_ext₂ (tiled1.emb_split t 6 0 (by decide) _) (tiled1.emb_whole t 6 1 (by decide) _)

theorem flushed1_eq : (dat1 (F := Ideal) V c).flushed 6 t = ((cfg1.win 6).blk t).view.read (Elt Ideal)
    (G12 (arr1_s V c) (arr1_h V c) (arr1_d V c) (arr1_sc V c) (arr1_bi V c) (arr1_w V c)) := by
  show (cfg1.win 6).cut (grid1.coords t) ((dat1 (F := Ideal) V c).after 6 t) = _
  rw [after1_6, iblk1_0, iblk1_1, iblk1_2, iblk1_3, iblk1_4, iblk1_5]
  unfold out1_6
  rw [View.canon_unit_zero hzz]
  simp only [View.ld_unit_zero (S := S2000x256) hzz, View.ld_unit_zero (S := S256x256) hzz, View.ld_unit_zero (S := S2000x1) hzz,
    View.ld_unit_zero (S := S1x256) hzz]
  funext j
  obtain ⟨p, q, rfl⟩ : ∃ (p : Fin 2000) (q : Fin 256), j = ix2 p q := ⟨j 0, j 1, eq_ix2 j⟩
  exact (pay12_rows _ _ _ _ _ _ t p q).trans (congrArg (G12 _ _ _ _ _ _) (emb1_6 t p q).symm)

theorem final1 (p : Fin 100000) (q : Fin 256) :
    (dat1 (F := Ideal) V c).arrAt 6 cfg1.N (ix2 p q)
      = (∑ k : Fin 256, max ((arr1_d V c (ix2 p 0) * (arr1_s V c (ix2 p k) + arr1_h V c (ix2 p k))) * arr1_sc V c (ix2 0 k) + arr1_bi V c (ix2 0 k)) 0
            * arr1_w V c (ix2 k q)) * arr1_d V c (ix2 p 0) :=
  congrFun ((dat1 (F := Ideal) V c).arrAt_eq_of_cover 6 _ (fun t _ => flushed1_eq V c t) fun i => by
    obtain ⟨t, p, q, rfl⟩ := idx_row i
    exact ⟨t, flush1_6 t, by rw [← emb1_6 t p q]; exact View.emb_mem_set _ _⟩) (ix2 p q)

end Value1

end Cert.KernelIdeal.Hand
-- ==== Proof.KI.Val2.lean ====
import proofs.«405801_j48610439856177_2_alg».proof.Proof.KI.Reg2
import proofs.«405801_j48610439856177_2_alg».proof.Proof.KI.ValOps
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open scoped BigOperators

theorem tiled2 : Tiled cfg2 := by unfold Tiled; decide +kernel

section Value2
variable (V : (c : Dev nD) → (b : Ref sig .tc) → Buf (Elt Ideal) ((c : Thread nD τ).loc b))

abbrev arr2_s (c : Dev nD) : S100000x256.Idx → EReal := V c main_v66
abbrev arr2_h (c : Dev nD) : S100000x256.Idx → EReal := V c main_v56
abbrev arr2_d (c : Dev nD) : S100000x1.Idx → EReal := V c main_v14
abbrev arr2_sc (c : Dev nD) : S1x256.Idx → EReal := V c main_v33
abbrev arr2_bi (c : Dev nD) : S1x256.Idx → EReal := V c main_v34
abbrev arr2_w (c : Dev nD) : S256x256.Idx → EReal := V c main_arg7

variable (c : Dev nD) (t : Fin cfg2.N)

theorem iblk2_0 : iblk2 V c 0 t = rows (arr2_s V c) t :=
  rows_eq (V c main_v66) t _ (tiled2.emb_split t 0 0 (by decide)) (tiled2.emb_whole t 0 1 (by decide))
theorem iblk2_1 : iblk2 V c 1 t = rows (arr2_h V c) t :=
  rows_eq (V c main_v56) t _ (tiled2.emb_split t 1 0 (by decide)) (tiled2.emb_whole t 1 1 (by decide))
theorem iblk2_2 : iblk2 V c 2 t = rows (arr2_d V c) t :=
  rows_eq (V c main_v14) t _ (tiled2.emb_split t 2 0 (by decide)) (tiled2.emb_whole t 2 1 (by decide))
theorem iblk2_3 : iblk2 V c 3 t = arr2_sc V c :=
  whole_eq (V c main_v33) _ (tiled2.emb_whole t 3 0 (by decide)) (tiled2.emb_whole t 3 1 (by decide))
theorem iblk2_4 : iblk2 V c 4 t = arr2_bi V c :=
  whole_eq (V c main_v34) _ (tiled2.emb_whole t 4 0 (by decide)) (tiled2.emb_whole t 4 1 (by decide))
theorem iblk2_5 : iblk2 V c 5 t = arr2_w V c :=
  whole_eq (V c main_arg7) _ (tiled2.emb_whole t 5 0 (by decide)) (tiled2.emb_whole t 5 1 (by decide))

theorem emb2_6 (p : Fin 2000) (q : Fin 256) :
    ((cfg2.win 6).blk t).view.emb (ix2 p q) = (ix2 (row t p) q : S100000x256.Idx) :=
  Shape.idx_ext₂ (tiled2.emb_split t 6 0 (by decide) _) (tiled2.emb_whole t 6 1 (by decide) _)

theorem flushed2_eq : (dat2 (F := Ideal) V c).flushed 6 t = ((cfg2.win 6).blk t).view.read (Elt Ideal)
    (G12 (arr2_s V c) (arr2_h V c) (arr2_d V c) (arr2_sc V c) (arr2_bi V c) (arr2_w V c)) := by
  show (cfg2.win 6).cut (grid2.coords t) ((dat2 (F := Ideal) V c).after 6 t) = _
  rw [after2_6, iblk2_0, iblk2_1, iblk2_2, iblk2_3, iblk2_4, iblk2_5]
  unfold out2_6
  rw [View.canon_unit_zero hzz]
  simp only [View.ld_unit_zero (S := S2000x256) hzz, View.ld_unit_zero (S := S256x256) hzz, View.ld_unit_zero (S := S2000x1) hzz,
    View.ld_unit_zero (S := S1x256) hzz]
  funext j
  obtain ⟨p, q, rfl⟩ : ∃ (p : Fin 2000) (q : Fin 256), j = ix2 p q := ⟨j 0, j 1, eq_ix2 j⟩
  exact (pay12_rows _ _ _ _ _ _ t p q).trans (congrArg (G12 _ _ _ _ _ _) (emb2_6 t p q).symm)

theorem final2 (p : Fin 100000) (q : Fin 256) :
    (dat2 (F := Ideal) V c).arrAt 6 cfg2.N (ix2 p q)
      = (∑ k : Fin 256, max ((arr2_d V c (ix2 p 0) * (arr2_s V c (ix2 p k) + arr2_h V c (ix2 p k))) * arr2_sc V c (ix2 0 k) + arr2_bi V c (ix2 0 k)) 0
            * arr2_w V c (ix2 k q)) * arr2_d V c (ix2 p 0) :=
  congrFun ((dat2 (F := Ideal) V c).arrAt_eq_of_cover 6 _ (fun t _ => flushed2_eq V c t) fun i => by
    obtain ⟨t, p, q, rfl⟩ := idx_row i
    exact ⟨t, flush2_6 t, by rw [← emb2_6 t p q]; exact View.emb_mem_set _ _⟩) (ix2 p q)

end Value2

end Cert.KernelIdeal.Hand
-- ==== Proof.Spec.Forms.lean ====
-- A three-layer graph convolution (self-loops, symmetric normalisation, batch normalisation) with mean pooling,
-- written twice over plain index types: factored (prefix k) and over the edge list with the loops appended (prefix r).
import Idealize.ShloMosaic.PureOps.Ideal

noncomputable section

namespace Cert.GcnForms

open Idealize.ShloMosaic

-- nodes, edges, feature width, graphs
abbrev NN : ℕ := 100000
abbrev NE : ℕ := 320000
abbrev NF : ℕ := 256
abbrev NG : ℕ := 256

-- the words of 1.0 and of the normalisation's epsilon
def one : EReal := Ideal.ofBits .f32 0x3F800000#32
def eps : EReal := Ideal.ofBits .f32 0x3727C5AC#32

-- a word names row i when its signed value is i; a sum into row i runs over the entries whose word names i
def lands {m : ℕ} (v : BitVec 32) (i : Fin m) : Prop := v.toInt = (i.val : ℤ)

instance {m : ℕ} (v : BitVec 32) (i : Fin m) : Decidable (lands v i) := by unfold lands; infer_instance

-- a row read through a word: a negative word wraps once by the row count, then the value is clamped into the array
def grow (v : BitVec 32) : Fin NN :=
  ⟨(max 0 (min (if v.toInt < 0 then v + 100000#32 else v).toInt 99999)).toNat, by
    have h1 : max 0 (min (if v.toInt < 0 then v + 100000#32 else v).toInt 99999) ≤ 99999 :=
      max_le (by norm_num) (min_le_right _ _)
    have h0 : 0 ≤ max 0 (min (if v.toInt < 0 then v + 100000#32 else v).toInt 99999) := le_max_left _ _
    show _ < 100000
    omega⟩

-- 1/√deg for a positive degree, else 0
def dinvOf (deg : EReal) : EReal := if 0 < deg then Ideal.rsqrt deg else 0

section

variable (x : Fin NN → Fin NF → EReal) (src dst : Fin NE → BitVec 32) (bat : Fin NN → BitVec 32)

-- incoming edges plus the self-loop
def kDeg (i : Fin NN) : EReal :=
  (∑ e ∈ Finset.univ.filter (fun e : Fin NE => lands (dst e) i), one) + one

def kDinv (i : Fin NN) : EReal := dinvOf (kDeg dst i)

-- the normalisation folded to one scale and one bias per column
def kScale (g v : Fin NF → EReal) (j : Fin NF) : EReal := g j * Ideal.rsqrt (v j + eps)
def kBias (b g be mu v : Fin NF → EReal) (j : Fin NF) : EReal :=
  b j * kScale g v j + (be j - mu j * kScale g v j)

-- row i of H·W, scaled by its own dinv before the edge sum
def kPre (H : Fin NN → Fin NF → EReal) (W : Fin NF → Fin NF → EReal) (i : Fin NN) (j : Fin NF) : EReal :=
  (∑ k : Fin NF, H i k * W k j) * kDinv dst i

def kScat (H : Fin NN → Fin NF → EReal) (i : Fin NN) (j : Fin NF) : EReal :=
  ∑ e ∈ Finset.univ.filter (fun e : Fin NE => lands (dst e) i), H (grow (src e)) j

-- edge sum plus the row itself, scaled by dinv again, then the folded normalisation
def kNorm (H : Fin NN → Fin NF → EReal) (s bi : Fin NF → EReal) (i : Fin NN) (j : Fin NF) : EReal :=
  (kDinv dst i * (kScat src dst H i j + H i j)) * s j + bi j

def kRelu (H : Fin NN → Fin NF → EReal) (s bi : Fin NF → EReal) (i : Fin NN) (j : Fin NF) : EReal :=
  max (kNorm src dst H s bi i j) 0

end

section

variable (x : Fin NN → Fin NF → EReal) (src dst : Fin NE → BitVec 32) (bat : Fin NN → BitVec 32)
  (W1 W2 W3 : Fin NF → Fin NF → EReal) (b1 b2 b3 : Fin NF → EReal)
  (g1 be1 mu1 v1 g2 be2 mu2 v2 g3 be3 mu3 v3 : Fin NF → EReal)

def kH1 : Fin NN → Fin NF → EReal := kPre dst x W1
def kH2 : Fin NN → Fin NF → EReal :=
  kPre dst (kRelu src dst (kH1 x dst W1) (kScale g1 v1) (kBias b1 g1 be1 mu1 v1)) W2
def kH3 : Fin NN → Fin NF → EReal :=
  kPre dst (kRelu src dst (kH2 x src dst W1 W2 b1 g1 be1 mu1 v1) (kScale g2 v2) (kBias b2 g2 be2 mu2 v2)) W3
def kY3 : Fin NN → Fin NF → EReal :=
  kNorm src dst (kH3 x src dst W1 W2 W3 b1 b2 g1 be1 mu1 v1 g2 be2 mu2 v2) (kScale g3 v3) (kBias b3 g3 be3 mu3 v3)

-- membership of a node in graph g as a 0/1 factor: the pool sums over all nodes against it
def oh (v : BitVec 32) (g : Fin NG) : EReal := if lands v g then 1 else 0

def kSum (Y : Fin NN → Fin NF → EReal) (g : Fin NG) (j : Fin NF) : EReal := ∑ i : Fin NN, oh (bat i) g * Y i j
def kCnt (g : Fin NG) : EReal := ∑ i : Fin NN, oh (bat i) g * 1
def kEmb (g : Fin NG) (j : Fin NF) : EReal :=
  Ideal.div (kSum bat (kY3 x src dst W1 W2 W3 b1 b2 b3 g1 be1 mu1 v1 g2 be2 mu2 v2 g3 be3 mu3 v3) g j) (max (kCnt bat g) one)

end

section

variable (x : Fin NN → Fin NF → EReal) (src dst : Fin NE → BitVec 32) (bat : Fin NN → BitVec 32)

-- the edge list with one loop per node appended
def catW (w : Fin NE → BitVec 32) (q : Fin (NE + NN)) : BitVec 32 :=
  if h : q.val < NE then w ⟨q.val, h⟩ else BitVec.ofNat 32 (q.val - NE)

def rDeg (i : Fin NN) : EReal :=
  ∑ q ∈ Finset.univ.filter (fun q : Fin (NE + NN) => lands (catW dst q) i), one

def rDinv (i : Fin NN) : EReal := dinvOf (rDeg dst i)

-- over the entries whose destination names row i: dinv[s]·dinv[d] times the source's row of H·W; plus the bias
def rOut (H : Fin NN → Fin NF → EReal) (W : Fin NF → Fin NF → EReal) (b : Fin NF → EReal) (i : Fin NN) (j : Fin NF) : EReal :=
  (∑ q ∈ Finset.univ.filter (fun q : Fin (NE + NN) => lands (catW dst q) i),
      (rDinv dst (grow (catW src q)) * rDinv dst (grow (catW dst q))) * (∑ k : Fin NF, H (grow (catW src q)) k * W k j))
    + b j

-- centre, scale by 1/√(v + ε), gain, shift
def rBn (O : Fin NN → Fin NF → EReal) (g be mu v : Fin NF → EReal) (i : Fin NN) (j : Fin NF) : EReal :=
  ((O i j - mu j) * Ideal.rsqrt (v j + eps)) * g j + be j

def rRelu (O : Fin NN → Fin NF → EReal) (g be mu v : Fin NF → EReal) (i : Fin NN) (j : Fin NF) : EReal :=
  max (rBn O g be mu v i j) 0

end

section

variable (x : Fin NN → Fin NF → EReal) (src dst : Fin NE → BitVec 32) (bat : Fin NN → BitVec 32)
  (W1 W2 W3 : Fin NF → Fin NF → EReal) (b1 b2 b3 : Fin NF → EReal)
  (g1 be1 mu1 v1 g2 be2 mu2 v2 g3 be3 mu3 v3 : Fin NF → EReal)

def rA1 : Fin NN → Fin NF → EReal := rRelu (rOut src dst x W1 b1) g1 be1 mu1 v1
def rA2 : Fin NN → Fin NF → EReal := rRelu (rOut src dst (rA1 x src dst W1 b1 g1 be1 mu1 v1) W2 b2) g2 be2 mu2 v2
def rA3 : Fin NN → Fin NF → EReal :=
  rBn (rOut src dst (rA2 x src dst W1 W2 b1 b2 g1 be1 mu1 v1 g2 be2 mu2 v2) W3 b3) g3 be3 mu3 v3

-- the pool over the nodes whose graph word names g
def rSum (Y : Fin NN → Fin NF → EReal) (g : Fin NG) (j : Fin NF) : EReal :=
  ∑ i ∈ Finset.univ.filter (fun i : Fin NN => lands (bat i) g), Y i j
def rCnt (g : Fin NG) : EReal := ∑ i ∈ Finset.univ.filter (fun i : Fin NN => lands (bat i) g), one
def rEmb (g : Fin NG) (j : Fin NF) : EReal :=
  Ideal.div (rSum bat (rA3 x src dst W1 W2 W3 b1 b2 b3 g1 be1 mu1 v1 g2 be2 mu2 v2 g3 be3 mu3 v3) g j) (max (rCnt bat g) one)

end

end Cert.GcnForms

end
-- ==== Proof.KI.Val3a.lean ====
import proofs.«405801_j48610439856177_2_alg».proof.Proof.Gen.KernelIdeal.Skeleton
import proofs.«405801_j48610439856177_2_alg».proof.Proof.Spec.Forms
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

-- A word names column `g < 256` exactly when its signed value is `g`.
theorem pool_word_iff (w : BitVec 32) (g : Fin 256) : w = BitVec.ofNat 32 g.val ↔ Cert.GcnForms.lands w g := by
  unfold Cert.GcnForms.lands
  have hg := g.isLt
  have e : (BitVec.ofNat 32 g.val).toInt = (g.val : ℤ) := by
    rw [BitVec.toInt_ofNat']
    unfold Int.bmod
    norm_num
    omega
  constructor
  · rintro rfl
    exact e
  · intro h
    apply BitVec.eq_of_toInt_eq
    rw [h, e]

-- The membership factor is 1 at `(p, g)` when row `p`'s word names `g`, else 0.
theorem pool_pay5_apply (v20 : Vec Ideal S2000x1 .i32) (p : Fin 2000) (g : Fin 256) :
    k3_pay5 (F := Ideal) v20 (ix2 p g) = Cert.GcnForms.oh (v20 (ix2 p 0)) g := by
  unfold k3_pay5
  show FloatOps.sitofp (F := Ideal) .f32 ((IntOp.cmpi .eq (broadcastTo S2000x256 (shapeCast S2000x1 v20 shapeCasts_S2000x1_S2000x1) broadcasts_S2000x1_S2000x256 (ix2 p g)) (iota .tc S2000x256 32 [1] iota_S2000x256_d1_w32 (ix2 p g))).setWidth 32) = _
  rw [shapeCast_self, iota_single_apply]
  rw [broadcastTo_apply v20 broadcasts_S2000x1_S2000x256 (ix2 p g) (ix2 p 0) (fun a => by
    match a with
    | ⟨0, _⟩ => rfl
    | ⟨1, _⟩ => rfl)]
  show ((((BitVec.setWidth 32 (IntOp.cmpi .eq (v20 (ix2 p 0)) (BitVec.ofNat 32 g.val))).toInt : ℤ) : ℝ) : EReal) = _
  unfold Cert.GcnForms.oh
  by_cases h : Cert.GcnForms.lands (v20 (ix2 p 0)) g
  · rw [if_pos h, (pool_word_iff _ g).mpr h]
    have e1 : IntOp.cmpi .eq (BitVec.ofNat 32 g.val) (BitVec.ofNat 32 g.val) = 1#1 := by simp [IntOp.cmpi]
    rw [e1]
    simp
  · rw [if_neg h]
    have e0 : IntOp.cmpi .eq (v20 (ix2 p 0)) (BitVec.ofNat 32 g.val) = 0#1 := by
      simp only [IntOp.cmpi]
      rw [show ((v20 (ix2 p 0)) == BitVec.ofNat 32 g.val) = false from by
        rw [beq_eq_false_iff_ne]; exact fun e => h ((pool_word_iff _ g).mp e)]
      rfl
    rw [e0]
    simp

theorem pool_pay6_apply (p : Fin 2000) : k3_pay6 (F := Ideal) (ix2 p 0) = 1 := by
  unfold k3_pay6
  show Ideal.ofBits .bf16 0x3F80#16 = 1
  simp [Ideal.ofBits, Ideal.ieee]
  rw [← EReal.coe_mul]
  norm_num

theorem pool_pay3_apply (i : S256x256.Idx) : k3_pay3 (F := Ideal) i = 0 := by
  unfold k3_pay3
  rw [shapeCast_self]
  exact Ideal.ofBits_zero_f32

theorem pool_pay4_apply (i : S256x1.Idx) : k3_pay4 (F := Ideal) i = 0 := by
  unfold k3_pay4
  rw [shapeCast_self]
  exact Ideal.ofBits_zero_f32

-- Contracting two blocks over their 2000 rows from zero: entry `(g, j)` is the sum over rows `p` of `A (p, g) * B (p, j)`.
theorem pool_matmul_sums_apply (A B : FVec Ideal S2000x256 .bf16) (g j : Fin 256) :
    FloatOps.matmul dot_S2000x256_S2000x256_S256x256_0_0_1_1_n_n none A B (constant S256x256 .f32 0x00000000#32) (ix2 g j)
      = ∑ p : Fin 2000, A (ix2 p g) * B (ix2 p j) := by
  rw [Ideal.matmul_constant_zero_apply, ← Equiv.sum_comp (contrEquiv1 dot_S2000x256_S2000x256_S256x256_0_0_1_1_n_n 2000 rfl rfl).symm]
  refine Finset.sum_congr rfl fun k _ => ?_
  have hk := contrEquiv1_symm_val dot_S2000x256_S2000x256_S256x256_0_0_1_1_n_n 2000 rfl rfl k
  have el : dot_S2000x256_S2000x256_S256x256_0_0_1_1_n_n.lhsIdx (ix2 g j) ((contrEquiv1 dot_S2000x256_S2000x256_S256x256_0_0_1_1_n_n 2000 rfl rfl).symm k) = ix2 k g := funext fun a => Fin.ext (by
    match a with
    | ⟨0, _⟩ => exact (dot_S2000x256_S2000x256_S256x256_0_0_1_1_n_n.lhsIdx_val_of_single rfl _ _).trans hk
    | ⟨1, _⟩ => unfold DotDims.lhsIdx; rw [dif_neg (by decide +revert), dif_pos (by decide +revert)]; rfl)
  have er : dot_S2000x256_S2000x256_S256x256_0_0_1_1_n_n.rhsIdx (ix2 g j) ((contrEquiv1 dot_S2000x256_S2000x256_S256x256_0_0_1_1_n_n 2000 rfl rfl).symm k) = ix2 k j := funext fun a => Fin.ext (by
    match a with
    | ⟨0, _⟩ => exact (dot_S2000x256_S2000x256_S256x256_0_0_1_1_n_n.rhsIdx_val_of_single rfl _ _).trans hk
    | ⟨1, _⟩ => unfold DotDims.rhsIdx; rw [dif_neg (by decide +revert), dif_pos (by decide +revert)]; rfl)
  rw [el, er]

theorem pool_matmul_cnt_apply (A : FVec Ideal S2000x256 .bf16) (B : FVec Ideal S2000x1 .bf16) (g : Fin 256) :
    FloatOps.matmul dot_S2000x256_S2000x1_S256x1_0_0_1_1_n_n none A B (constant S256x1 .f32 0x00000000#32) (ix2 g 0)
      = ∑ p : Fin 2000, A (ix2 p g) * B (ix2 p 0) := by
  rw [Ideal.matmul_constant_zero_apply, ← Equiv.sum_comp (contrEquiv1 dot_S2000x256_S2000x1_S256x1_0_0_1_1_n_n 2000 rfl rfl).symm]
  refine Finset.sum_congr rfl fun k _ => ?_
  have hk := contrEquiv1_symm_val dot_S2000x256_S2000x1_S256x1_0_0_1_1_n_n 2000 rfl rfl k
  have el : dot_S2000x256_S2000x1_S256x1_0_0_1_1_n_n.lhsIdx (ix2 g 0) ((contrEquiv1 dot_S2000x256_S2000x1_S256x1_0_0_1_1_n_n 2000 rfl rfl).symm k) = ix2 k g := funext fun a => Fin.ext (by
    match a with
    | ⟨0, _⟩ => exact (dot_S2000x256_S2000x1_S256x1_0_0_1_1_n_n.lhsIdx_val_of_single rfl _ _).trans hk
    | ⟨1, _⟩ => unfold DotDims.lhsIdx; rw [dif_neg (by decide +revert), dif_pos (by decide +revert)]; rfl)
  have er : dot_S2000x256_S2000x1_S256x1_0_0_1_1_n_n.rhsIdx (ix2 g 0) ((contrEquiv1 dot_S2000x256_S2000x1_S256x1_0_0_1_1_n_n 2000 rfl rfl).symm k) = ix2 k 0 := funext fun a => Fin.ext (by
    match a with
    | ⟨0, _⟩ => exact (dot_S2000x256_S2000x1_S256x1_0_0_1_1_n_n.rhsIdx_val_of_single rfl _ _).trans hk
    | ⟨1, _⟩ => unfold DotDims.rhsIdx; rw [dif_neg (by decide +revert), dif_pos (by decide +revert)]; rfl)
  rw [el, er]

-- A point adds to the sums its block's normalised rows weighted by membership.
theorem pool_pay7_apply (v3 : Vec Ideal S2000x1 .f32) (v5 v7 : Vec Ideal S2000x256 .f32) (v12 v16 : Vec Ideal S1x256 .f32)
    (v20 : Vec Ideal S2000x1 .i32) (v29 : Vec Ideal S256x256 .f32) (g j : Fin 256) :
    k3_pay7 (F := Ideal) v3 v5 v7 v12 v16 v20 v29 (ix2 g j)
      = v29 (ix2 g j) + ∑ p : Fin 2000, Cert.GcnForms.oh (v20 (ix2 p 0)) g
          * ((v3 (ix2 p 0) * (v5 (ix2 p j) + v7 (ix2 p j))) * v12 (ix2 0 j) + v16 (ix2 0 j)) := by
  unfold k3_pay7
  rw [shapeCast_self]
  show v29 (ix2 g j) + FloatOps.matmul dot_S2000x256_S2000x256_S256x256_0_0_1_1_n_n none (k3_pay5 v20) (truncf .bf16 _ bitsLt_bf16_f32) (constant S256x256 .f32 0x00000000#32) (ix2 g j) = _
  rw [pool_matmul_sums_apply]
  refine congrArg (v29 (ix2 g j) + ·) (Finset.sum_congr rfl fun p _ => ?_)
  rw [pool_pay5_apply, truncf_apply]
  simp only [addf_apply, mulf_apply, shapeCast_self]
  rw [broadcastTo_apply v3 broadcasts_S2000x1_S2000x256 (ix2 p j) (ix2 p 0) (fun a => by
      match a with
      | ⟨0, _⟩ => rfl
      | ⟨1, _⟩ => rfl),
    broadcastTo_apply v12 broadcasts_S1x256_S2000x256 (ix2 p j) (ix2 0 j) (fun a => by
      match a with
      | ⟨0, _⟩ => rfl
      | ⟨1, _⟩ => rfl),
    broadcastTo_apply v16 broadcasts_S1x256_S2000x256 (ix2 p j) (ix2 0 j) (fun a => by
      match a with
      | ⟨0, _⟩ => rfl
      | ⟨1, _⟩ => rfl)]

-- A point adds to the counts the number of its block's rows in each graph.
theorem pool_pay1_apply (v20 : Vec Ideal S2000x1 .i32) (v36 : Vec Ideal S256x1 .f32) (g : Fin 256) :
    k3_pay1 (F := Ideal) (k3_pay5 v20) k3_pay6 v36 (ix2 g 0)
      = v36 (ix2 g 0) + ∑ p : Fin 2000, Cert.GcnForms.oh (v20 (ix2 p 0)) g * 1 := by
  unfold k3_pay1
  rw [shapeCast_self]
  show v36 (ix2 g 0) + FloatOps.matmul dot_S2000x256_S2000x1_S256x1_0_0_1_1_n_n none (k3_pay5 v20) (k3_pay6 (F := Ideal))
      (constant S256x1 .f32 0x00000000#32) (ix2 g 0) = _
  rw [pool_matmul_cnt_apply]
  refine congrArg (v36 (ix2 g 0) + ·) (Finset.sum_congr rfl fun p _ => ?_)
  rw [pool_pay5_apply, pool_pay6_apply]

-- The last point divides the sums by the counts, a count below one raised to one.
theorem pool_pay2_apply (v45 : Vec Ideal S256x1 .f32) (v48 : Vec Ideal S256x256 .f32) (g j : Fin 256) :
    k3_pay2 (F := Ideal) v45 v48 (ix2 g j) = Ideal.div (v48 (ix2 g j)) (max (v45 (ix2 g 0)) Cert.GcnForms.one) := by
  unfold k3_pay2
  show Ideal.div (v48 (ix2 g j)) (broadcastTo S256x256 (maximumf v45 (broadcast S256x1 (Scalar.ofBits (F := Ideal) .f32 0x3F800000#32))) broadcasts_S256x1_S256x256 (ix2 g j)) = _
  rw [broadcastTo_apply _ broadcasts_S256x1_S256x256 (ix2 g j) (ix2 g 0) (fun a => by
      match a with
      | ⟨0, _⟩ => rfl
      | ⟨1, _⟩ => rfl)]
  rfl

end Cert.KernelIdeal.Hand

end
-- ==== Proof.KI.Val3b.lean ====
import proofs.«405801_j48610439856177_2_alg».proof.Proof.KI.Reg3
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

section Region3
variable (V : (c : Dev nD) → (b : Ref sig .tc) → Buf (Elt F) ((c : Thread nD τ).loc b))

theorem hz3 : (![0, 0] : Fin 2 → Nat) = fun _ => 0 := funext fun a => by fin_cases a <;> rfl

section Body
variable (c : Dev nD) (i : grid3.Coords)
  (a1 : Memref sig .tc .vmem S2000x256 .f32) (w1 : a1.IsWhole) (a2 : Memref sig .tc .vmem S2000x256 .f32) (w2 : a2.IsWhole)
  (a3 : Memref sig .tc .vmem S2000x1 .f32) (w3 : a3.IsWhole) (a4 : Memref sig .tc .vmem S1x256 .f32) (w4 : a4.IsWhole)
  (a5 : Memref sig .tc .vmem S1x256 .f32) (w5 : a5.IsWhole) (a6 : Memref sig .tc .vmem S2000x1 .i32) (w6 : a6.IsWhole)
  (a7 : Memref sig .tc .vmem S256x256 .f32) (w7 : a7.IsWhole) (a8 : Memref sig .tc .vmem S256x256 .f32) (w8 : a8.IsWhole)
  (a9 : Memref sig .tc .vmem S256x1 .f32) (w9 : a9.IsWhole)
  (x0 x1 : Vec F S2000x256 .f32) (x2 : Vec F S2000x1 .f32) (x3 x4 : Vec F S1x256 .f32) (x5 : Vec F S2000x1 .i32)
  (s0 : Vec F S256x256 .f32) (s1 : Vec F S256x1 .f32)

theorem sout3_A_0_eq (hc0 : cond3_0 i) (hc1 : ¬cond3_1 i) :
    sout3_A_0 c i a1 w1 a2 w2 a3 w3 a4 w4 a5 w5 a6 w6 a7 w7 a8 w8 a9 w9 hc0 hc1 x0 x1 x2 x3 x4 x5 = k3_pay7 x2 x0 x1 x3 x4 x5 (k3_pay3 (F := F)) := by
  unfold sout3_A_0
  rw [View.read_writes_eq_canon _ _ _ fun _ => scover3_A_0 ..]
  unfold kernelRun3_A
  dsimp only
  try sl_unfold_words
  rw [View.canon_cons_unit_zero (S := ⟨2, _⟩) hz3]
  simp only [View.readCov_unit_zero (S := ⟨2, _⟩) _ hz3, View.readAt_eq_ld, Memref.IsWhole.read_unread, View.ld_unit_zero (S := ⟨2, _⟩) hz3]

theorem sout3_A_1_eq (hc0 : cond3_0 i) (hc1 : ¬cond3_1 i) :
    sout3_A_1 c i a1 w1 a2 w2 a3 w3 a4 w4 a5 w5 a6 w6 a7 w7 a8 w8 a9 w9 hc0 hc1 x0 x1 x2 x3 x4 x5 = k3_pay1 (k3_pay5 x5) (k3_pay6 (F := F)) (k3_pay4 (F := F)) := by
  unfold sout3_A_1
  rw [View.read_writes_eq_canon _ _ _ fun _ => scover3_A_1 ..]
  unfold kernelRun3_A
  dsimp only
  try sl_unfold_words
  rw [View.canon_cons_unit_zero (S := ⟨2, _⟩) hz3]
  simp only [View.readCov_unit_zero (S := ⟨2, _⟩) _ hz3, View.readAt_eq_ld, Memref.IsWhole.read_unread, View.ld_unit_zero (S := ⟨2, _⟩) hz3]

theorem sout3_B_0_eq (hc0 : ¬cond3_0 i) (hc1 : ¬cond3_1 i) :
    sout3_B_0 c i a1 w1 a2 w2 a3 w3 a4 w4 a5 w5 a6 w6 a7 w7 a8 w8 a9 w9 hc0 hc1 x0 x1 x2 x3 x4 x5 s0 s1 = k3_pay7 x2 x0 x1 x3 x4 x5 s0 := by
  unfold sout3_B_0
  rw [View.read_writes_eq_canon _ _ _ fun _ => scover3_B_0 ..]
  unfold kernelRun3_B
  dsimp only
  try sl_unfold_words
  rw [View.canon_cons_unit_zero (S := ⟨2, _⟩) hz3]
  simp only [View.readCov_unit_zero (S := ⟨2, _⟩) _ hz3, View.readAt_eq_ld, Memref.IsWhole.read_unread, View.ld_unit_zero (S := ⟨2, _⟩) hz3]

theorem sout3_B_1_eq (hc0 : ¬cond3_0 i) (hc1 : ¬cond3_1 i) :
    sout3_B_1 c i a1 w1 a2 w2 a3 w3 a4 w4 a5 w5 a6 w6 a7 w7 a8 w8 a9 w9 hc0 hc1 x0 x1 x2 x3 x4 x5 s0 s1 = k3_pay1 (k3_pay5 x5) (k3_pay6 (F := F)) s1 := by
  unfold sout3_B_1
  rw [View.read_writes_eq_canon _ _ _ fun _ => scover3_B_1 ..]
  unfold kernelRun3_B
  dsimp only
  try sl_unfold_words
  rw [View.canon_cons_unit_zero (S := ⟨2, _⟩) hz3]
  simp only [View.readCov_unit_zero (S := ⟨2, _⟩) _ hz3, View.readAt_eq_ld, Memref.IsWhole.read_unread, View.ld_unit_zero (S := ⟨2, _⟩) hz3]

theorem sout3_C_0_eq (hc0 : ¬cond3_0 i) (hc1 : cond3_1 i) :
    sout3_C_0 c i a1 w1 a2 w2 a3 w3 a4 w4 a5 w5 a6 w6 a7 w7 a8 w8 a9 w9 hc0 hc1 x0 x1 x2 x3 x4 x5 s0 s1 = k3_pay7 x2 x0 x1 x3 x4 x5 s0 := by
  unfold sout3_C_0
  rw [View.read_writes_eq_canon _ _ _ fun _ => scover3_C_0 ..]
  unfold kernelRun3_C
  dsimp only
  try sl_unfold_words
  rw [View.canon_cons_unit_zero (S := ⟨2, _⟩) hz3]
  simp only [View.readCov_unit_zero (S := ⟨2, _⟩) _ hz3, View.readAt_eq_ld, Memref.IsWhole.read_unread, View.ld_unit_zero (S := ⟨2, _⟩) hz3]

theorem sout3_C_1_eq (hc0 : ¬cond3_0 i) (hc1 : cond3_1 i) :
    sout3_C_1 c i a1 w1 a2 w2 a3 w3 a4 w4 a5 w5 a6 w6 a7 w7 a8 w8 a9 w9 hc0 hc1 x0 x1 x2 x3 x4 x5 s0 s1 = k3_pay1 (k3_pay5 x5) (k3_pay6 (F := F)) s1 := by
  unfold sout3_C_1
  rw [View.read_writes_eq_canon _ _ _ fun _ => scover3_C_1 ..]
  unfold kernelRun3_C
  dsimp only
  try sl_unfold_words
  rw [View.canon_cons_unit_zero (S := ⟨2, _⟩) hz3]
  simp only [View.readCov_unit_zero (S := ⟨2, _⟩) _ hz3, View.readAt_eq_ld, Memref.IsWhole.read_unread, View.ld_unit_zero (S := ⟨2, _⟩) hz3]

theorem out3_C_6_eq (hc0 : ¬cond3_0 i) (hc1 : cond3_1 i) :
    out3_C_6 c i a1 w1 a2 w2 a3 w3 a4 w4 a5 w5 a6 w6 a7 w7 a8 w8 a9 w9 hc0 hc1 x0 x1 x2 x3 x4 x5 s0 s1 = k3_pay2 (k3_pay1 (k3_pay5 x5) (k3_pay6 (F := F)) s1) (k3_pay7 x2 x0 x1 x3 x4 x5 s0) := by
  unfold out3_C_6
  rw [View.read_writes_eq_canon _ _ _ fun _ => cover3_C_6 ..]
  unfold kernelRun3_C
  dsimp only
  try sl_unfold_words
  rw [View.canon_cons_unit_zero (S := ⟨2, _⟩) hz3]
  simp only [View.readCov_unit_zero (S := ⟨2, _⟩) _ hz3, View.readAt_eq_ld, Memref.IsWhole.read_unread, View.ld_unit_zero (S := ⟨2, _⟩) hz3]

end Body

variable (c : Dev nD) (t : Fin cfg3.N)

-- The point before `t`.
abbrev pred3 : Fin cfg3.N := ⟨t.val - 1, Nat.lt_of_le_of_lt (Nat.sub_le _ _) t.isLt⟩

theorem outsAt3_sums_A (h0 : t.val % 50 = 0) (h1 : ¬t.val % 50 = 49) :
    (outsAt3 V c t.val t.isLt).2.1 = k3_pay7 (iblk3 V c 2 t) (iblk3 V c 0 t) (iblk3 V c 1 t) (iblk3 V c 3 t) (iblk3 V c 4 t) (iblk3 V c 5 t) (k3_pay3 (F := F)) := by
  rw [outsAt3_A V c t h0 h1]; dsimp only; exact sout3_A_0_eq (F := F) ..

theorem outsAt3_counts_A (h0 : t.val % 50 = 0) (h1 : ¬t.val % 50 = 49) :
    (outsAt3 V c t.val t.isLt).2.2 = k3_pay1 (k3_pay5 (iblk3 V c 5 t)) (k3_pay6 (F := F)) (k3_pay4 (F := F)) := by
  rw [outsAt3_A V c t h0 h1]; dsimp only; exact sout3_A_1_eq (F := F) ..

-- Past the first point every case adds the point's blocks onto what the point before left.
theorem outsAt3_sums_pos (h0 : ¬t.val % 50 = 0) :
    (outsAt3 V c t.val t.isLt).2.1 = k3_pay7 (iblk3 V c 2 t) (iblk3 V c 0 t) (iblk3 V c 1 t) (iblk3 V c 3 t) (iblk3 V c 4 t) (iblk3 V c 5 t) (outsAt3 V c (pred3 t).val (pred3 t).isLt).2.1 := by
  by_cases h1 : t.val % 50 = 49
  · rw [outsAt3_C V c t h0 h1]; dsimp only; exact sout3_C_0_eq (F := F) ..
  · rw [outsAt3_B V c t h0 h1]; dsimp only; exact sout3_B_0_eq (F := F) ..

theorem outsAt3_counts_pos (h0 : ¬t.val % 50 = 0) :
    (outsAt3 V c t.val t.isLt).2.2 = k3_pay1 (k3_pay5 (iblk3 V c 5 t)) (k3_pay6 (F := F)) (outsAt3 V c (pred3 t).val (pred3 t).isLt).2.2 := by
  by_cases h1 : t.val % 50 = 49
  · rw [outsAt3_C V c t h0 h1]; dsimp only; exact sout3_C_1_eq (F := F) ..
  · rw [outsAt3_B V c t h0 h1]; dsimp only; exact sout3_B_1_eq (F := F) ..

-- The last point stores the quotient of the sums and counts it has just left.
theorem outsAt3_out_C (h0 : ¬t.val % 50 = 0) (h1 : t.val % 50 = 49) :
    (outsAt3 V c t.val t.isLt).1 = k3_pay2 (outsAt3 V c t.val t.isLt).2.2 (outsAt3 V c t.val t.isLt).2.1 := by
  rw [outsAt3_counts_pos V c t h0, outsAt3_sums_pos V c t h0, outsAt3_C V c t h0 h1]; dsimp only; exact out3_C_6_eq (F := F) ..

end Region3

end Cert.KernelIdeal.Hand

end
-- ==== Proof.KI.Val3.lean ====
import proofs.«405801_j48610439856177_2_alg».proof.Proof.KI.Val3a
import proofs.«405801_j48610439856177_2_alg».proof.Proof.KI.Val3b
import proofs.«405801_j48610439856177_2_alg».proof.Proof.Spec.Forms
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

section Value3
variable (V : (c : Dev nD) → (b : Ref sig .tc) → Buf (Elt Ideal) ((c : Thread nD τ).loc b))

abbrev arr3_s (c : Dev nD) : S100000x256.Idx → EReal := V c main_v77
abbrev arr3_h (c : Dev nD) : S100000x256.Idx → EReal := V c main_v67
abbrev arr3_d (c : Dev nD) : S100000x1.Idx → EReal := V c main_v14
abbrev arr3_sc (c : Dev nD) : S1x256.Idx → EReal := V c main_v43
abbrev arr3_bi (c : Dev nD) : S1x256.Idx → EReal := V c main_v44
abbrev arr3_b (c : Dev nD) : S100000x1.Idx → BitVec 32 := V c main_v78

section Points
variable (c : Dev nD) (t : Fin cfg3.N) (p : Fin 2000) (g j : Fin 256)

theorem idx3_0 : ∀ t : Fin grid3.N, win3_0.index t 0 = t.val ∧ win3_0.index t 1 = 0 := by decide +kernel
theorem idx3_1 : ∀ t : Fin grid3.N, win3_1.index t 0 = t.val ∧ win3_1.index t 1 = 0 := by decide +kernel
theorem idx3_2 : ∀ t : Fin grid3.N, win3_2.index t 0 = t.val ∧ win3_2.index t 1 = 0 := by decide +kernel
theorem idx3_3 : ∀ t : Fin grid3.N, win3_3.index t 0 = 0 ∧ win3_3.index t 1 = 0 := by decide +kernel
theorem idx3_4 : ∀ t : Fin grid3.N, win3_4.index t 0 = 0 ∧ win3_4.index t 1 = 0 := by decide +kernel
theorem idx3_5 : ∀ t : Fin grid3.N, win3_5.index t 0 = t.val ∧ win3_5.index t 1 = 0 := by decide +kernel

-- Row `p` of block `t` is row `2000·t + p` of a 100000-row array.
def rowOf3 (t : ℕ) (ht : t < 50) (p : Fin 2000) : Fin 100000 := ⟨2000 * t + p.val, by have := p.isLt; omega⟩

theorem lt50_3 : t.val < 50 := lt_of_lt_of_eq t.isLt (show cfg3.N = 50 from N_3)

-- Each input block at point `t` is rows `2000·t …` of its array; the scale and bias rows are their one block at every point.

theorem iblk3_0_apply : (iblk3 V c 0 t : Vec Ideal S2000x256 .f32) (ix2 p j) = arr3_s V c (ix2 (rowOf3 t.val (lt50_3 t) p) j) := by
  unfold iblk3
  rw [View.read_apply]
  show V c main_v77 _ = V c main_v77 _
  congr 1
  funext a
  apply Fin.ext
  match a with
  | ⟨0, _⟩ => show win3_0.index t 0 * 2000 + 1 * p.val = 2000 * t.val + p.val; rw [(idx3_0 t).1]; omega
  | ⟨1, _⟩ => show win3_0.index t 1 * 256 + 1 * j.val = j.val; rw [(idx3_0 t).2]; omega

theorem iblk3_1_apply : (iblk3 V c 1 t : Vec Ideal S2000x256 .f32) (ix2 p j) = arr3_h V c (ix2 (rowOf3 t.val (lt50_3 t) p) j) := by
  unfold iblk3
  rw [View.read_apply]
  show V c main_v67 _ = V c main_v67 _
  congr 1
  funext a
  apply Fin.ext
  match a with
  | ⟨0, _⟩ => show win3_1.index t 0 * 2000 + 1 * p.val = 2000 * t.val + p.val; rw [(idx3_1 t).1]; omega
  | ⟨1, _⟩ => show win3_1.index t 1 * 256 + 1 * j.val = j.val; rw [(idx3_1 t).2]; omega

theorem iblk3_2_apply : (iblk3 V c 2 t : Vec Ideal S2000x1 .f32) (ix2 p 0) = arr3_d V c (ix2 (rowOf3 t.val (lt50_3 t) p) 0) := by
  unfold iblk3
  rw [View.read_apply]
  show V c main_v14 _ = V c main_v14 _
  congr 1
  funext a
  apply Fin.ext
  match a with
  | ⟨0, _⟩ => show win3_2.index t 0 * 2000 + 1 * p.val = 2000 * t.val + p.val; rw [(idx3_2 t).1]; omega
  | ⟨1, _⟩ => show win3_2.index t 1 * 1 + 1 * 0 = 0; rw [(idx3_2 t).2]

theorem iblk3_5_apply : (iblk3 V c 5 t : Vec Ideal S2000x1 .i32) (ix2 p 0) = arr3_b V c (ix2 (rowOf3 t.val (lt50_3 t) p) 0) := by
  unfold iblk3
  rw [View.read_apply]
  show V c main_v78 _ = V c main_v78 _
  congr 1
  funext a
  apply Fin.ext
  match a with
  | ⟨0, _⟩ => show win3_5.index t 0 * 2000 + 1 * p.val = 2000 * t.val + p.val; rw [(idx3_5 t).1]; omega
  | ⟨1, _⟩ => show win3_5.index t 1 * 1 + 1 * 0 = 0; rw [(idx3_5 t).2]

theorem iblk3_3_apply : (iblk3 V c 3 t : Vec Ideal S1x256 .f32) (ix2 0 j) = arr3_sc V c (ix2 0 j) := by
  unfold iblk3
  rw [View.read_apply]
  show V c main_v43 _ = V c main_v43 _
  congr 1
  funext a
  apply Fin.ext
  match a with
  | ⟨0, _⟩ => show win3_3.index t 0 * 1 + 1 * 0 = 0; rw [(idx3_3 t).1]
  | ⟨1, _⟩ => show win3_3.index t 1 * 256 + 1 * j.val = j.val; rw [(idx3_3 t).2]; omega

theorem iblk3_4_apply : (iblk3 V c 4 t : Vec Ideal S1x256 .f32) (ix2 0 j) = arr3_bi V c (ix2 0 j) := by
  unfold iblk3
  rw [View.read_apply]
  show V c main_v44 _ = V c main_v44 _
  congr 1
  funext a
  apply Fin.ext
  match a with
  | ⟨0, _⟩ => show win3_4.index t 0 * 1 + 1 * 0 = 0; rw [(idx3_4 t).1]
  | ⟨1, _⟩ => show win3_4.index t 1 * 256 + 1 * j.val = j.val; rw [(idx3_4 t).2]; omega

def y3 (i : Fin 100000) : EReal :=
  (arr3_d V c (ix2 i 0) * (arr3_s V c (ix2 i j) + arr3_h V c (ix2 i j))) * arr3_sc V c (ix2 0 j) + arr3_bi V c (ix2 0 j)

-- What block `t` adds to the sums at `(g, j)`, and to the counts at `g`.
def part3 (s : ℕ) : EReal :=
  if h : s < 50 then ∑ p : Fin 2000, Cert.GcnForms.oh (arr3_b V c (ix2 (rowOf3 s h p) 0)) g * y3 V c j (rowOf3 s h p) else 0

def cpart3 (s : ℕ) : EReal :=
  if h : s < 50 then ∑ p : Fin 2000, Cert.GcnForms.oh (arr3_b V c (ix2 (rowOf3 s h p) 0)) g * 1 else 0

theorem pool_pay7_blocks (xs0 : Vec Ideal S256x256 .f32) :
    k3_pay7 (F := Ideal) (iblk3 V c 2 t) (iblk3 V c 0 t) (iblk3 V c 1 t) (iblk3 V c 3 t) (iblk3 V c 4 t) (iblk3 V c 5 t) xs0 (ix2 g j)
      = xs0 (ix2 g j) + part3 V c g j t.val := by
  rw [pool_pay7_apply, part3, dif_pos (lt50_3 t)]
  refine congrArg (xs0 (ix2 g j) + ·) (Finset.sum_congr rfl fun p _ => ?_)
  rw [y3, iblk3_5_apply, iblk3_2_apply, iblk3_0_apply, iblk3_1_apply, iblk3_3_apply, iblk3_4_apply]

theorem pool_pay1_blocks (xs1 : Vec Ideal S256x1 .f32) :
    k3_pay1 (F := Ideal) (k3_pay5 (iblk3 V c 5 t)) k3_pay6 xs1 (ix2 g 0) = xs1 (ix2 g 0) + cpart3 V c g t.val := by
  rw [pool_pay1_apply, cpart3, dif_pos (lt50_3 t)]
  refine congrArg (xs1 (ix2 g 0) + ·) (Finset.sum_congr rfl fun p _ => ?_)
  rw [iblk3_5_apply]

-- After point `n` the accumulators hold the contributions of blocks `0 … n`: the first point starts from zero, each later one adds its block.
theorem acc3 : ∀ (n : ℕ) (t : Fin cfg3.N), t.val = n →
    (outsAt3 V c t.val t.isLt).2.1 (ix2 g j) = ∑ s ∈ Finset.range (n + 1), part3 V c g j s
      ∧ (outsAt3 V c t.val t.isLt).2.2 (ix2 g 0) = ∑ s ∈ Finset.range (n + 1), cpart3 V c g s := by
  intro n
  induction n with
  | zero =>
    intro t ht
    rw [outsAt3_sums_A V c t (by rw [ht]) (by rw [ht]; decide), outsAt3_counts_A V c t (by rw [ht]) (by rw [ht]; decide),
      Finset.sum_range_one, Finset.sum_range_one, pool_pay7_blocks, pool_pay1_blocks, pool_pay3_apply, pool_pay4_apply, zero_add, zero_add, ht]
    exact ⟨rfl, rfl⟩
  | succ n ih =>
    intro t ht
    have hN := lt50_3 t
    obtain ⟨ihs, ihc⟩ := ih (pred3 t) (by show t.val - 1 = n; omega)
    rw [outsAt3_sums_pos V c t (by omega), outsAt3_counts_pos V c t (by omega), pool_pay7_blocks, pool_pay1_blocks, ihs, ihc,
      Finset.sum_range_succ _ (n + 1), Finset.sum_range_succ _ (n + 1), ht]
    exact ⟨rfl, rfl⟩

-- A sum over the 100000 rows, block by block.
theorem sum_rows3 {M : Type*} [AddCommMonoid M] (f : Fin 100000 → M) :
    ∑ t ∈ Finset.range 50, (if h : t < 50 then ∑ p : Fin 2000, f (rowOf3 t h p) else 0) = ∑ i, f i := by
  rw [Finset.sum_range, ← Equiv.sum_comp (finProdFinEquiv (m := 50) (n := 2000)) f, Fintype.sum_prod_type]
  refine Finset.sum_congr rfl fun t _ => (dif_pos t.isLt).trans (Finset.sum_congr rfl fun p _ => congrArg f (Fin.ext ?_))
  show 2000 * t.val + p.val = p.val + 2000 * t.val
  omega

def G3 : S256x256.Idx → EReal := fun i =>
  Ideal.div (∑ s ∈ Finset.range 50, part3 V c (i 0) (i 1) s) (max (∑ s ∈ Finset.range 50, cpart3 V c (i 0) s) Cert.GcnForms.one)

theorem out_last3 (h1 : t.val % 50 = 49) : (outsAt3 V c t.val t.isLt).1 = G3 V c := by
  have hN := lt50_3 t
  funext i
  obtain ⟨g, j, rfl⟩ : ∃ (g j : Fin 256), i = ix2 g j := ⟨i 0, i 1, eq_ix2 i⟩
  obtain ⟨es, ec⟩ := acc3 V c g j 49 t (by omega)
  rw [outsAt3_out_C V c t (by omega) h1, pool_pay2_apply, es, ec]
  rfl

theorem idx3_6 : ∀ t : Fin grid3.N, win3_6.index t 0 = 0 ∧ win3_6.index t 1 = 0 := by decide +kernel

theorem flushed3_eq (hf : (cfg3.win 6).flush t = true) :
    (dat3 V c).flushed 6 t = ((cfg3.win 6).blk t).view.read (Elt Ideal) (G3 V c) := by
  have h1 : t.val % 50 = 49 := (flush3_6 t).mp hf
  show (cfg3.win 6).cut (grid3.coords t) ((dat3 V c).after 6 t) = _
  rw [after3_6, out_last3 V c t h1]
  have hz' : (fun a => win3_6.index t a * main_v79.ty.shape.size a) = fun _ => 0 := funext fun a => by
    match a with
    | ⟨0, _⟩ => show win3_6.index t 0 * 256 = 0; rw [(idx3_6 t).1]
    | ⟨1, _⟩ => show win3_6.index t 1 * 256 = 0; rw [(idx3_6 t).2]
  exact (Memref.read_access_unit_zero (Elt Ideal) main_v79 hz' (fun a => by rw [congrFun hz' a]; simp) (G3 V c)).symm

def t49_3 : Fin cfg3.N := ⟨49, by rw [show cfg3.N = 50 from N_3]; decide⟩

theorem arrAt3_eq : (dat3 V c).arrAt 6 cfg3.N = G3 V c :=
  (dat3 V c).arrAt_eq_of_cover 6 (G3 V c) (flushed3_eq V c) fun i =>
    ⟨t49_3, (flush3_6 t49_3).mpr rfl, by
      show i ∈ ((View.whole main_v79).slice (win3_6.rect t49_3)).set
      rw [View.set_slice_whole, Rect.mem_set_unit]
      intro a
      have h0 : (i 0 : Nat) < 256 := (i 0).isLt
      have h1 : (i 1 : Nat) < 256 := (i 1).isLt
      match a with
      | ⟨0, _⟩ => show win3_6.index t49_3 0 * win3_6.size 0 ≤ (i 0 : Nat) ∧ (i 0 : Nat) < win3_6.index t49_3 0 * win3_6.size 0 + win3_6.xsize (grid3.coords t49_3) 0
                  rw [show win3_6.index t49_3 0 * win3_6.size 0 = 0 from by decide +kernel, show win3_6.xsize (grid3.coords t49_3) 0 = 256 from by decide +kernel]; omega
      | ⟨1, _⟩ => show win3_6.index t49_3 1 * win3_6.size 1 ≤ (i 1 : Nat) ∧ (i 1 : Nat) < win3_6.index t49_3 1 * win3_6.size 1 + win3_6.xsize (grid3.coords t49_3) 1
                  rw [show win3_6.index t49_3 1 * win3_6.size 1 = 0 from by decide +kernel, show win3_6.xsize (grid3.coords t49_3) 1 = 256 from by decide +kernel]; omega⟩

end Points

theorem final3 (c : Dev nD) (g : Fin 256) (j : Fin 256) :
    (dat3 (F := Ideal) V c).arrAt 6 cfg3.N (ix2 g j)
      = Ideal.div (∑ i : Fin 100000, Cert.GcnForms.oh (arr3_b V c (ix2 i 0)) g
            * ((arr3_d V c (ix2 i 0) * (arr3_s V c (ix2 i j) + arr3_h V c (ix2 i j))) * arr3_sc V c (ix2 0 j) + arr3_bi V c (ix2 0 j)))
          (max (∑ i : Fin 100000, Cert.GcnForms.oh (arr3_b V c (ix2 i 0)) g * 1) Cert.GcnForms.one) := by
  rw [arrAt3_eq]
  show Ideal.div (∑ s ∈ Finset.range 50, part3 V c g j s) (max (∑ s ∈ Finset.range 50, cpart3 V c g s) Cert.GcnForms.one) = _
  unfold part3 cpart3
  rw [sum_rows3 fun i => Cert.GcnForms.oh (arr3_b V c (ix2 i 0)) g * y3 V c j i, sum_rows3 fun i => Cert.GcnForms.oh (arr3_b V c (ix2 i 0)) g * 1]
  rfl

end Value3

end Cert.KernelIdeal.Hand

end
-- ==== Proof.Ref.RefOps.lean ====
import proofs.«405801_j48610439856177_2_alg».proof.Proof.Gen.ReferenceIdeal
import proofs.«405801_j48610439856177_2_alg».proof.Proof.Spec.Forms
import Idealize.ShloMosaic.Lib.Pipeline.Value
import Idealize.ShloMosaic.Lib.ValueIdx
import Idealize.ShloMosaic.Lib.ValueIdxRank1
import Idealize.ShloMosaic.Lib.StableHlo.Predicate
import Idealize.ShloMosaic.PureOps.Ideal.Laws

noncomputable section

namespace Cert.ReferenceIdeal.RefOps

open Cert.ReferenceIdeal Cert.ReferenceIdeal.Gen Idealize.ShloMosaic Idealize.ShloMosaic.ValueIdx Cert.GcnForms

theorem wrap_select (v : BitVec 32) :
    Scalar.select (IntOp.cmpi .slt v 0#32) (IntOp.addi v 100000#32) v = if v.toInt < 0 then v + 100000#32 else v := by
  unfold Scalar.select IntOp.cmpi IntOp.addi
  by_cases h : v.toInt < 0 <;> simp [BitVec.slt, h]

theorem clamp_eq_grow (v : BitVec 32)
    (h : min (if v.toInt < 0 then v + 100000#32 else v).toInt.toNat (100000 - 1) < 100000) :
    (⟨min (if v.toInt < 0 then v + 100000#32 else v).toInt.toNat (100000 - 1), h⟩ : Fin 100000) = grow v := by
  apply Fin.ext
  unfold grow
  simp only
  omega

theorem ofFin_eq {n : Nat} (k : Fin n) : Shape.Idx.ofFin k = ix1 k :=
  funext fun a => by obtain rfl : a = 0 := Subsingleton.elim _ _; rfl

-- The take of a flat array at a column of words is the library's, at `ix1` indices.
theorem gather1_apply {α : Type} (x : S100000.Idx → α) (idx : IVec S420000x1 32) (q : Fin 420000) :
    Host.gather gather_S100000_S420000x1_S420000_n_0_n_n_0_1_1 x idx (ix1 q)
      = x (ix1 (⟨min (idx (ix2 q (0 : Fin 1))).toInt.toNat (100000 - 1), by omega⟩ : Fin 100000)) := by
  have e : StableHlo.Predicate.ixP q = ix2 q (0 : Fin 1) := funext fun | ⟨0, _⟩ => rfl | ⟨1, _⟩ => rfl
  simpa only [ofFin_eq, e] using
    StableHlo.Predicate.gather_take gather_S100000_S420000x1_S420000_n_0_n_n_0_1_1 rfl rfl rfl rfl x idx q (by decide)

-- Row axis: the start word clamped, no batch or offset part; column axis: the offset coordinate alone.
theorem gather2_apply {α : Type} (x : S100000x256.Idx → α) (idx : IVec S420000x1 32) (q : Fin 420000) (j : Fin 256) :
    Host.gather gather_S100000x256_S420000x1_S420000x256_1_0_n_n_0_1_1256 x idx (ix2 q j)
      = x (ix2 (⟨min (idx (ix2 q (0 : Fin 1))).toInt.toNat (100000 - 1), by omega⟩ : Fin 100000) j) := by
  unfold Host.gather
  refine congrArg x (funext fun a => Fin.ext ?_)
  show GatherDims.start _ _ idx a + GatherDims.batchCoord _ (ix2 q j) a + GatherDims.offCoord _ (ix2 q j) a = _
  rw [GatherDims.batchCoord_eq_zero _ _ _ List.not_mem_nil]
  unfold GatherDims.start GatherDims.offCoord
  match a with
  | ⟨0, _⟩ =>
    rw [dif_pos (by decide +revert), dif_neg (by decide +revert)]
    exact congrArg (fun k : S420000x1.Idx => min (idx k).toInt.toNat (100000 - 1)) (funext fun | ⟨0, _⟩ => rfl | ⟨1, _⟩ => rfl)
  | ⟨1, _⟩ =>
    rw [dif_neg (by decide +revert), dif_pos (by decide +revert)]
    exact Nat.zero_add _

-- An update lands on `i` exactly when start plus window coordinate is `i`'s coordinate on every axis.
theorem resultIdx?_eq_some {s si u : Shape} (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    exact ⟨fun e a => by rw [← e]; exact (Int.toNat_of_nonneg (h a).1).symm,
      fun e => funext fun a => Fin.ext (by show (_ : ℤ).toNat = _; rw [e a]; exact Int.toNat_natCast _)⟩
  · next h =>
    exact ⟨nofun, fun e => absurd (fun a => by rw [e a]; exact ⟨Int.natCast_nonneg _, Int.ofNat_lt.mpr (i a).isLt⟩) h⟩

abbrev sc1 (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

abbrev sc2 (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section Scatter

variable {N M C : Nat} (wf1 : ScatterDims.WF ⟨1, ![N]⟩ ⟨2, ![M, 1]⟩ ⟨1, ![M]⟩ [] [0] [0] 1)
  (wf : ScatterDims.WF ⟨2, ![N, C]⟩ ⟨2, ![M, 1]⟩ ⟨2, ![M, C]⟩ [1] [0] [0] 1) (idx : IVec ⟨2, ![M, 1]⟩ 32)

theorem sc1_resultIdx (q : Fin M) (i : Fin N) :
    (sc1 N M wf1).resultIdx? (ix1 q) idx = some (ix1 i) ↔ (idx (ix2 q (0 : Fin 1))).toInt = (i.val : ℤ) := by
  have h0 : (sc1 N M wf1).start (ix1 q) idx 0 + ((sc1 N M wf1).window (ix1 q) 0 : ℤ) = (idx (ix2 q (0 : Fin 1))).toInt := by
    unfold ScatterDims.start ScatterDims.window
    rw [dif_pos (List.mem_singleton.mpr rfl), dif_neg (by simp [Shape.kept]), Nat.cast_zero, add_zero]
    exact congrArg (fun k : (⟨2, ![M, 1]⟩ : Shape).Idx => (idx k).toInt) (funext fun | ⟨0, _⟩ => rfl | ⟨1, _⟩ => rfl)
  rw [resultIdx?_eq_some, ← h0]
  exact ⟨fun h => h 0, fun h a => by obtain rfl : a = 0 := Subsingleton.elim _ _; exact h⟩

theorem sc2_resultIdx (q : Fin M) (j' : Fin C) (i : Fin N) (j : Fin C) :
    (sc2 N M C wf).resultIdx? (ix2 q j') idx = some (ix2 i j)
      ↔ (idx (ix2 q (0 : Fin 1))).toInt = (i.val : ℤ) ∧ j' = j := by
  have h0 : (sc2 N M C wf).start (ix2 q j') idx 0 + ((sc2 N M C wf).window (ix2 q j') 0 : ℤ) = (idx (ix2 q (0 : Fin 1))).toInt := by
    unfold ScatterDims.start ScatterDims.window
    rw [dif_pos (List.mem_singleton.mpr rfl), dif_neg (by simp [Shape.kept]), Nat.cast_zero, add_zero]
    exact congrArg (fun k : (⟨2, ![M, 1]⟩ : Shape).Idx => (idx k).toInt) (funext fun | ⟨0, _⟩ => rfl | ⟨1, _⟩ => rfl)
  have h1 : (sc2 N M C wf).start (ix2 q j') idx 1 + ((sc2 N M C wf).window (ix2 q j') 1 : ℤ) = (j'.val : ℤ) := by
    unfold ScatterDims.start ScatterDims.window
    rw [dif_neg (by simp), dif_pos (by simp [Shape.kept]), zero_add]
    rfl
  rw [resultIdx?_eq_some, ← h0]
  exact ⟨fun h => ⟨h 0, Fin.ext (Int.ofNat_inj.mp (h1.symm.trans (h 1)))⟩,
    fun ⟨e, ej⟩ a => match a with | ⟨0, _⟩ => e | ⟨1, _⟩ => ej ▸ h1⟩

end Scatter

theorem scatterAdd1_apply {N M : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ 32) (upd : (⟨1, ![M]⟩ : Shape).Idx → EReal) (i : Fin N) :
    Ideal.hostScatterAdd (sc1 N M wf) x idx upd (ix1 i)
      = x (ix1 i) + ∑ q ∈ Finset.univ.filter (fun q : Fin M => (idx (ix2 q (0 : Fin 1))).toInt = (i.val : ℤ)), upd (ix1 q) := by
  unfold Ideal.hostScatterAdd
  congr 1
  rw [Finset.sum_filter, ← Equiv.sum_comp (idxEquiv1 (n := M)).symm, Finset.sum_filter]
  exact Finset.sum_congr rfl fun q _ => if_congr (sc1_resultIdx wf idx q i) rfl rfl

theorem scatterAdd2_apply {N M C : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ 32) (upd : (⟨2, ![M, C]⟩ : Shape).Idx → EReal)
    (i : Fin N) (j : Fin C) :
    Ideal.hostScatterAdd (sc2 N M C wf) x idx upd (ix2 i j)
      = x (ix2 i j) + ∑ q ∈ Finset.univ.filter (fun q : Fin M => (idx (ix2 q (0 : Fin 1))).toInt = (i.val : ℤ)), upd (ix2 q j) := by
  unfold Ideal.hostScatterAdd
  congr 1
  rw [Finset.sum_filter, sum_idx2, Finset.sum_filter]
  refine Finset.sum_congr rfl fun q _ => ?_
  simp only [sc2_resultIdx, ite_and, Finset.sum_ite_eq', Finset.mem_univ, if_true]
  split <;> simp

theorem cat_apply (a : S320000.Idx → BitVec 32) (q : Fin 420000) :
    concatenate S420000 0 [⟨S320000, a⟩, ⟨S100000, iotaInDim S100000 32 0⟩] concatenates_S320000_S100000_S420000_d0 (ix1 q)
      = catW (fun e : Fin NE => a (ix1 e)) q := by
  unfold catW
  by_cases h : q.val < 320000
  · rw [dif_pos (show q.val < NE from h)]
    exact concatenate_pair_apply_left (0 : Fin 1) a (iotaInDim S100000 32 0) concatenates_S320000_S100000_S420000_d0
      (ix1 q) rfl (ix1 (⟨q.val, h⟩ : Fin 320000)) (fun b => by obtain rfl : b = 0 := Subsingleton.elim _ _; rfl)
  · rw [dif_neg (show ¬ q.val < NE from h)]
    have hq := q.isLt
    exact concatenate_pair_apply_right (0 : Fin 1) a (iotaInDim S100000 32 0) concatenates_S320000_S100000_S420000_d0
      (ix1 q) rfl rfl (ix1 (⟨q.val - 320000, by omega⟩ : Fin 100000))
      (fun b hb => absurd (Subsingleton.elim _ _) hb) (by show q.val - 320000 + 320000 = q.val; omega)

end Cert.ReferenceIdeal.RefOps

end
-- ==== Proof.KI.KStretch.lean ====
import proofs.«405801_j48610439856177_2_alg».proof.Proof.Gen.KernelIdeal.Launch
import proofs.«405801_j48610439856177_2_alg».proof.Proof.Spec.Forms
import proofs.«405801_j48610439856177_2_alg».proof.Proof.Ref.RefOps
import Idealize.ShloMosaic.Lib.StableHlo.Run
import Idealize.ShloMosaic.Lib.StableHlo.Predicate
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.GcnForms (lands grow dinvOf kDeg kDinv kScale kBias kScat)
open scoped BigOperators

variable (W : Valuation τ sig (Elt Ideal))

abbrev vec (x : S256.Idx → EReal) (j : Fin 256) : EReal := x (ix1 j)

theorem col_apply {α : Type} {M : Nat} (h : (⟨1, ![M]⟩ : Shape).BroadcastsInDim ⟨2, ![M, 1]⟩ ![0])
    (x : (⟨1, ![M]⟩ : Shape).Idx → α) (q : Fin M) (u : Fin 1) :
    broadcastInDim (⟨2, ![M, 1]⟩ : Shape) ![0] h x (ix2 q u) = x (ix1 q) := by
  refine broadcastInDim_apply _ _ _ _ (ix1 q) ?_
  intro a
  obtain rfl : a = 0 := Subsingleton.elim _ _
  show q.val = if M = 1 then 0 else q.val
  split
  · next h1 => have := q.isLt; omega
  · rfl

abbrev gd2 (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

theorem gd2_row {N M C : Nat} (wf : GatherDims.WF ⟨2, ![N, C]⟩ ⟨2, ![M, 1]⟩ ⟨2, ![M, C]⟩ [1] [0] [] [0] [] 1 ![1, C])
    (idx : IVec ⟨2, ![M, 1]⟩ 32) (q : Fin M) (j : Fin C) :
    ((gd2 N M C wf).operandIdx (ix2 q j) idx (0 : Fin 2)).val = min (idx (ix2 q (0 : Fin 1))).toInt.toNat (N - 1) := by
  show (gd2 N M C wf).start (ix2 q j) idx (0 : Fin 2) + (gd2 N M C wf).batchCoord (ix2 q j) (0 : Fin 2)
      + (gd2 N M C wf).offCoord (ix2 q j) (0 : Fin 2) = _
  have hb : (gd2 N M C wf).batchCoord (ix2 q j) (0 : Fin 2) = 0 := GatherDims.batchCoord_eq_zero _ _ _ List.not_mem_nil
  have ho : (gd2 N M C wf).offCoord (ix2 q j) (0 : Fin 2) = 0 :=
    GatherDims.offCoord_eq_zero _ _ _ (fun h => ((GatherDims.mem_sKept _ _).mp h).1 (List.mem_singleton.mpr rfl))
  have hmem : (0 : Fin 2) ∈ (gd2 N M C wf).startIndexMap := List.mem_singleton.mpr rfl
  have hs : (gd2 N M C wf).start (ix2 q j) idx (0 : Fin 2) = min (idx (ix2 q (0 : Fin 1))).toInt.toNat (N - 1) := by
    unfold GatherDims.start
    rw [dif_pos hmem]
    have hsi : (gd2 N M C wf).siIdx (ix2 q j) ⟨List.idxOf (0 : Fin 2) (gd2 N M C wf).startIndexMap,
        List.idxOf_lt_length_iff.2 hmem⟩ = ix2 q (0 : Fin 1) := by
      funext b; refine Fin.ext ?_
      match b with
      | ⟨0, _⟩ => rfl
      | ⟨1, _⟩ => rfl
    rw [hsi]
    rfl
  rw [hb, ho, hs]; omega

theorem gd2_col {N M C : Nat} (wf : GatherDims.WF ⟨2, ![N, C]⟩ ⟨2, ![M, 1]⟩ ⟨2, ![M, C]⟩ [1] [0] [] [0] [] 1 ![1, C])
    (idx : IVec ⟨2, ![M, 1]⟩ 32) (q : Fin M) (j : Fin C) :
    ((gd2 N M C wf).operandIdx (ix2 q j) idx (1 : Fin 2)).val = j.val := by
  show (gd2 N M C wf).start (ix2 q j) idx (1 : Fin 2) + (gd2 N M C wf).batchCoord (ix2 q j) (1 : Fin 2)
      + (gd2 N M C wf).offCoord (ix2 q j) (1 : Fin 2) = _
  have hb : (gd2 N M C wf).batchCoord (ix2 q j) (1 : Fin 2) = 0 := GatherDims.batchCoord_eq_zero _ _ _ List.not_mem_nil
  have hs : (gd2 N M C wf).start (ix2 q j) idx (1 : Fin 2) = 0 := by
    unfold GatherDims.start
    rw [dif_neg (show ¬ (1 : Fin 2) ∈ (gd2 N M C wf).startIndexMap by simp)]
  have ho : (gd2 N M C wf).offCoord (ix2 q j) (1 : Fin 2) = j.val := by
    unfold GatherDims.offCoord
    rw [dif_pos (show (1 : Fin 2) ∈ (gd2 N M C wf).sKept by simp [Shape.kept])]
    rfl
  rw [hb, hs, ho]; omega

theorem gd2_apply {α : Type} {N M C : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ 32) (q : Fin M) (j : Fin C) :
    Host.gather (gd2 N M C wf) x idx (ix2 q j)
      = x (ix2 (⟨min (idx (ix2 q (0 : Fin 1))).toInt.toNat (N - 1), by omega⟩ : Fin N) j) := by
  unfold Host.gather
  congr 1
  funext a
  refine Fin.ext ?_
  match a with
  | ⟨0, _⟩ => exact gd2_row wf idx q j
  | ⟨1, _⟩ => exact gd2_col wf idx q j

open Cert.ReferenceIdeal.RefOps (wrap_select clamp_eq_grow sc1 sc2 scatterAdd1_apply scatterAdd2_apply)

theorem bzero_apply {s : Shape} (h : S_.BroadcastsInDim s (![] : Fin 0 → Fin s.rank)) (i : s.Idx) :
    (broadcastInDim s ![] h (constant (F := Ideal) S_ .f32 0x00000000#32) : FVec Ideal s .f32) i = (0 : EReal) :=
  Ideal.ofBits_zero_f32

theorem wrapped_apply (src : S320000.Idx → BitVec 32) (q : Fin 320000) (u : Fin 1) :
    broadcastInDim S320000x1 ![0] bcast_S320000_S320000x1_0
        (select (cmpi .slt src (broadcastInDim S320000 ![] bcast_S_S320000 (constantI S_ 32 0#32)))
          (addi src (broadcastInDim S320000 ![] bcast_S_S320000 (constantI S_ 32 100000#32))) src) (ix2 q u)
      = if (src (ix1 q)).toInt < 0 then src (ix1 q) + 100000#32 else src (ix1 q) := by
  rw [col_apply]
  exact wrap_select (src (ix1 q))

theorem edge_sum_term (H : S100000x256.Idx → EReal) (src dst : S320000.Idx → BitVec 32) (i : Fin 100000) (j : Fin 256) :
    (Host.scatterAdd (F := Ideal) scatter_S100000x256_S320000x1_S320000x256_1_0_0_1
      (broadcastInDim S100000x256 ![] bcast_S_S100000x256 (constant (F := Ideal) S_ .f32 0x00000000#32))
      (broadcastInDim S320000x1 ![0] bcast_S320000_S320000x1_0 dst)
      (Host.gather gather_S100000x256_S320000x1_S320000x256_1_0_n_n_0_1_1256 H
        (broadcastInDim S320000x1 ![0] bcast_S320000_S320000x1_0
          (select (cmpi .slt src (broadcastInDim S320000 ![] bcast_S_S320000 (constantI S_ 32 0#32)))
            (addi src (broadcastInDim S320000 ![] bcast_S_S320000 (constantI S_ 32 100000#32))) src))) : S100000x256.Idx → EReal)
      (ix2 i j)
      = kScat (fun e => src (ix1 e)) (fun e => dst (ix1 e)) (fun r q => H (ix2 r q)) i j := by
  unfold kScat
  refine (scatterAdd2_apply (N := 100000) (M := 320000) (C := 256) scatter_S100000x256_S320000x1_S320000x256_1_0_0_1_wf _ _ _ i j).trans ?_
  rw [bzero_apply, zero_add]
  refine Finset.sum_congr (Finset.filter_congr fun q _ => ?_) fun q _ => ?_
  · rw [col_apply]; rfl
  · refine (gd2_apply (N := 100000) (M := 320000) (C := 256) (by decide)
      gather_S100000x256_S320000x1_S320000x256_1_0_n_n_0_1_1256_wf H _ q j).trans ?_
    refine congrArg (fun r : Fin 100000 => H (ix2 r j)) ?_
    have hw := wrapped_apply src q (0 : Fin 1)
    refine Fin.ext ?_
    show min (_ : BitVec 32).toInt.toNat (100000 - 1) = (grow (src (ix1 q))).val
    rw [hw]
    exact congrArg Fin.val (clamp_eq_grow (src (ix1 q)) (by omega))

theorem row_apply (E : S2x320000.Idx → BitVec 32) (r : Fin 2) (h : S2x320000.Slices ![r.val, 0] S1x320000) (e : Fin 320000) :
    shapeCast S320000 (extractStridedSlice S1x320000 ![r.val, 0] E h) shapeCasts_S1x320000_S320000 (ix1 e) = E (ix2 r e) := by
  rw [shapeCast_1a_a_apply]
  exact slice2_axis0_apply r.val _ _ _ _ _ (by simp)

theorem deg_term (dst : S320000.Idx → BitVec 32) (i : Fin 100000) :
    (addf (F := Ideal)
      (Host.scatterAdd (F := Ideal) scatter_S100000_S320000x1_S320000_n_0_0_1
        (broadcastInDim S100000 ![] bcast_S_S100000 (constant (F := Ideal) S_ .f32 0x00000000#32))
        (broadcastInDim S320000x1 ![0] bcast_S320000_S320000x1_0 dst)
        (broadcastInDim S320000 ![] bcast_S_S320000 (constant (F := Ideal) S_ .f32 0x3F800000#32)))
      (broadcastInDim S100000 ![] bcast_S_S100000 (constant (F := Ideal) S_ .f32 0x3F800000#32)) : S100000.Idx → EReal) (ix1 i)
      = kDeg (fun e : Fin 320000 => dst (ix1 e)) i := by
  unfold kDeg
  refine congrArg₂ (· + ·) ?_ rfl
  refine (scatterAdd1_apply (N := 100000) (M := 320000) scatter_S100000_S320000x1_S320000_n_0_0_1_wf _ _ _ i).trans ?_
  rw [bzero_apply, zero_add]
  refine Finset.sum_congr (Finset.filter_congr fun q _ => ?_) fun q _ => rfl
  rw [col_apply]; rfl

theorem dinv_term (D : FVec Ideal S100000 .f32) (i : Fin 100000) :
    Scalar.select
        ((cmpf (F := Ideal) .ogt D (broadcastInDim S100000 ![] bcast_S_S100000 (constant (F := Ideal) S_ .f32 0x00000000#32))) (ix1 i))
        ((Host.rsqrt (F := Ideal) D) (ix1 i)) ((constant (F := Ideal) S_ .f32 0x00000000#32) ix0)
      = dinvOf (D (ix1 i)) := by
  show Scalar.select (Ideal.cmp .ogt (D (ix1 i)) (Ideal.ofBits .f32 0x00000000#32)) (Ideal.rsqrt (D (ix1 i))) (Ideal.ofBits .f32 0x00000000#32) = _
  rw [Ideal.ofBits_zero_f32]
  unfold dinvOf Ideal.cmp Scalar.select
  by_cases h : 0 < D (ix1 i)
  · simp [h]
  · simp [h]

theorem where_apply (W' : Valuation τ sig (Elt Ideal)) (i : Fin 100000) :
    (((StableHlo.after (hostOps0_1 (F := Ideal)) W') (Proc.devRef .tc main_v13) : S100000.Idx → EReal)) (ix1 i)
      = Scalar.select ((W' (Proc.devRef .tc main_v11) : S100000.Idx → BitVec 1) (ix1 i)) ((W' (Proc.devRef .tc main_v12) : S100000.Idx → EReal) (ix1 i))
          ((W' (Proc.devRef .tc main_cst_3) : S_.Idx → EReal) ix0) := by
  show StableHlo.after hostOps0_1 W' (Proc.devRef .tc main_v13) (ix1 i) = _
  after_results_simp
  show Scalar.select (W' (Proc.devRef .tc main_v11) (ix1 i)) (W' (Proc.devRef .tc main_v12) (ix1 i))
      (broadcastInDim S100000 ![] bcast_S_S100000 (W' (Proc.devRef .tc main_cst_3)) (ix1 i)) = _
  refine congrArg (Scalar.select _ _) ?_
  exact broadcastInDim_apply _ _ _ (ix1 i) ix0 (fun a => a.elim0)

theorem s0_v1 (e : Fin 320000) :
    (((StableHlo.after (hostOps0 (F := Ideal)) W) (Proc.devRef .tc main_v1) : S320000.Idx → BitVec 32)) (ix1 e) = ((W (Proc.devRef .tc main_arg1) : S2x320000.Idx → BitVec 32)) (ix2 (0 : Fin 2) e) := by
  show StableHlo.after hostOps0 W (Proc.devRef .tc main_v1) (ix1 e) = _
  after_results_simp
  exact row_apply _ (0 : Fin 2) slices_S2x320000_S1x320000_0_0 e

theorem s0_v3 (e : Fin 320000) :
    (((StableHlo.after (hostOps0 (F := Ideal)) W) (Proc.devRef .tc main_v3) : S320000.Idx → BitVec 32)) (ix1 e) = ((W (Proc.devRef .tc main_arg1) : S2x320000.Idx → BitVec 32)) (ix2 (1 : Fin 2) e) := by
  show StableHlo.after hostOps0 W (Proc.devRef .tc main_v3) (ix1 e) = _
  after_results_simp
  exact row_apply _ (1 : Fin 2) slices_S2x320000_S1x320000_1_0 e

theorem s01_v13 (i : Fin 100000) :
    (((StableHlo.after (hostOps0_1 (F := Ideal)) (StableHlo.after (hostOps0 (F := Ideal)) W)) (Proc.devRef .tc main_v13) : S100000.Idx → EReal)) (ix1 i) = kDinv (fun e : Fin 320000 => ((W (Proc.devRef .tc main_arg1) : S2x320000.Idx → BitVec 32)) (ix2 (1 : Fin 2) e)) i := by
  refine (where_apply (StableHlo.after (hostOps0 (F := Ideal)) W) i).trans ?_
  show Scalar.select (StableHlo.after hostOps0 W (Proc.devRef .tc main_v11) (ix1 i))
      (StableHlo.after hostOps0 W (Proc.devRef .tc main_v12) (ix1 i)) (StableHlo.after hostOps0 W (Proc.devRef .tc main_cst_3) ix0) = _
  after_results_simp
  refine (dinv_term _ i).trans ?_
  show dinvOf _ = dinvOf _
  refine congrArg dinvOf ?_
  refine (deg_term _ i).trans ?_
  refine congrArg (fun d => kDeg d i) (funext fun e => ?_)
  exact row_apply _ (1 : Fin 2) slices_S2x320000_S1x320000_1_0 e

theorem s2_v14 (i : Fin 100000) :
    (((StableHlo.after (hostOps0_2 (F := Ideal)) W) (Proc.devRef .tc main_v14) : S100000x1.Idx → EReal)) (ix2 i (0 : Fin 1)) = ((W (Proc.devRef .tc main_v13) : S100000.Idx → EReal)) (ix1 i) := by
  show StableHlo.after hostOps0_2 W (Proc.devRef .tc main_v14) (ix2 i (0 : Fin 1)) = _
  after_results_simp
  show shapeCast S100000x1 (W (Proc.devRef .tc main_v13)) shapeCasts_S100000_S100000x1 (ix2 i (0 : Fin 1)) = _
  refine shapeCast_apply _ _ _ (ix1 i) ?_
  rw [Shape.rowMajor_val_two, Shape.rowMajor_val_one]
  show i.val = i.val * 1 + 0
  omega

theorem s2_v23 (j : Fin 256) :
    StableHlo.after hostOps0_2 W (Proc.devRef .tc main_v23) (ix2 (0 : Fin 1) j) = kScale (vec (W (Proc.devRef .tc main_arg10))) (vec (W (Proc.devRef .tc main_arg13))) j := by
  after_results_simp
  exact shapeCast_a_1a_apply _ shapeCasts_S256_S1x256 (0 : Fin 1) j

theorem s2_v24 (j : Fin 256) :
    StableHlo.after hostOps0_2 W (Proc.devRef .tc main_v24) (ix2 (0 : Fin 1) j)
      = kBias (vec (W (Proc.devRef .tc main_arg4))) (vec (W (Proc.devRef .tc main_arg10))) (vec (W (Proc.devRef .tc main_arg11))) (vec (W (Proc.devRef .tc main_arg12))) (vec (W (Proc.devRef .tc main_arg13))) j := by
  after_results_simp
  exact shapeCast_a_1a_apply _ shapeCasts_S256_S1x256 (0 : Fin 1) j

theorem s2_v33 (j : Fin 256) :
    StableHlo.after hostOps0_2 W (Proc.devRef .tc main_v33) (ix2 (0 : Fin 1) j) = kScale (vec (W (Proc.devRef .tc main_arg14))) (vec (W (Proc.devRef .tc main_arg17))) j := by
  after_results_simp
  exact shapeCast_a_1a_apply _ shapeCasts_S256_S1x256 (0 : Fin 1) j

theorem s2_v34 (j : Fin 256) :
    StableHlo.after hostOps0_2 W (Proc.devRef .tc main_v34) (ix2 (0 : Fin 1) j)
      = kBias (vec (W (Proc.devRef .tc main_arg6))) (vec (W (Proc.devRef .tc main_arg14))) (vec (W (Proc.devRef .tc main_arg15))) (vec (W (Proc.devRef .tc main_arg16))) (vec (W (Proc.devRef .tc main_arg17))) j := by
  after_results_simp
  exact shapeCast_a_1a_apply _ shapeCasts_S256_S1x256 (0 : Fin 1) j

theorem s2_v43 (j : Fin 256) :
    StableHlo.after hostOps0_2 W (Proc.devRef .tc main_v43) (ix2 (0 : Fin 1) j) = kScale (vec (W (Proc.devRef .tc main_arg18))) (vec (W (Proc.devRef .tc main_arg21))) j := by
  after_results_simp
  exact shapeCast_a_1a_apply _ shapeCasts_S256_S1x256 (0 : Fin 1) j

theorem s2_v44 (j : Fin 256) :
    StableHlo.after hostOps0_2 W (Proc.devRef .tc main_v44) (ix2 (0 : Fin 1) j)
      = kBias (vec (W (Proc.devRef .tc main_arg8))) (vec (W (Proc.devRef .tc main_arg18))) (vec (W (Proc.devRef .tc main_arg19))) (vec (W (Proc.devRef .tc main_arg20))) (vec (W (Proc.devRef .tc main_arg21))) j := by
  after_results_simp
  exact shapeCast_a_1a_apply _ shapeCasts_S256_S1x256 (0 : Fin 1) j

theorem s1_v55 (i : Fin 100000) (j : Fin 256) :
    StableHlo.after hostOps1 W (Proc.devRef .tc main_v55) (ix2 i j)
      = kScat (fun e => W (Proc.devRef .tc main_v1) (ix1 e)) (fun e => W (Proc.devRef .tc main_v3) (ix1 e))
          (fun r q => W (Proc.devRef .tc main_v45) (ix2 r q)) i j := by
  after_results_simp
  exact edge_sum_term _ _ _ i j

theorem s2_v66 (i : Fin 100000) (j : Fin 256) :
    StableHlo.after hostOps2 W (Proc.devRef .tc main_v66) (ix2 i j)
      = kScat (fun e => W (Proc.devRef .tc main_v1) (ix1 e)) (fun e => W (Proc.devRef .tc main_v3) (ix1 e))
          (fun r q => W (Proc.devRef .tc main_v56) (ix2 r q)) i j := by
  after_results_simp
  exact edge_sum_term _ _ _ i j

theorem s3_v77 (i : Fin 100000) (j : Fin 256) :
    StableHlo.after hostOps3 W (Proc.devRef .tc main_v77) (ix2 i j)
      = kScat (fun e => W (Proc.devRef .tc main_v1) (ix1 e)) (fun e => W (Proc.devRef .tc main_v3) (ix1 e))
          (fun r q => W (Proc.devRef .tc main_v67) (ix2 r q)) i j := by
  after_results_simp
  exact edge_sum_term _ _ _ i j

theorem s3_v78 (i : Fin 100000) :
    (((StableHlo.after (hostOps3 (F := Ideal)) W) (Proc.devRef .tc main_v78) : S100000x1.Idx → BitVec 32)) (ix2 i (0 : Fin 1)) = ((W (Proc.devRef .tc main_arg2) : S100000.Idx → BitVec 32)) (ix1 i) := by
  show StableHlo.after hostOps3 W (Proc.devRef .tc main_v78) (ix2 i (0 : Fin 1)) = _
  after_results_simp
  show shapeCast S100000x1 (W (Proc.devRef .tc main_arg2)) shapeCasts_S100000_S100000x1 (ix2 i (0 : Fin 1)) = _
  refine shapeCast_apply _ _ _ (ix1 i) ?_
  rw [Shape.rowMajor_val_two, Shape.rowMajor_val_one]
  show i.val = i.val * 1 + 0
  omega

def headK (Y : FVec Ideal S256x256 .f32) (C : FVec Ideal S96x256 .f32) : FVec Ideal S256x32 .f32 :=
  Host.negf (Host.reduce FloatOps.minimumf
    (shapeCast S256x32x3
      (subf
        (addf
          (broadcastInDim S256x96 ![0, 1] bcast_S256x1_S256x96_0_1
            (broadcastInDim S256x1 ![0] bcast_S256_S256x1_0
              (Host.reduceAdd (mulf Y Y) (constant (F := Ideal) S_ .f32 0x00000000#32) reducesTo_S256x256_S256_d1 h_S_)))
          (broadcastInDim S256x96 ![0, 1] bcast_S1x96_S256x96_0_1
            (broadcastInDim S1x96 ![1] bcast_S96_S1x96_1
              (Host.reduceAdd (mulf C C) (constant (F := Ideal) S_ .f32 0x00000000#32) reducesTo_S96x256_S96_d1 h_S_))))
        (Host.dotGeneral dot_S256x256_S256x96_S256x96_1_0_0_1_n_n none
          (mulf (broadcastInDim S256x256 ![] bcast_S_S256x256 (constant (F := Ideal) S_ .f32 0x40000000#32)) Y)
          (transpose S256x96 [1, 0] C transposes_S96x256_S256x96_1_0)))
      shapeCasts_S256x96_S256x32x3)
    (constant (F := Ideal) S_ .f32 0x7F800000#32) reducesTo_S256x32x3_S256x32_d2 h_S_)

theorem s4_v96 :
    ((StableHlo.after (hostOps4 (F := Ideal)) W) (Proc.devRef .tc main_v96) : S256x32.Idx → EReal)
      = headK (W (Proc.devRef .tc main_v79)) (W (Proc.devRef .tc main_arg9)) := by
  show StableHlo.after hostOps4 W (Proc.devRef .tc main_v96) = _
  after_results_simp
  rfl

end Cert.KernelIdeal.Hand

end
-- ==== Proof.KI.KHost.lean ====
import proofs.«405801_j48610439856177_2_alg».proof.Proof.KI.KWalk
import proofs.«405801_j48610439856177_2_alg».proof.Proof.KI.Val0
import proofs.«405801_j48610439856177_2_alg».proof.Proof.KI.Val1
import proofs.«405801_j48610439856177_2_alg».proof.Proof.KI.Val2
import proofs.«405801_j48610439856177_2_alg».proof.Proof.KI.Val3
import proofs.«405801_j48610439856177_2_alg».proof.Proof.KI.KStretch
import proofs.«405801_j48610439856177_2_alg».proof.Proof.Spec.Forms
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.GcnForms (kDinv kScale kBias kScat kPre kRelu kNorm kH1 kH2 kH3 kY3 kSum kCnt kEmb)
open scoped BigOperators

section KHost
variable (m : (ℓ : Loc nD τ sig) → Buf (Elt Ideal) ℓ) (ρ : Dev nD → PrngReg)

def xK (c : Dev nD) : Fin 100000 → Fin 256 → EReal := fun i k => (m ((c.tc : Thread nD τ).loc main_arg0) : S100000x256.Idx → EReal) (ix2 i k)
def srcK (c : Dev nD) : Fin 320000 → BitVec 32 := fun e => (m ((c.tc : Thread nD τ).loc main_arg1) : S2x320000.Idx → BitVec 32) (ix2 0 e)
def dstK (c : Dev nD) : Fin 320000 → BitVec 32 := fun e => (m ((c.tc : Thread nD τ).loc main_arg1) : S2x320000.Idx → BitVec 32) (ix2 1 e)
def batK (c : Dev nD) : Fin 100000 → BitVec 32 := fun i => (m ((c.tc : Thread nD τ).loc main_arg2) : S100000.Idx → BitVec 32) (ix1 i)
def W1K (c : Dev nD) : Fin 256 → Fin 256 → EReal := fun k j => (m ((c.tc : Thread nD τ).loc main_arg3) : S256x256.Idx → EReal) (ix2 k j)
def b1K (c : Dev nD) : Fin 256 → EReal := fun j => (m ((c.tc : Thread nD τ).loc main_arg4) : S256.Idx → EReal) (ix1 j)
def W2K (c : Dev nD) : Fin 256 → Fin 256 → EReal := fun k j => (m ((c.tc : Thread nD τ).loc main_arg5) : S256x256.Idx → EReal) (ix2 k j)
def b2K (c : Dev nD) : Fin 256 → EReal := fun j => (m ((c.tc : Thread nD τ).loc main_arg6) : S256.Idx → EReal) (ix1 j)
def W3K (c : Dev nD) : Fin 256 → Fin 256 → EReal := fun k j => (m ((c.tc : Thread nD τ).loc main_arg7) : S256x256.Idx → EReal) (ix2 k j)
def b3K (c : Dev nD) : Fin 256 → EReal := fun j => (m ((c.tc : Thread nD τ).loc main_arg8) : S256.Idx → EReal) (ix1 j)
def g1K (c : Dev nD) : Fin 256 → EReal := fun j => (m ((c.tc : Thread nD τ).loc main_arg10) : S256.Idx → EReal) (ix1 j)
def be1K (c : Dev nD) : Fin 256 → EReal := fun j => (m ((c.tc : Thread nD τ).loc main_arg11) : S256.Idx → EReal) (ix1 j)
def mu1K (c : Dev nD) : Fin 256 → EReal := fun j => (m ((c.tc : Thread nD τ).loc main_arg12) : S256.Idx → EReal) (ix1 j)
def v1K (c : Dev nD) : Fin 256 → EReal := fun j => (m ((c.tc : Thread nD τ).loc main_arg13) : S256.Idx → EReal) (ix1 j)
def g2K (c : Dev nD) : Fin 256 → EReal := fun j => (m ((c.tc : Thread nD τ).loc main_arg14) : S256.Idx → EReal) (ix1 j)
def be2K (c : Dev nD) : Fin 256 → EReal := fun j => (m ((c.tc : Thread nD τ).loc main_arg15) : S256.Idx → EReal) (ix1 j)
def mu2K (c : Dev nD) : Fin 256 → EReal := fun j => (m ((c.tc : Thread nD τ).loc main_arg16) : S256.Idx → EReal) (ix1 j)
def v2K (c : Dev nD) : Fin 256 → EReal := fun j => (m ((c.tc : Thread nD τ).loc main_arg17) : S256.Idx → EReal) (ix1 j)
def g3K (c : Dev nD) : Fin 256 → EReal := fun j => (m ((c.tc : Thread nD τ).loc main_arg18) : S256.Idx → EReal) (ix1 j)
def be3K (c : Dev nD) : Fin 256 → EReal := fun j => (m ((c.tc : Thread nD τ).loc main_arg19) : S256.Idx → EReal) (ix1 j)
def mu3K (c : Dev nD) : Fin 256 → EReal := fun j => (m ((c.tc : Thread nD τ).loc main_arg20) : S256.Idx → EReal) (ix1 j)
def v3K (c : Dev nD) : Fin 256 → EReal := fun j => (m ((c.tc : Thread nD τ).loc main_arg21) : S256.Idx → EReal) (ix1 j)

variable (c : Dev nD)

theorem src_at (e : Fin 320000) :
    (W1 (F := Ideal) m ρ c (Proc.devRef .tc main_v1) : S320000.Idx → BitVec 32) (ix1 e) = srcK m c e := s0_v1 (W0 m ρ c) e
theorem dst_at (e : Fin 320000) :
    (W1 (F := Ideal) m ρ c (Proc.devRef .tc main_v3) : S320000.Idx → BitVec 32) (ix1 e) = dstK m c e := s0_v3 (W0 m ρ c) e

theorem dinv_at (i : Fin 100000) :
    (W3 (F := Ideal) m ρ c (Proc.devRef .tc main_v14) : S100000x1.Idx → EReal) (ix2 i 0) = kDinv (dstK m c) i :=
  (s2_v14 (W2 m ρ c) i).trans (s01_v13 (W0 m ρ c) i)

theorem sc1_at (j : Fin 256) :
    (W3 (F := Ideal) m ρ c (Proc.devRef .tc main_v23) : S1x256.Idx → EReal) (ix2 0 j) = kScale (g1K m c) (v1K m c) j := by
  refine (s2_v23 (W2 m ρ c) j).trans ?_
  rw [at2 m ρ c main_arg10, at2 m ρ c main_arg13]
  rfl
theorem bi1_at (j : Fin 256) :
    (W3 (F := Ideal) m ρ c (Proc.devRef .tc main_v24) : S1x256.Idx → EReal) (ix2 0 j)
      = kBias (b1K m c) (g1K m c) (be1K m c) (mu1K m c) (v1K m c) j := by
  refine (s2_v24 (W2 m ρ c) j).trans ?_
  rw [at2 m ρ c main_arg4, at2 m ρ c main_arg10, at2 m ρ c main_arg11, at2 m ρ c main_arg12, at2 m ρ c main_arg13]
  rfl
theorem sc2_at (j : Fin 256) :
    (W3 (F := Ideal) m ρ c (Proc.devRef .tc main_v33) : S1x256.Idx → EReal) (ix2 0 j) = kScale (g2K m c) (v2K m c) j := by
  refine (s2_v33 (W2 m ρ c) j).trans ?_
  rw [at2 m ρ c main_arg14, at2 m ρ c main_arg17]
  rfl
theorem bi2_at (j : Fin 256) :
    (W3 (F := Ideal) m ρ c (Proc.devRef .tc main_v34) : S1x256.Idx → EReal) (ix2 0 j)
      = kBias (b2K m c) (g2K m c) (be2K m c) (mu2K m c) (v2K m c) j := by
  refine (s2_v34 (W2 m ρ c) j).trans ?_
  rw [at2 m ρ c main_arg6, at2 m ρ c main_arg14, at2 m ρ c main_arg15, at2 m ρ c main_arg16, at2 m ρ c main_arg17]
  rfl
theorem sc3_at (j : Fin 256) :
    (W3 (F := Ideal) m ρ c (Proc.devRef .tc main_v43) : S1x256.Idx → EReal) (ix2 0 j) = kScale (g3K m c) (v3K m c) j := by
  refine (s2_v43 (W2 m ρ c) j).trans ?_
  rw [at2 m ρ c main_arg18, at2 m ρ c main_arg21]
  rfl
theorem bi3_at (j : Fin 256) :
    (W3 (F := Ideal) m ρ c (Proc.devRef .tc main_v44) : S1x256.Idx → EReal) (ix2 0 j)
      = kBias (b3K m c) (g3K m c) (be3K m c) (mu3K m c) (v3K m c) j := by
  refine (s2_v44 (W2 m ρ c) j).trans ?_
  rw [at2 m ρ c main_arg8, at2 m ρ c main_arg18, at2 m ρ c main_arg19, at2 m ρ c main_arg20, at2 m ρ c main_arg21]
  rfl

-- An edge sum read where the edge words still are what the first stretch left, over a state known entry by entry.
theorem scat_of (Wa : Valuation τ sig (Elt Ideal))
    (hs : Wa (Proc.devRef .tc main_v1) = W1 m ρ c (Proc.devRef .tc main_v1)) (hd : Wa (Proc.devRef .tc main_v3) = W1 m ρ c (Proc.devRef .tc main_v3))
    (A : S100000x256.Idx → EReal) (H : Fin 100000 → Fin 256 → EReal) (hH : ∀ r q, A (ix2 r q) = H r q)
    (i : Fin 100000) (j : Fin 256) :
    kScat (fun e => (Wa (Proc.devRef .tc main_v1) : S320000.Idx → BitVec 32) (ix1 e))
        (fun e => (Wa (Proc.devRef .tc main_v3) : S320000.Idx → BitVec 32) (ix1 e)) (fun r q => A (ix2 r q)) i j
      = kScat (srcK m c) (dstK m c) H i j := by
  have e : (fun r q => A (ix2 r q)) = H := funext fun r => funext (hH r)
  rw [hs, hd, e]
  exact congrArg₂ (kScat · · H i j) (funext (src_at m ρ c)) (funext (dst_at m ρ c))

theorem bat_at (i : Fin 100000) :
    (W9 (F := Ideal) m ρ c (Proc.devRef .tc main_v78) : S100000x1.Idx → BitVec 32) (ix2 i 0) = batK m c i :=
  (s3_v78 (W8 m ρ c) i).trans (congrFun ((W8_of_ne m ρ c main_arg2 (by decide)).trans ((W7_5 m ρ c main_arg2).trans
    ((W5_3 m ρ c main_arg2).trans (at3 m ρ c main_arg2)))) (ix1 i))

theorem H1_at (i : Fin 100000) (j : Fin 256) :
    (W4 (F := Ideal) m ρ c (Proc.devRef .tc main_v45) : S100000x256.Idx → EReal) (ix2 i j) = kH1 (xK m c) (dstK m c) (W1K m c) i j := by
  refine (congrFun (W4_arr m ρ c 3) (ix2 i j)).trans ((final0 (V3 m ρ) c i j).trans ?_)
  unfold kH1 kPre
  exact congrArg₂ (· * ·)
    (Finset.sum_congr rfl fun k _ => congrArg₂ (· * ·)
      (congrFun (at3 m ρ c main_arg0) (ix2 i k)) (congrFun (at3 m ρ c main_arg3) (ix2 k j)))
    (dinv_at m ρ c i)

theorem H2_at (i : Fin 100000) (j : Fin 256) :
    (W6 (F := Ideal) m ρ c (Proc.devRef .tc main_v56) : S100000x256.Idx → EReal) (ix2 i j)
      = kH2 (xK m c) (srcK m c) (dstK m c) (W1K m c) (W2K m c) (b1K m c) (g1K m c) (be1K m c) (mu1K m c) (v1K m c) i j := by
  refine (congrFun (W6_arr m ρ c 6) (ix2 i j)).trans ((final1 (V5 m ρ) c i j).trans ?_)
  have hd : ∀ p : Fin 100000, arr1_d (V5 m ρ) c (ix2 p 0) = _ :=
    fun p => (congrFun (v14_5 m ρ c) _).trans (dinv_at m ρ c p)
  have hs : ∀ (p : Fin 100000) (k : Fin 256), arr1_s (V5 m ρ) c (ix2 p k) = _ := fun p k =>
    (s1_v55 (W4 m ρ c) p k).trans (scat_of m ρ c _ (W4_1 m ρ c main_v1) (W4_1 m ρ c main_v3) _ _ (H1_at m ρ c) p k)
  have hh : ∀ (p : Fin 100000) (k : Fin 256), arr1_h (V5 m ρ) c (ix2 p k) = _ :=
    fun p k => (congrFun (W5_of m ρ c main_v45 (by decide)) _).trans (H1_at m ρ c p k)
  have hsc : ∀ k : Fin 256, arr1_sc (V5 m ρ) c (ix2 0 k) = _ :=
    fun k => (congrFun (W5_3 m ρ c main_v23) _).trans (sc1_at m ρ c k)
  have hbi : ∀ k : Fin 256, arr1_bi (V5 m ρ) c (ix2 0 k) = _ :=
    fun k => (congrFun (W5_3 m ρ c main_v24) _).trans (bi1_at m ρ c k)
  have hw : ∀ k q : Fin 256, arr1_w (V5 m ρ) c (ix2 k q) = W2K m c k q :=
    fun k q => congrFun ((W5_3 m ρ c main_arg5).trans (at3 m ρ c main_arg5)) (ix2 k q)
  unfold kH2 kPre kRelu kNorm
  rw [hd i]
  refine congrArg₂ (· * ·) (Finset.sum_congr rfl fun k _ => ?_) rfl
  rw [hs i k, hh i k, hsc k, hbi k, hw k j]

theorem H3_at (i : Fin 100000) (j : Fin 256) :
    (W8 (F := Ideal) m ρ c (Proc.devRef .tc main_v67) : S100000x256.Idx → EReal) (ix2 i j)
      = kH3 (xK m c) (srcK m c) (dstK m c) (W1K m c) (W2K m c) (W3K m c) (b1K m c) (b2K m c) (g1K m c) (be1K m c) (mu1K m c) (v1K m c) (g2K m c) (be2K m c) (mu2K m c) (v2K m c) i j := by
  refine (congrFun (W8_arr m ρ c 6) (ix2 i j)).trans ((final2 (V7 m ρ) c i j).trans ?_)
  have hd : ∀ p : Fin 100000, arr2_d (V7 m ρ) c (ix2 p 0) = _ :=
    fun p => (congrFun (v14_7 m ρ c) _).trans (dinv_at m ρ c p)
  have hs : ∀ (p : Fin 100000) (k : Fin 256), arr2_s (V7 m ρ) c (ix2 p k) = _ := fun p k =>
    (s2_v66 (W6 m ρ c) p k).trans (scat_of m ρ c _
      ((W6_of_ne m ρ c main_v1 (by decide)).trans ((W5_of m ρ c main_v1 (by decide)).trans (W4_1 m ρ c main_v1)))
      ((W6_of_ne m ρ c main_v3 (by decide)).trans ((W5_of m ρ c main_v3 (by decide)).trans (W4_1 m ρ c main_v3)))
      _ _ (H2_at m ρ c) p k)
  have hh : ∀ (p : Fin 100000) (k : Fin 256), arr2_h (V7 m ρ) c (ix2 p k) = _ :=
    fun p k => (congrFun (W7_of m ρ c main_v56 (by decide)) _).trans (H2_at m ρ c p k)
  have hsc : ∀ k : Fin 256, arr2_sc (V7 m ρ) c (ix2 0 k) = _ :=
    fun k => (congrFun ((W7_5 m ρ c main_v33).trans (W5_3 m ρ c main_v33)) _).trans (sc2_at m ρ c k)
  have hbi : ∀ k : Fin 256, arr2_bi (V7 m ρ) c (ix2 0 k) = _ :=
    fun k => (congrFun ((W7_5 m ρ c main_v34).trans (W5_3 m ρ c main_v34)) _).trans (bi2_at m ρ c k)
  have hw : ∀ k q : Fin 256, arr2_w (V7 m ρ) c (ix2 k q) = W3K m c k q := fun k q =>
    congrFun ((W7_5 m ρ c main_arg7).trans ((W5_3 m ρ c main_arg7).trans (at3 m ρ c main_arg7))) (ix2 k q)
  unfold kH3 kPre kRelu kNorm
  rw [hd i]
  refine congrArg₂ (· * ·) (Finset.sum_congr rfl fun k _ => ?_) rfl
  rw [hs i k, hh i k, hsc k, hbi k, hw k j]

theorem kernel_emb (g : Fin 256) (j : Fin 256) :
    W10 (F := Ideal) m ρ c (Proc.devRef .tc main_v79) (ix2 g j)
      = kEmb (xK m c) (srcK m c) (dstK m c) (batK m c) (W1K m c) (W2K m c) (W3K m c) (b1K m c) (b2K m c) (b3K m c)
          (g1K m c) (be1K m c) (mu1K m c) (v1K m c) (g2K m c) (be2K m c) (mu2K m c) (v2K m c) (g3K m c) (be3K m c) (mu3K m c) (v3K m c) g j := by
  refine (congrFun (W10_arr m ρ c 6) (ix2 g j)).trans ((final3 (V9 m ρ) c g j).trans ?_)
  have hb : ∀ p : Fin 100000, arr3_b (V9 m ρ) c (ix2 p 0) = batK m c p := bat_at m ρ c
  have hd : ∀ p : Fin 100000, arr3_d (V9 m ρ) c (ix2 p 0) = _ :=
    fun p => (congrFun (v14_9 m ρ c) _).trans (dinv_at m ρ c p)
  have hs : ∀ (p : Fin 100000) (k : Fin 256), arr3_s (V9 m ρ) c (ix2 p k) = _ := fun p k =>
    (s3_v77 (W8 m ρ c) p k).trans (scat_of m ρ c _
      ((W8_of_ne m ρ c main_v1 (by decide)).trans ((W7_5 m ρ c main_v1).trans ((W5_of m ρ c main_v1 (by decide)).trans (W4_1 m ρ c main_v1))))
      ((W8_of_ne m ρ c main_v3 (by decide)).trans ((W7_5 m ρ c main_v3).trans ((W5_of m ρ c main_v3 (by decide)).trans (W4_1 m ρ c main_v3))))
      _ _ (H3_at m ρ c) p k)
  have hh : ∀ (p : Fin 100000) (k : Fin 256), arr3_h (V9 m ρ) c (ix2 p k) = _ :=
    fun p k => (congrFun (W9_of m ρ c main_v67 (by decide)) _).trans (H3_at m ρ c p k)
  have hsc : ∀ k : Fin 256, arr3_sc (V9 m ρ) c (ix2 0 k) = _ := fun k =>
    (congrFun ((W9_7 m ρ c main_v43).trans ((W7_5 m ρ c main_v43).trans (W5_3 m ρ c main_v43))) _).trans (sc3_at m ρ c k)
  have hbi : ∀ k : Fin 256, arr3_bi (V9 m ρ) c (ix2 0 k) = _ := fun k =>
    (congrFun ((W9_7 m ρ c main_v44).trans ((W7_5 m ρ c main_v44).trans (W5_3 m ρ c main_v44))) _).trans (bi3_at m ρ c k)
  unfold kEmb kSum kCnt kY3 kNorm
  refine congrArg₂ Ideal.div (Finset.sum_congr rfl fun p _ => ?_)
    (congrArg (fun t => max t Cert.GcnForms.one) (Finset.sum_congr rfl fun p _ => ?_))
  · rw [hb p, hd p, hs p j, hh p j, hsc j, hbi j]
  · rw [hb p]

theorem kernel_result :
    W11 (F := Ideal) m ρ c (Proc.devRef .tc main_v96)
      = headK (W10 m ρ c (Proc.devRef .tc main_v79)) (m ((c : Thread nD τ).loc main_arg9)) :=
  (s4_v96 (W10 m ρ c)).trans (congrArg (headK _) ((W10_of_ne m ρ c main_arg9 (by decide)).trans ((W9_7 m ρ c main_arg9).trans
    ((W7_5 m ρ c main_arg9).trans ((W5_3 m ρ c main_arg9).trans (at3 m ρ c main_arg9))))))

end KHost

end Cert.KernelIdeal.Hand

end
-- ==== Proof.Ref.ReadP.lean ====
import proofs.«405801_j48610439856177_2_alg».proof.Proof.Ref.RunP
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x320000, .i32⟩ : BufTy).Contents (Elt F)) : (⟨S1x320000, .i32⟩ : BufTy).Contents (Elt F) :=
  extractStridedSlice S1x320000 ![0, 0] (x1) slices_S2x320000_S1x320000_0_0
abbrev idx_main_v0 (i : S1x320000.Idx) : S2x320000.Idx := fun a => match a with
  | ⟨0, _⟩ => ⟨(i 0).val, by have h0 : (i 0).val < 1 := (i 0).isLt; show (i 0).val < 2; omega⟩
  | ⟨1, _⟩ => ⟨(i 1).val, (i 1).isLt⟩
theorem val_main_v0_apply (x1 : (⟨S2x320000, .i32⟩ : BufTy).Contents (Elt F)) (i : S1x320000.Idx) :
    val_main_v0 (F := F) x1 i = x1 (idx_main_v0 i) := by
  unfold val_main_v0
  exact extractStridedSlice_apply ![0, 0] x1 slices_S2x320000_S1x320000_0_0 i (idx_main_v0 i) (fun a => match a with
    | ⟨0, _⟩ => by show (i 0).val = 0 + (i 0).val; omega
    | ⟨1, _⟩ => by show (i 1).val = 0 + (i 1).val; omega)

def val_main_v1 (x1 : (⟨S2x320000, .i32⟩ : BufTy).Contents (Elt F)) : (⟨S320000, .i32⟩ : BufTy).Contents (Elt F) :=
  shapeCast _ (val_main_v0 (F := F) x1) shapeCasts_S1x320000_S320000
abbrev idx_main_v1 (i : S320000.Idx) : S1x320000.Idx := fun a => match a with
  | ⟨0, _⟩ => ⟨0, Nat.one_pos⟩
  | ⟨1, _⟩ => ⟨((i 0).val) % 320000, by have h0 : (i 0).val < 320000 := (i 0).isLt; show ((i 0).val) % 320000 < 320000; omega⟩
theorem val_main_v1_apply (x1 : (⟨S2x320000, .i32⟩ : BufTy).Contents (Elt F)) (i : S320000.Idx) :
    val_main_v1 (F := F) x1 i = val_main_v0 (F := F) x1 (idx_main_v1 i) := by
  unfold val_main_v1
  generalize val_main_v0 (F := F) x1 = y
  exact shapeCast_apply y shapeCasts_S1x320000_S320000 i (idx_main_v1 i)
    (by rewrite [Shape.rowMajor_val_two, Shape.rowMajor_val_one]; have h0 : (i 0).val < 320000 := (i 0).isLt; show 0 * 320000 + ((i 0).val) % 320000 = (i 0).val; omega)

def val_main_v2 (x1 : (⟨S2x320000, .i32⟩ : BufTy).Contents (Elt F)) : (⟨S1x320000, .i32⟩ : BufTy).Contents (Elt F) :=
  extractStridedSlice S1x320000 ![1, 0] (x1) slices_S2x320000_S1x320000_1_0
abbrev idx_main_v2 (i : S1x320000.Idx) : S2x320000.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
theorem val_main_v2_apply (x1 : (⟨S2x320000, .i32⟩ : BufTy).Contents (Elt F)) (i : S1x320000.Idx) :
    val_main_v2 (F := F) x1 i = x1 (idx_main_v2 i) := by
  unfold val_main_v2
  exact extractStridedSlice_apply ![1, 0] x1 slices_S2x320000_S1x320000_1_0 i (idx_main_v2 i) (fun a => match a with
    | ⟨0, _⟩ => by show 1 + (i 0).val = 1 + (i 0).val; omega
    | ⟨1, _⟩ => by show (i 1).val = 0 + (i 1).val; omega)

def val_main_v3 (x1 : (⟨S2x320000, .i32⟩ : BufTy).Contents (Elt F)) : (⟨S320000, .i32⟩ : BufTy).Contents (Elt F) :=
  shapeCast _ (val_main_v2 (F := F) x1) shapeCasts_S1x320000_S320000
abbrev idx_main_v3 (i : S320000.Idx) : S1x320000.Idx := fun a => match a with
  | ⟨0, _⟩ => ⟨0, Nat.one_pos⟩
  | ⟨1, _⟩ => ⟨((i 0).val) % 320000, by have h0 : (i 0).val < 320000 := (i 0).isLt; show ((i 0).val) % 320000 < 320000; omega⟩
theorem val_main_v3_apply (x1 : (⟨S2x320000, .i32⟩ : BufTy).Contents (Elt F)) (i : S320000.Idx) :
    val_main_v3 (F := F) x1 i = val_main_v2 (F := F) x1 (idx_main_v3 i) := by
  unfold val_main_v3
  generalize val_main_v2 (F := F) x1 = y
  exact shapeCast_apply y shapeCasts_S1x320000_S320000 i (idx_main_v3 i)
    (by rewrite [Shape.rowMajor_val_two, Shape.rowMajor_val_one]; have h0 : (i 0).val < 320000 := (i 0).isLt; show 0 * 320000 + ((i 0).val) % 320000 = (i 0).val; omega)

def val_main_v4 (x0 : (⟨S100000x256, .f32⟩ : BufTy).Contents (Elt F)) (x3 : (⟨S256x256, .f32⟩ : BufTy).Contents (Elt F)) : (⟨S100000x256, .f32⟩ : BufTy).Contents (Elt F) :=
  Host.dotGeneral dot_S100000x256_S256x256_S100000x256_1_0_0_1_n_n none (x0) (x3)
theorem lhs_main_v4_0 (i : S100000x256.Idx) (q : dot_S100000x256_S256x256_S100000x256_1_0_0_1_n_n.contr.Idx) :
    (dot_S100000x256_S256x256_S100000x256_1_0_0_1_n_n.lhsIdx i q 0).val = (i 0).val := by
  unfold DotDims.lhsIdx
  rw [dif_neg (show ¬(0 : Fin S100000x256.rank) ∈ dot_S100000x256_S256x256_S100000x256_1_0_0_1_n_n.lhsBatch by decide), dif_pos (show (0 : Fin S100000x256.rank) ∈ dot_S100000x256_S256x256_S100000x256_1_0_0_1_n_n.lhsNonContracting by decide)]
  rfl
theorem lhs_main_v4_1 (i : S100000x256.Idx) (q : dot_S100000x256_S256x256_S100000x256_1_0_0_1_n_n.contr.Idx) :
    (dot_S100000x256_S256x256_S100000x256_1_0_0_1_n_n.lhsIdx i q 1).val = (q ⟨0, by decide⟩).val :=
  dot_S100000x256_S256x256_S100000x256_1_0_0_1_n_n.lhsIdx_val_of_single rfl i q
theorem rhs_main_v4_0 (i : S100000x256.Idx) (q : dot_S100000x256_S256x256_S100000x256_1_0_0_1_n_n.contr.Idx) :
    (dot_S100000x256_S256x256_S100000x256_1_0_0_1_n_n.rhsIdx i q 0).val = (q ⟨0, by decide⟩).val :=
  dot_S100000x256_S256x256_S100000x256_1_0_0_1_n_n.rhsIdx_val_of_single rfl i q
theorem rhs_main_v4_1 (i : S100000x256.Idx) (q : dot_S100000x256_S256x256_S100000x256_1_0_0_1_n_n.contr.Idx) :
    (dot_S100000x256_S256x256_S100000x256_1_0_0_1_n_n.rhsIdx i q 1).val = (i 1).val := by
  unfold DotDims.rhsIdx
  rw [dif_neg (show ¬(1 : Fin S256x256.rank) ∈ dot_S100000x256_S256x256_S100000x256_1_0_0_1_n_n.rhsBatch by decide), dif_pos (show (1 : Fin S256x256.rank) ∈ dot_S100000x256_S256x256_S100000x256_1_0_0_1_n_n.rhsNonContracting by decide)]
  rfl
abbrev lidx_main_v4 (i : S100000x256.Idx) (k : Fin 256) : S100000x256.Idx := fun a => match a with
  | ⟨0, _⟩ => ⟨(i 0).val, (i 0).isLt⟩
  | ⟨1, _⟩ => ⟨k.val, k.isLt⟩
abbrev ridx_main_v4 (i : S100000x256.Idx) (k : Fin 256) : S256x256.Idx := fun a => match a with
  | ⟨0, _⟩ => ⟨k.val, k.isLt⟩
  | ⟨1, _⟩ => ⟨(i 1).val, (i 1).isLt⟩

theorem val_main_v4_apply (x0 : (⟨S100000x256, .f32⟩ : BufTy).Contents (Elt Ideal)) (x3 : (⟨S256x256, .f32⟩ : BufTy).Contents (Elt Ideal)) (i : S100000x256.Idx) :
    val_main_v4 (F := Ideal) x0 x3 i = ∑ k : Fin 256, x0 (lidx_main_v4 i k) * x3 (ridx_main_v4 i k) := by
  unfold val_main_v4
  simp only [Host.dotGeneral]
  rw [Ideal.dotGeneral_apply, ← Equiv.sum_comp (ValueIdx.contrEquiv1 dot_S100000x256_S256x256_S100000x256_1_0_0_1_n_n 256 rfl rfl).symm]
  refine Finset.sum_congr rfl fun k _ => ?_
  have hk := ValueIdx.contrEquiv1_symm_val dot_S100000x256_S256x256_S100000x256_1_0_0_1_n_n 256 rfl rfl k
  have el : dot_S100000x256_S256x256_S100000x256_1_0_0_1_n_n.lhsIdx i ((ValueIdx.contrEquiv1 dot_S100000x256_S256x256_S100000x256_1_0_0_1_n_n 256 rfl rfl).symm k) = lidx_main_v4 i k := funext fun a => Fin.ext (by
    match a with
    | ⟨0, _⟩ => exact lhs_main_v4_0 _ _
    | ⟨1, _⟩ => exact (lhs_main_v4_1 _ _).trans hk)
  have er : dot_S100000x256_S256x256_S100000x256_1_0_0_1_n_n.rhsIdx i ((ValueIdx.contrEquiv1 dot_S100000x256_S256x256_S100000x256_1_0_0_1_n_n 256 rfl rfl).symm k) = ridx_main_v4 i k := funext fun a => Fin.ext (by
    match a with
    | ⟨0, _⟩ => exact (rhs_main_v4_0 _ _).trans hk
    | ⟨1, _⟩ => exact rhs_main_v4_1 _ _)
  rw [el, er]

def val_main_v5 : (⟨S100000, .i32⟩ : BufTy).Contents (Elt F) :=
  iotaInDim S100000 32 0
def val_main_v6 (x1 : (⟨S2x320000, .i32⟩ : BufTy).Contents (Elt F)) : (⟨S420000, .i32⟩ : BufTy).Contents (Elt F) :=
  concatenate S420000 0 [⟨S320000, (val_main_v1 (F := F) x1)⟩, ⟨S100000, (val_main_v5 (F := F))⟩] concatenates_S320000_S100000_S420000_d0

def val_main_v7 (x1 : (⟨S2x320000, .i32⟩ : BufTy).Contents (Elt F)) : (⟨S420000, .i32⟩ : BufTy).Contents (Elt F) :=
  concatenate S420000 0 [⟨S320000, (val_main_v3 (F := F) x1)⟩, ⟨S100000, (val_main_v5 (F := F))⟩] concatenates_S320000_S100000_S420000_d0

def val_main_cst : (⟨S_, .f32⟩ : BufTy).Contents (Elt F) :=
  constant S_ .f32 0x3F800000#32
def val_main_v8 : (⟨S420000, .f32⟩ : BufTy).Contents (Elt F) :=
  broadcastInDim S420000 ![] bcast_S_S420000 (val_main_cst (F := F))
def val_main_cst_0 : (⟨S_, .f32⟩ : BufTy).Contents (Elt F) :=
  constant S_ .f32 0x00000000#32
def val_main_v9 : (⟨S100000, .f32⟩ : BufTy).Contents (Elt F) :=
  broadcastInDim S100000 ![] bcast_S_S100000 (val_main_cst_0 (F := F))
def val_main_v10 (x1 : (⟨S2x320000, .i32⟩ : BufTy).Contents (Elt F)) : (⟨S420000x1, .i32⟩ : BufTy).Contents (Elt F) :=
  broadcastInDim S420000x1 ![0] bcast_S420000_S420000x1_0 (val_main_v7 (F := F) x1)
def val_main_v11 (x1 : (⟨S2x320000, .i32⟩ : BufTy).Contents (Elt F)) : (⟨S100000, .f32⟩ : BufTy).Contents (Elt F) :=
  Host.scatterAdd scatter_S100000_S420000x1_S420000_n_0_0_1 (val_main_v9 (F := F)) (val_main_v10 (F := F) x1) (val_main_v8 (F := F))

def val_main_cst_1 : (⟨S_, .f32⟩ : BufTy).Contents (Elt F) :=
  constant S_ .f32 0x00000000#32
def val_main_v12 : (⟨S100000, .f32⟩ : BufTy).Contents (Elt F) :=
  broadcastInDim S100000 ![] bcast_S_S100000 (val_main_cst_1 (F := F))
def val_main_v13 (x1 : (⟨S2x320000, .i32⟩ : BufTy).Contents (Elt F)) : (⟨S100000, .i1⟩ : BufTy).Contents (Elt F) :=
  cmpf (F := F) .ogt (val_main_v11 (F := F) x1) (val_main_v12 (F := F))
def val_main_v14 (x1 : (⟨S2x320000, .i32⟩ : BufTy).Contents (Elt F)) : (⟨S100000, .f32⟩ : BufTy).Contents (Elt F) :=
  Host.rsqrt (val_main_v11 (F := F) x1)
def val_main_cst_2 : (⟨S_, .f32⟩ : BufTy).Contents (Elt F) :=
  constant S_ .f32 0x00000000#32
def val_main_call0_v0 : (⟨S_, .f32⟩ : BufTy).Contents (Elt F) :=
  id (val_main_cst_2 (F := F))
def val_main_call0_v1 : (⟨S100000, .f32⟩ : BufTy).Contents (Elt F) :=
  broadcastInDim S100000 ![] bcast_S_S100000 (val_main_call0_v0 (F := F))
def val_main_v15 (x1 : (⟨S2x320000, .i32⟩ : BufTy).Contents (Elt F)) : (⟨S100000, .f32⟩ : BufTy).Contents (Elt F) :=
  select (val_main_v13 (F := F) x1) (val_main_v14 (F := F) x1) (val_main_call0_v1 (F := F))
def val_main_c : (⟨S_, .i32⟩ : BufTy).Contents (Elt F) :=
  constantI S_ 32 0#32
def val_main_v16 : (⟨S420000, .i32⟩ : BufTy).Contents (Elt F) :=
  broadcastInDim S420000 ![] bcast_S_S420000 (val_main_c (F := F))
def val_main_v17 (x1 : (⟨S2x320000, .i32⟩ : BufTy).Contents (Elt F)) : (⟨S420000, .i1⟩ : BufTy).Contents (Elt F) :=
  cmpi .slt (val_main_v6 (F := F) x1) (val_main_v16 (F := F))
def val_main_c_3 : (⟨S_, .i32⟩ : BufTy).Contents (Elt F) :=
  constantI S_ 32 100000#32
def val_main_v18 : (⟨S420000, .i32⟩ : BufTy).Contents (Elt F) :=
  broadcastInDim S420000 ![] bcast_S_S420000 (val_main_c_3 (F := F))
def val_main_v19 (x1 : (⟨S2x320000, .i32⟩ : BufTy).Contents (Elt F)) : (⟨S420000, .i32⟩ : BufTy).Contents (Elt F) :=
  addi (val_main_v6 (F := F) x1) (val_main_v18 (F := F))
def val_main_v20 (x1 : (⟨S2x320000, .i32⟩ : BufTy).Contents (Elt F)) : (⟨S420000, .i32⟩ : BufTy).Contents (Elt F) :=
  select (val_main_v17 (F := F) x1) (val_main_v19 (F := F) x1) (val_main_v6 (F := F) x1)
def val_main_v21 (x1 : (⟨S2x320000, .i32⟩ : BufTy).Contents (Elt F)) : (⟨S420000x1, .i32⟩ : BufTy).Contents (Elt F) :=
  broadcastInDim S420000x1 ![0] bcast_S420000_S420000x1_0 (val_main_v20 (F := F) x1)
def val_main_v22 (x1 : (⟨S2x320000, .i32⟩ : BufTy).Contents (Elt F)) : (⟨S420000, .f32⟩ : BufTy).Contents (Elt F) :=
  Host.gather gather_S100000_S420000x1_S420000_n_0_n_n_0_1_1 (val_main_v15 (F := F) x1) (val_main_v21 (F := F) x1)

def val_main_c_4 : (⟨S_, .i32⟩ : BufTy).Contents (Elt F) :=
  constantI S_ 32 0#32
def val_main_v23 : (⟨S420000, .i32⟩ : BufTy).Contents (Elt F) :=
  broadcastInDim S420000 ![] bcast_S_S420000 (val_main_c_4 (F := F))
def val_main_v24 (x1 : (⟨S2x320000, .i32⟩ : BufTy).Contents (Elt F)) : (⟨S420000, .i1⟩ : BufTy).Contents (Elt F) :=
  cmpi .slt (val_main_v7 (F := F) x1) (val_main_v23 (F := F))
def val_main_c_5 : (⟨S_, .i32⟩ : BufTy).Contents (Elt F) :=
  constantI S_ 32 100000#32
def val_main_v25 : (⟨S420000, .i32⟩ : BufTy).Contents (Elt F) :=
  broadcastInDim S420000 ![] bcast_S_S420000 (val_main_c_5 (F := F))
def val_main_v26 (x1 : (⟨S2x320000, .i32⟩ : BufTy).Contents (Elt F)) : (⟨S420000, .i32⟩ : BufTy).Contents (Elt F) :=
  addi (val_main_v7 (F := F) x1) (val_main_v25 (F := F))
def val_main_v27 (x1 : (⟨S2x320000, .i32⟩ : BufTy).Contents (Elt F)) : (⟨S420000, .i32⟩ : BufTy).Contents (Elt F) :=
  select (val_main_v24 (F := F) x1) (val_main_v26 (F := F) x1) (val_main_v7 (F := F) x1)
def val_main_v28 (x1 : (⟨S2x320000, .i32⟩ : BufTy).Contents (Elt F)) : (⟨S420000x1, .i32⟩ : BufTy).Contents (Elt F) :=
  broadcastInDim S420000x1 ![0] bcast_S420000_S420000x1_0 (val_main_v27 (F := F) x1)
def val_main_v29 (x1 : (⟨S2x320000, .i32⟩ : BufTy).Contents (Elt F)) : (⟨S420000, .f32⟩ : BufTy).Contents (Elt F) :=
  Host.gather gather_S100000_S420000x1_S420000_n_0_n_n_0_1_1 (val_main_v15 (F := F) x1) (val_main_v28 (F := F) x1)

def val_main_v30 (x1 : (⟨S2x320000, .i32⟩ : BufTy).Contents (Elt F)) : (⟨S420000, .f32⟩ : BufTy).Contents (Elt F) :=
  mulf (val_main_v22 (F := F) x1) (val_main_v29 (F := F) x1)
def val_main_v31 (x1 : (⟨S2x320000, .i32⟩ : BufTy).Contents (Elt F)) : (⟨S420000x1, .f32⟩ : BufTy).Contents (Elt F) :=
  broadcastInDim S420000x1 ![0] bcast_S420000_S420000x1_0 (val_main_v30 (F := F) x1)
def val_main_c_6 : (⟨S_, .i32⟩ : BufTy).Contents (Elt F) :=
  constantI S_ 32 0#32
def val_main_v32 : (⟨S420000, .i32⟩ : BufTy).Contents (Elt F) :=
  broadcastInDim S420000 ![] bcast_S_S420000 (val_main_c_6 (F := F))
def val_main_v33 (x1 : (⟨S2x320000, .i32⟩ : BufTy).Contents (Elt F)) : (⟨S420000, .i1⟩ : BufTy).Contents (Elt F) :=
  cmpi .slt (val_main_v6 (F := F) x1) (val_main_v32 (F := F))
def val_main_c_7 : (⟨S_, .i32⟩ : BufTy).Contents (Elt F) :=
  constantI S_ 32 100000#32
def val_main_v34 : (⟨S420000, .i32⟩ : BufTy).Contents (Elt F) :=
  broadcastInDim S420000 ![] bcast_S_S420000 (val_main_c_7 (F := F))
def val_main_v35 (x1 : (⟨S2x320000, .i32⟩ : BufTy).Contents (Elt F)) : (⟨S420000, .i32⟩ : BufTy).Contents (Elt F) :=
  addi (val_main_v6 (F := F) x1) (val_main_v34 (F := F))
def val_main_v36 (x1 : (⟨S2x320000, .i32⟩ : BufTy).Contents (Elt F)) : (⟨S420000, .i32⟩ : BufTy).Contents (Elt F) :=
  select (val_main_v33 (F := F) x1) (val_main_v35 (F := F) x1) (val_main_v6 (F := F) x1)
def val_main_v37 (x1 : (⟨S2x320000, .i32⟩ : BufTy).Contents (Elt F)) : (⟨S420000x1, .i32⟩ : BufTy).Contents (Elt F) :=
  broadcastInDim S420000x1 ![0] bcast_S420000_S420000x1_0 (val_main_v36 (F := F) x1)
def val_main_v38 (x0 : (⟨S100000x256, .f32⟩ : BufTy).Contents (Elt F)) (x1 : (⟨S2x320000, .i32⟩ : BufTy).Contents (Elt F)) (x3 : (⟨S256x256, .f32⟩ : BufTy).Contents (Elt F)) : (⟨S420000x256, .f32⟩ : BufTy).Contents (Elt F) :=
  Host.gather gather_S100000x256_S420000x1_S420000x256_1_0_n_n_0_1_1256 (val_main_v4 (F := F) x0 x3) (val_main_v37 (F := F) x1)

def val_main_v39 (x1 : (⟨S2x320000, .i32⟩ : BufTy).Contents (Elt F)) : (⟨S420000x256, .f32⟩ : BufTy).Contents (Elt F) :=
  broadcastInDim S420000x256 ![0, 1] bcast_S420000x1_S420000x256_0_1 (val_main_v31 (F := F) x1)
def val_main_v40 (x0 : (⟨S100000x256, .f32⟩ : BufTy).Contents (Elt F)) (x1 : (⟨S2x320000, .i32⟩ : BufTy).Contents (Elt F)) (x3 : (⟨S256x256, .f32⟩ : BufTy).Contents (Elt F)) : (⟨S420000x256, .f32⟩ : BufTy).Contents (Elt F) :=
  mulf (val_main_v39 (F := F) x1) (val_main_v38 (F := F) x0 x1 x3)
def val_main_cst_8 : (⟨S_, .f32⟩ : BufTy).Contents (Elt F) :=
  constant S_ .f32 0x00000000#32
def val_main_v41 : (⟨S100000x256, .f32⟩ : BufTy).Contents (Elt F) :=
  broadcastInDim S100000x256 ![] bcast_S_S100000x256 (val_main_cst_8 (F := F))
def val_main_v42 (x1 : (⟨S2x320000, .i32⟩ : BufTy).Contents (Elt F)) : (⟨S420000x1, .i32⟩ : BufTy).Contents (Elt F) :=
  broadcastInDim S420000x1 ![0] bcast_S420000_S420000x1_0 (val_main_v7 (F := F) x1)
def val_main_v43 (x0 : (⟨S100000x256, .f32⟩ : BufTy).Contents (Elt F)) (x1 : (⟨S2x320000, .i32⟩ : BufTy).Contents (Elt F)) (x3 : (⟨S256x256, .f32⟩ : BufTy).Contents (Elt F)) : (⟨S100000x256, .f32⟩ : BufTy).Contents (Elt F) :=
  Host.scatterAdd scatter_S100000x256_S420000x1_S420000x256_1_0_0_1 (val_main_v41 (F := F)) (val_main_v42 (F := F) x1) (val_main_v40 (F := F) x0 x1 x3)

def val_main_v44 (x4 : (⟨S256, .f32⟩ : BufTy).Contents (Elt F)) : (⟨S1x256, .f32⟩ : BufTy).Contents (Elt F) :=
  broadcastInDim S1x256 ![1] bcast_S256_S1x256_1 (x4)
def val_main_v45 (x4 : (⟨S256, .f32⟩ : BufTy).Contents (Elt F)) : (⟨S100000x256, .f32⟩ : BufTy).Contents (Elt F) :=
  broadcastInDim S100000x256 ![0, 1] bcast_S1x256_S100000x256_0_1 (val_main_v44 (F := F) x4)
def val_main_v46 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) : (⟨S100000x256, .f32⟩ : BufTy).Contents (Elt F) :=
  addf (val_main_v43 (F := F) x0 x1 x3) (val_main_v45 (F := F) x4)
def val_main_v47 (x12 : (⟨S256, .f32⟩ : BufTy).Contents (Elt F)) : (⟨S1x256, .f32⟩ : BufTy).Contents (Elt F) :=
  broadcastInDim S1x256 ![1] bcast_S256_S1x256_1 (x12)
def val_main_v48 (x12 : (⟨S256, .f32⟩ : BufTy).Contents (Elt F)) : (⟨S100000x256, .f32⟩ : BufTy).Contents (Elt F) :=
  broadcastInDim S100000x256 ![0, 1] bcast_S1x256_S100000x256_0_1 (val_main_v47 (F := F) x12)
def val_main_v49 (x0 : (⟨S100000x256, .f32⟩ : BufTy).Contents (Elt F)) (x1 : (⟨S2x320000, .i32⟩ : BufTy).Contents (Elt F)) (x3 : (⟨S256x256, .f32⟩ : BufTy).Contents (Elt F)) (x4 x12 : (⟨S256, .f32⟩ : BufTy).Contents (Elt F)) : (⟨S100000x256, .f32⟩ : BufTy).Contents (Elt F) :=
  subf (val_main_v46 (F := F) x0 x1 x3 x4) (val_main_v48 (F := F) x12)
def val_main_cst_9 : (⟨S_, .f32⟩ : BufTy).Contents (Elt F) :=
  constant S_ .f32 0x3727C5AC#32
def val_main_v50 : (⟨S256, .f32⟩ : BufTy).Contents (Elt F) :=
  broadcastInDim S256 ![] bcast_S_S256 (val_main_cst_9 (F := F))
def val_main_v51 (x13 : (⟨S256, .f32⟩ : BufTy).Contents (Elt F)) : (⟨S256, .f32⟩ : BufTy).Contents (Elt F) :=
  addf (x13) (val_main_v50 (F := F))
def val_main_v52 (x13 : (⟨S256, .f32⟩ : BufTy).Contents (Elt F)) : (⟨S256, .f32⟩ : BufTy).Contents (Elt F) :=
  Host.rsqrt (val_main_v51 (F := F) x13)
def val_main_v53 (x13 : (⟨S256, .f32⟩ : BufTy).Contents (Elt F)) : (⟨S1x256, .f32⟩ : BufTy).Contents (Elt F) :=
  broadcastInDim S1x256 ![1] bcast_S256_S1x256_1 (val_main_v52 (F := F) x13)
def val_main_v54 (x13 : (⟨S256, .f32⟩ : BufTy).Contents (Elt F)) : (⟨S100000x256, .f32⟩ : BufTy).Contents (Elt F) :=
  broadcastInDim S100000x256 ![0, 1] bcast_S1x256_S100000x256_0_1 (val_main_v53 (F := F) x13)
def val_main_v55 (x0 : (⟨S100000x256, .f32⟩ : BufTy).Contents (Elt F)) (x1 : (⟨S2x320000, .i32⟩ : BufTy).Contents (Elt F)) (x3 : (⟨S256x256, .f32⟩ : BufTy).Contents (Elt F)) (x4 x12 x13 : (⟨S256, .f32⟩ : BufTy).Contents (Elt F)) : (⟨S100000x256, .f32⟩ : BufTy).Contents (Elt F) :=
  mulf (val_main_v49 (F := F) x0 x1 x3 x4 x12) (val_main_v54 (F := F) x13)
def val_main_v56 (x10 : (⟨S256, .f32⟩ : BufTy).Contents (Elt F)) : (⟨S1x256, .f32⟩ : BufTy).Contents (Elt F) :=
  broadcastInDim S1x256 ![1] bcast_S256_S1x256_1 (x10)
def val_main_v57 (x10 : (⟨S256, .f32⟩ : BufTy).Contents (Elt F)) : (⟨S100000x256, .f32⟩ : BufTy).Contents (Elt F) :=
  broadcastInDim S100000x256 ![0, 1] bcast_S1x256_S100000x256_0_1 (val_main_v56 (F := F) x10)
def val_main_v58 (x0 : (⟨S100000x256, .f32⟩ : BufTy).Contents (Elt F)) (x1 : (⟨S2x320000, .i32⟩ : BufTy).Contents (Elt F)) (x3 : (⟨S256x256, .f32⟩ : BufTy).Contents (Elt F)) (x4 x10 x12 x13 : (⟨S256, .f32⟩ : BufTy).Contents (Elt F)) : (⟨S100000x256, .f32⟩ : BufTy).Contents (Elt F) :=
  mulf (val_main_v55 (F := F) x0 x1 x3 x4 x12 x13) (val_main_v57 (F := F) x10)
def val_main_v59 (x11 : (⟨S256, .f32⟩ : BufTy).Contents (Elt F)) : (⟨S1x256, .f32⟩ : BufTy).Contents (Elt F) :=
  broadcastInDim S1x256 ![1] bcast_S256_S1x256_1 (x11)
def val_main_v60 (x11 : (⟨S256, .f32⟩ : BufTy).Contents (Elt F)) : (⟨S100000x256, .f32⟩ : BufTy).Contents (Elt F) :=
  broadcastInDim S100000x256 ![0, 1] bcast_S1x256_S100000x256_0_1 (val_main_v59 (F := F) x11)
def val_main_v61 (x0 : (⟨S100000x256, .f32⟩ : BufTy).Contents (Elt F)) (x1 : (⟨S2x320000, .i32⟩ : BufTy).Contents (Elt F)) (x3 : (⟨S256x256, .f32⟩ : BufTy).Contents (Elt F)) (x4 x10 x11 x12 x13 : (⟨S256, .f32⟩ : BufTy).Contents (Elt F)) : (⟨S100000x256, .f32⟩ : BufTy).Contents (Elt F) :=
  addf (val_main_v58 (F := F) x0 x1 x3 x4 x10 x12 x13) (val_main_v60 (F := F) x11)
def val_main_call1_cst : (⟨S_, .f32⟩ : BufTy).Contents (Elt F) :=
  constant S_ .f32 0x00000000#32
def val_main_call1_v0 : (⟨S100000x256, .f32⟩ : BufTy).Contents (Elt F) :=
  broadcastInDim S100000x256 ![] bcast_S_S100000x256 (val_main_call1_cst (F := F))
def val_main_v62 (x0 : (⟨S100000x256, .f32⟩ : BufTy).Contents (Elt F)) (x1 : (⟨S2x320000, .i32⟩ : BufTy).Contents (Elt F)) (x3 : (⟨S256x256, .f32⟩ : BufTy).Contents (Elt F)) (x4 x10 x11 x12 x13 : (⟨S256, .f32⟩ : BufTy).Contents (Elt F)) : (⟨S100000x256, .f32⟩ : BufTy).Contents (Elt F) :=
  maximumf (val_main_v61 (F := F) x0 x1 x3 x4 x10 x11 x12 x13) (val_main_call1_v0 (F := F))
def val_main_v63 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x10 x11 x12 x13 : (⟨S256, .f32⟩ : BufTy).Contents (Elt F)) : (⟨S100000x256, .f32⟩ : BufTy).Contents (Elt F) :=
  Host.dotGeneral dot_S100000x256_S256x256_S100000x256_1_0_0_1_n_n none (val_main_v62 (F := F) x0 x1 x3 x4 x10 x11 x12 x13) (x5)
def val_main_v64 : (⟨S100000, .i32⟩ : BufTy).Contents (Elt F) :=
  iotaInDim S100000 32 0
def val_main_v65 (x1 : (⟨S2x320000, .i32⟩ : BufTy).Contents (Elt F)) : (⟨S420000, .i32⟩ : BufTy).Contents (Elt F) :=
  concatenate S420000 0 [⟨S320000, (val_main_v1 (F := F) x1)⟩, ⟨S100000, (val_main_v64 (F := F))⟩] concatenates_S320000_S100000_S420000_d0

def val_main_v66 (x1 : (⟨S2x320000, .i32⟩ : BufTy).Contents (Elt F)) : (⟨S420000, .i32⟩ : BufTy).Contents (Elt F) :=
  concatenate S420000 0 [⟨S320000, (val_main_v3 (F := F) x1)⟩, ⟨S100000, (val_main_v64 (F := F))⟩] concatenates_S320000_S100000_S420000_d0

def val_main_cst_10 : (⟨S_, .f32⟩ : BufTy).Contents (Elt F) :=
  constant S_ .f32 0x3F800000#32
def val_main_v67 : (⟨S420000, .f32⟩ : BufTy).Contents (Elt F) :=
  broadcastInDim S420000 ![] bcast_S_S420000 (val_main_cst_10 (F := F))
def val_main_cst_11 : (⟨S_, .f32⟩ : BufTy).Contents (Elt F) :=
  constant S_ .f32 0x00000000#32
def val_main_v68 : (⟨S100000, .f32⟩ : BufTy).Contents (Elt F) :=
  broadcastInDim S100000 ![] bcast_S_S100000 (val_main_cst_11 (F := F))
def val_main_v69 (x1 : (⟨S2x320000, .i32⟩ : BufTy).Contents (Elt F)) : (⟨S420000x1, .i32⟩ : BufTy).Contents (Elt F) :=
  broadcastInDim S420000x1 ![0] bcast_S420000_S420000x1_0 (val_main_v66 (F := F) x1)
def val_main_v70 (x1 : (⟨S2x320000, .i32⟩ : BufTy).Contents (Elt F)) : (⟨S100000, .f32⟩ : BufTy).Contents (Elt F) :=
  Host.scatterAdd scatter_S100000_S420000x1_S420000_n_0_0_1 (val_main_v68 (F := F)) (val_main_v69 (F := F) x1) (val_main_v67 (F := F))

def val_main_cst_12 : (⟨S_, .f32⟩ : BufTy).Contents (Elt F) :=
  constant S_ .f32 0x00000000#32
def val_main_v71 : (⟨S100000, .f32⟩ : BufTy).Contents (Elt F) :=
  broadcastInDim S100000 ![] bcast_S_S100000 (val_main_cst_12 (F := F))
def val_main_v72 (x1 : (⟨S2x320000, .i32⟩ : BufTy).Contents (Elt F)) : (⟨S100000, .i1⟩ : BufTy).Contents (Elt F) :=
  cmpf (F := F) .ogt (val_main_v70 (F := F) x1) (val_main_v71 (F := F))
def val_main_v73 (x1 : (⟨S2x320000, .i32⟩ : BufTy).Contents (Elt F)) : (⟨S100000, .f32⟩ : BufTy).Contents (Elt F) :=
  Host.rsqrt (val_main_v70 (F := F) x1)
def val_main_cst_13 : (⟨S_, .f32⟩ : BufTy).Contents (Elt F) :=
  constant S_ .f32 0x00000000#32
def val_main_call2_v0 : (⟨S_, .f32⟩ : BufTy).Contents (Elt F) :=
  id (val_main_cst_13 (F := F))
def val_main_call2_v1 : (⟨S100000, .f32⟩ : BufTy).Contents (Elt F) :=
  broadcastInDim S100000 ![] bcast_S_S100000 (val_main_call2_v0 (F := F))
def val_main_v74 (x1 : (⟨S2x320000, .i32⟩ : BufTy).Contents (Elt F)) : (⟨S100000, .f32⟩ : BufTy).Contents (Elt F) :=
  select (val_main_v72 (F := F) x1) (val_main_v73 (F := F) x1) (val_main_call2_v1 (F := F))
def val_main_c_14 : (⟨S_, .i32⟩ : BufTy).Contents (Elt F) :=
  constantI S_ 32 0#32
def val_main_v75 : (⟨S420000, .i32⟩ : BufTy).Contents (Elt F) :=
  broadcastInDim S420000 ![] bcast_S_S420000 (val_main_c_14 (F := F))
def val_main_v76 (x1 : (⟨S2x320000, .i32⟩ : BufTy).Contents (Elt F)) : (⟨S420000, .i1⟩ : BufTy).Contents (Elt F) :=
  cmpi .slt (val_main_v65 (F := F) x1) (val_main_v75 (F := F))
def val_main_c_15 : (⟨S_, .i32⟩ : BufTy).Contents (Elt F) :=
  constantI S_ 32 100000#32
def val_main_v77 : (⟨S420000, .i32⟩ : BufTy).Contents (Elt F) :=
  broadcastInDim S420000 ![] bcast_S_S420000 (val_main_c_15 (F := F))
def val_main_v78 (x1 : (⟨S2x320000, .i32⟩ : BufTy).Contents (Elt F)) : (⟨S420000, .i32⟩ : BufTy).Contents (Elt F) :=
  addi (val_main_v65 (F := F) x1) (val_main_v77 (F := F))
def val_main_v79 (x1 : (⟨S2x320000, .i32⟩ : BufTy).Contents (Elt F)) : (⟨S420000, .i32⟩ : BufTy).Contents (Elt F) :=
  select (val_main_v76 (F := F) x1) (val_main_v78 (F := F) x1) (val_main_v65 (F := F) x1)
def val_main_v80 (x1 : (⟨S2x320000, .i32⟩ : BufTy).Contents (Elt F)) : (⟨S420000x1, .i32⟩ : BufTy).Contents (Elt F) :=
  broadcastInDim S420000x1 ![0] bcast_S420000_S420000x1_0 (val_main_v79 (F := F) x1)
def val_main_v81 (x1 : (⟨S2x320000, .i32⟩ : BufTy).Contents (Elt F)) : (⟨S420000, .f32⟩ : BufTy).Contents (Elt F) :=
  Host.gather gather_S100000_S420000x1_S420000_n_0_n_n_0_1_1 (val_main_v74 (F := F) x1) (val_main_v80 (F := F) x1)

def val_main_c_16 : (⟨S_, .i32⟩ : BufTy).Contents (Elt F) :=
  constantI S_ 32 0#32
def val_main_v82 : (⟨S420000, .i32⟩ : BufTy).Contents (Elt F) :=
  broadcastInDim S420000 ![] bcast_S_S420000 (val_main_c_16 (F := F))
def val_main_v83 (x1 : (⟨S2x320000, .i32⟩ : BufTy).Contents (Elt F)) : (⟨S420000, .i1⟩ : BufTy).Contents (Elt F) :=
  cmpi .slt (val_main_v66 (F := F) x1) (val_main_v82 (F := F))
def val_main_c_17 : (⟨S_, .i32⟩ : BufTy).Contents (Elt F) :=
  constantI S_ 32 100000#32
def val_main_v84 : (⟨S420000, .i32⟩ : BufTy).Contents (Elt F) :=
  broadcastInDim S420000 ![] bcast_S_S420000 (val_main_c_17 (F := F))
def val_main_v85 (x1 : (⟨S2x320000, .i32⟩ : BufTy).Contents (Elt F)) : (⟨S420000, .i32⟩ : BufTy).Contents (Elt F) :=
  addi (val_main_v66 (F := F) x1) (val_main_v84 (F := F))
def val_main_v86 (x1 : (⟨S2x320000, .i32⟩ : BufTy).Contents (Elt F)) : (⟨S420000, .i32⟩ : BufTy).Contents (Elt F) :=
  select (val_main_v83 (F := F) x1) (val_main_v85 (F := F) x1) (val_main_v66 (F := F) x1)
def val_main_v87 (x1 : (⟨S2x320000, .i32⟩ : BufTy).Contents (Elt F)) : (⟨S420000x1, .i32⟩ : BufTy).Contents (Elt F) :=
  broadcastInDim S420000x1 ![0] bcast_S420000_S420000x1_0 (val_main_v86 (F := F) x1)
def val_main_v88 (x1 : (⟨S2x320000, .i32⟩ : BufTy).Contents (Elt F)) : (⟨S420000, .f32⟩ : BufTy).Contents (Elt F) :=
  Host.gather gather_S100000_S420000x1_S420000_n_0_n_n_0_1_1 (val_main_v74 (F := F) x1) (val_main_v87 (F := F) x1)

def val_main_v89 (x1 : (⟨S2x320000, .i32⟩ : BufTy).Contents (Elt F)) : (⟨S420000, .f32⟩ : BufTy).Contents (Elt F) :=
  mulf (val_main_v81 (F := F) x1) (val_main_v88 (F := F) x1)
def val_main_v90 (x1 : (⟨S2x320000, .i32⟩ : BufTy).Contents (Elt F)) : (⟨S420000x1, .f32⟩ : BufTy).Contents (Elt F) :=
  broadcastInDim S420000x1 ![0] bcast_S420000_S420000x1_0 (val_main_v89 (F := F) x1)
def val_main_c_18 : (⟨S_, .i32⟩ : BufTy).Contents (Elt F) :=
  constantI S_ 32 0#32
def val_main_v91 : (⟨S420000, .i32⟩ : BufTy).Contents (Elt F) :=
  broadcastInDim S420000 ![] bcast_S_S420000 (val_main_c_18 (F := F))
def val_main_v92 (x1 : (⟨S2x320000, .i32⟩ : BufTy).Contents (Elt F)) : (⟨S420000, .i1⟩ : BufTy).Contents (Elt F) :=
  cmpi .slt (val_main_v65 (F := F) x1) (val_main_v91 (F := F))
def val_main_c_19 : (⟨S_, .i32⟩ : BufTy).Contents (Elt F) :=
  constantI S_ 32 100000#32
def val_main_v93 : (⟨S420000, .i32⟩ : BufTy).Contents (Elt F) :=
  broadcastInDim S420000 ![] bcast_S_S420000 (val_main_c_19 (F := F))
def val_main_v94 (x1 : (⟨S2x320000, .i32⟩ : BufTy).Contents (Elt F)) : (⟨S420000, .i32⟩ : BufTy).Contents (Elt F) :=
  addi (val_main_v65 (F := F) x1) (val_main_v93 (F := F))
def val_main_v95 (x1 : (⟨S2x320000, .i32⟩ : BufTy).Contents (Elt F)) : (⟨S420000, .i32⟩ : BufTy).Contents (Elt F) :=
  select (val_main_v92 (F := F) x1) (val_main_v94 (F := F) x1) (val_main_v65 (F := F) x1)
def val_main_v96 (x1 : (⟨S2x320000, .i32⟩ : BufTy).Contents (Elt F)) : (⟨S420000x1, .i32⟩ : BufTy).Contents (Elt F) :=
  broadcastInDim S420000x1 ![0] bcast_S420000_S420000x1_0 (val_main_v95 (F := F) x1)
def val_main_v97 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x10 x11 x12 x13 : (⟨S256, .f32⟩ : BufTy).Contents (Elt F)) : (⟨S420000x256, .f32⟩ : BufTy).Contents (Elt F) :=
  Host.gather gather_S100000x256_S420000x1_S420000x256_1_0_n_n_0_1_1256 (val_main_v63 (F := F) x0 x1 x3 x4 x5 x10 x11 x12 x13) (val_main_v96 (F := F) x1)

def val_main_v98 (x1 : (⟨S2x320000, .i32⟩ : BufTy).Contents (Elt F)) : (⟨S420000x256, .f32⟩ : BufTy).Contents (Elt F) :=
  broadcastInDim S420000x256 ![0, 1] bcast_S420000x1_S420000x256_0_1 (val_main_v90 (F := F) x1)
def val_main_v99 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x10 x11 x12 x13 : (⟨S256, .f32⟩ : BufTy).Contents (Elt F)) : (⟨S420000x256, .f32⟩ : BufTy).Contents (Elt F) :=
  mulf (val_main_v98 (F := F) x1) (val_main_v97 (F := F) x0 x1 x3 x4 x5 x10 x11 x12 x13)
def val_main_cst_20 : (⟨S_, .f32⟩ : BufTy).Contents (Elt F) :=
  constant S_ .f32 0x00000000#32
def val_main_v100 : (⟨S100000x256, .f32⟩ : BufTy).Contents (Elt F) :=
  broadcastInDim S100000x256 ![] bcast_S_S100000x256 (val_main_cst_20 (F := F))
def val_main_v101 (x1 : (⟨S2x320000, .i32⟩ : BufTy).Contents (Elt F)) : (⟨S420000x1, .i32⟩ : BufTy).Contents (Elt F) :=
  broadcastInDim S420000x1 ![0] bcast_S420000_S420000x1_0 (val_main_v66 (F := F) x1)
def val_main_v102 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x10 x11 x12 x13 : (⟨S256, .f32⟩ : BufTy).Contents (Elt F)) : (⟨S100000x256, .f32⟩ : BufTy).Contents (Elt F) :=
  Host.scatterAdd scatter_S100000x256_S420000x1_S420000x256_1_0_0_1 (val_main_v100 (F := F)) (val_main_v101 (F := F) x1) (val_main_v99 (F := F) x0 x1 x3 x4 x5 x10 x11 x12 x13)

def val_main_v103 (x6 : (⟨S256, .f32⟩ : BufTy).Contents (Elt F)) : (⟨S1x256, .f32⟩ : BufTy).Contents (Elt F) :=
  broadcastInDim S1x256 ![1] bcast_S256_S1x256_1 (x6)
def val_main_v104 (x6 : (⟨S256, .f32⟩ : BufTy).Contents (Elt F)) : (⟨S100000x256, .f32⟩ : BufTy).Contents (Elt F) :=
  broadcastInDim S100000x256 ![0, 1] bcast_S1x256_S100000x256_0_1 (val_main_v103 (F := F) x6)
def val_main_v105 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 x10 x11 x12 x13 : (⟨S256, .f32⟩ : BufTy).Contents (Elt F)) : (⟨S100000x256, .f32⟩ : BufTy).Contents (Elt F) :=
  addf (val_main_v102 (F := F) x0 x1 x3 x4 x5 x10 x11 x12 x13) (val_main_v104 (F := F) x6)
def val_main_v106 (x16 : (⟨S256, .f32⟩ : BufTy).Contents (Elt F)) : (⟨S1x256, .f32⟩ : BufTy).Contents (Elt F) :=
  broadcastInDim S1x256 ![1] bcast_S256_S1x256_1 (x16)
def val_main_v107 (x16 : (⟨S256, .f32⟩ : BufTy).Contents (Elt F)) : (⟨S100000x256, .f32⟩ : BufTy).Contents (Elt F) :=
  broadcastInDim S100000x256 ![0, 1] bcast_S1x256_S100000x256_0_1 (val_main_v106 (F := F) x16)
def val_main_v108 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 x10 x11 x12 x13 x16 : (⟨S256, .f32⟩ : BufTy).Contents (Elt F)) : (⟨S100000x256, .f32⟩ : BufTy).Contents (Elt F) :=
  subf (val_main_v105 (F := F) x0 x1 x3 x4 x5 x6 x10 x11 x12 x13) (val_main_v107 (F := F) x16)
def val_main_cst_21 : (⟨S_, .f32⟩ : BufTy).Contents (Elt F) :=
  constant S_ .f32 0x3727C5AC#32
def val_main_v109 : (⟨S256, .f32⟩ : BufTy).Contents (Elt F) :=
  broadcastInDim S256 ![] bcast_S_S256 (val_main_cst_21 (F := F))
def val_main_v110 (x17 : (⟨S256, .f32⟩ : BufTy).Contents (Elt F)) : (⟨S256, .f32⟩ : BufTy).Contents (Elt F) :=
  addf (x17) (val_main_v109 (F := F))
def val_main_v111 (x17 : (⟨S256, .f32⟩ : BufTy).Contents (Elt F)) : (⟨S256, .f32⟩ : BufTy).Contents (Elt F) :=
  Host.rsqrt (val_main_v110 (F := F) x17)
def val_main_v112 (x17 : (⟨S256, .f32⟩ : BufTy).Contents (Elt F)) : (⟨S1x256, .f32⟩ : BufTy).Contents (Elt F) :=
  broadcastInDim S1x256 ![1] bcast_S256_S1x256_1 (val_main_v111 (F := F) x17)
def val_main_v113 (x17 : (⟨S256, .f32⟩ : BufTy).Contents (Elt F)) : (⟨S100000x256, .f32⟩ : BufTy).Contents (Elt F) :=
  broadcastInDim S100000x256 ![0, 1] bcast_S1x256_S100000x256_0_1 (val_main_v112 (F := F) x17)
def val_main_v114 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 x10 x11 x12 x13 x16 x17 : (⟨S256, .f32⟩ : BufTy).Contents (Elt F)) : (⟨S100000x256, .f32⟩ : BufTy).Contents (Elt F) :=
  mulf (val_main_v108 (F := F) x0 x1 x3 x4 x5 x6 x10 x11 x12 x13 x16) (val_main_v113 (F := F) x17)
def val_main_v115 (x14 : (⟨S256, .f32⟩ : BufTy).Contents (Elt F)) : (⟨S1x256, .f32⟩ : BufTy).Contents (Elt F) :=
  broadcastInDim S1x256 ![1] bcast_S256_S1x256_1 (x14)
def val_main_v116 (x14 : (⟨S256, .f32⟩ : BufTy).Contents (Elt F)) : (⟨S100000x256, .f32⟩ : BufTy).Contents (Elt F) :=
  broadcastInDim S100000x256 ![0, 1] bcast_S1x256_S100000x256_0_1 (val_main_v115 (F := F) x14)
def val_main_v117 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 x10 x11 x12 x13 x14 x16 x17 : (⟨S256, .f32⟩ : BufTy).Contents (Elt F)) : (⟨S100000x256, .f32⟩ : BufTy).Contents (Elt F) :=
  mulf (val_main_v114 (F := F) x0 x1 x3 x4 x5 x6 x10 x11 x12 x13 x16 x17) (val_main_v116 (F := F) x14)
def val_main_v118 (x15 : (⟨S256, .f32⟩ : BufTy).Contents (Elt F)) : (⟨S1x256, .f32⟩ : BufTy).Contents (Elt F) :=
  broadcastInDim S1x256 ![1] bcast_S256_S1x256_1 (x15)
def val_main_v119 (x15 : (⟨S256, .f32⟩ : BufTy).Contents (Elt F)) : (⟨S100000x256, .f32⟩ : BufTy).Contents (Elt F) :=
  broadcastInDim S100000x256 ![0, 1] bcast_S1x256_S100000x256_0_1 (val_main_v118 (F := F) x15)
def val_main_v120 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 x10 x11 x12 x13 x14 x15 x16 x17 : (⟨S256, .f32⟩ : BufTy).Contents (Elt F)) : (⟨S100000x256, .f32⟩ : BufTy).Contents (Elt F) :=
  addf (val_main_v117 (F := F) x0 x1 x3 x4 x5 x6 x10 x11 x12 x13 x14 x16 x17) (val_main_v119 (F := F) x15)
def val_main_call3_cst : (⟨S_, .f32⟩ : BufTy).Contents (Elt F) :=
  constant S_ .f32 0x00000000#32
def val_main_call3_v0 : (⟨S100000x256, .f32⟩ : BufTy).Contents (Elt F) :=
  broadcastInDim S100000x256 ![] bcast_S_S100000x256 (val_main_call3_cst (F := F))
def val_main_v121 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 x10 x11 x12 x13 x14 x15 x16 x17 : (⟨S256, .f32⟩ : BufTy).Contents (Elt F)) : (⟨S100000x256, .f32⟩ : BufTy).Contents (Elt F) :=
  maximumf (val_main_v120 (F := F) x0 x1 x3 x4 x5 x6 x10 x11 x12 x13 x14 x15 x16 x17) (val_main_call3_v0 (F := F))
def val_main_v122 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x10 x11 x12 x13 x14 x15 x16 x17 : (⟨S256, .f32⟩ : BufTy).Contents (Elt F)) : (⟨S100000x256, .f32⟩ : BufTy).Contents (Elt F) :=
  Host.dotGeneral dot_S100000x256_S256x256_S100000x256_1_0_0_1_n_n none (val_main_v121 (F := F) x0 x1 x3 x4 x5 x6 x10 x11 x12 x13 x14 x15 x16 x17) (x7)
def val_main_v123 : (⟨S100000, .i32⟩ : BufTy).Contents (Elt F) :=
  iotaInDim S100000 32 0
def val_main_v124 (x1 : (⟨S2x320000, .i32⟩ : BufTy).Contents (Elt F)) : (⟨S420000, .i32⟩ : BufTy).Contents (Elt F) :=
  concatenate S420000 0 [⟨S320000, (val_main_v1 (F := F) x1)⟩, ⟨S100000, (val_main_v123 (F := F))⟩] concatenates_S320000_S100000_S420000_d0

def val_main_v125 (x1 : (⟨S2x320000, .i32⟩ : BufTy).Contents (Elt F)) : (⟨S420000, .i32⟩ : BufTy).Contents (Elt F) :=
  concatenate S420000 0 [⟨S320000, (val_main_v3 (F := F) x1)⟩, ⟨S100000, (val_main_v123 (F := F))⟩] concatenates_S320000_S100000_S420000_d0

def val_main_cst_22 : (⟨S_, .f32⟩ : BufTy).Contents (Elt F) :=
  constant S_ .f32 0x3F800000#32
def val_main_v126 : (⟨S420000, .f32⟩ : BufTy).Contents (Elt F) :=
  broadcastInDim S420000 ![] bcast_S_S420000 (val_main_cst_22 (F := F))
def val_main_cst_23 : (⟨S_, .f32⟩ : BufTy).Contents (Elt F) :=
  constant S_ .f32 0x00000000#32
def val_main_v127 : (⟨S100000, .f32⟩ : BufTy).Contents (Elt F) :=
  broadcastInDim S100000 ![] bcast_S_S100000 (val_main_cst_23 (F := F))
def val_main_v128 (x1 : (⟨S2x320000, .i32⟩ : BufTy).Contents (Elt F)) : (⟨S420000x1, .i32⟩ : BufTy).Contents (Elt F) :=
  broadcastInDim S420000x1 ![0] bcast_S420000_S420000x1_0 (val_main_v125 (F := F) x1)
def val_main_v129 (x1 : (⟨S2x320000, .i32⟩ : BufTy).Contents (Elt F)) : (⟨S100000, .f32⟩ : BufTy).Contents (Elt F) :=
  Host.scatterAdd scatter_S100000_S420000x1_S420000_n_0_0_1 (val_main_v127 (F := F)) (val_main_v128 (F := F) x1) (val_main_v126 (F := F))

def val_main_cst_24 : (⟨S_, .f32⟩ : BufTy).Contents (Elt F) :=
  constant S_ .f32 0x00000000#32
def val_main_v130 : (⟨S100000, .f32⟩ : BufTy).Contents (Elt F) :=
  broadcastInDim S100000 ![] bcast_S_S100000 (val_main_cst_24 (F := F))
def val_main_v131 (x1 : (⟨S2x320000, .i32⟩ : BufTy).Contents (Elt F)) : (⟨S100000, .i1⟩ : BufTy).Contents (Elt F) :=
  cmpf (F := F) .ogt (val_main_v129 (F := F) x1) (val_main_v130 (F := F))
def val_main_v132 (x1 : (⟨S2x320000, .i32⟩ : BufTy).Contents (Elt F)) : (⟨S100000, .f32⟩ : BufTy).Contents (Elt F) :=
  Host.rsqrt (val_main_v129 (F := F) x1)
def val_main_cst_25 : (⟨S_, .f32⟩ : BufTy).Contents (Elt F) :=
  constant S_ .f32 0x00000000#32
def val_main_call4_v0 : (⟨S_, .f32⟩ : BufTy).Contents (Elt F) :=
  id (val_main_cst_25 (F := F))
def val_main_call4_v1 : (⟨S100000, .f32⟩ : BufTy).Contents (Elt F) :=
  broadcastInDim S100000 ![] bcast_S_S100000 (val_main_call4_v0 (F := F))
def val_main_v133 (x1 : (⟨S2x320000, .i32⟩ : BufTy).Contents (Elt F)) : (⟨S100000, .f32⟩ : BufTy).Contents (Elt F) :=
  select (val_main_v131 (F := F) x1) (val_main_v132 (F := F) x1) (val_main_call4_v1 (F := F))
def val_main_c_26 : (⟨S_, .i32⟩ : BufTy).Contents (Elt F) :=
  constantI S_ 32 0#32
def val_main_v134 : (⟨S420000, .i32⟩ : BufTy).Contents (Elt F) :=
  broadcastInDim S420000 ![] bcast_S_S420000 (val_main_c_26 (F := F))
def val_main_v135 (x1 : (⟨S2x320000, .i32⟩ : BufTy).Contents (Elt F)) : (⟨S420000, .i1⟩ : BufTy).Contents (Elt F) :=
  cmpi .slt (val_main_v124 (F := F) x1) (val_main_v134 (F := F))
def val_main_c_27 : (⟨S_, .i32⟩ : BufTy).Contents (Elt F) :=
  constantI S_ 32 100000#32
def val_main_v136 : (⟨S420000, .i32⟩ : BufTy).Contents (Elt F) :=
  broadcastInDim S420000 ![] bcast_S_S420000 (val_main_c_27 (F := F))
def val_main_v137 (x1 : (⟨S2x320000, .i32⟩ : BufTy).Contents (Elt F)) : (⟨S420000, .i32⟩ : BufTy).Contents (Elt F) :=
  addi (val_main_v124 (F := F) x1) (val_main_v136 (F := F))
def val_main_v138 (x1 : (⟨S2x320000, .i32⟩ : BufTy).Contents (Elt F)) : (⟨S420000, .i32⟩ : BufTy).Contents (Elt F) :=
  select (val_main_v135 (F := F) x1) (val_main_v137 (F := F) x1) (val_main_v124 (F := F) x1)
def val_main_v139 (x1 : (⟨S2x320000, .i32⟩ : BufTy).Contents (Elt F)) : (⟨S420000x1, .i32⟩ : BufTy).Contents (Elt F) :=
  broadcastInDim S420000x1 ![0] bcast_S420000_S420000x1_0 (val_main_v138 (F := F) x1)
def val_main_v140 (x1 : (⟨S2x320000, .i32⟩ : BufTy).Contents (Elt F)) : (⟨S420000, .f32⟩ : BufTy).Contents (Elt F) :=
  Host.gather gather_S100000_S420000x1_S420000_n_0_n_n_0_1_1 (val_main_v133 (F := F) x1) (val_main_v139 (F := F) x1)

def val_main_c_28 : (⟨S_, .i32⟩ : BufTy).Contents (Elt F) :=
  constantI S_ 32 0#32
def val_main_v141 : (⟨S420000, .i32⟩ : BufTy).Contents (Elt F) :=
  broadcastInDim S420000 ![] bcast_S_S420000 (val_main_c_28 (F := F))
def val_main_v142 (x1 : (⟨S2x320000, .i32⟩ : BufTy).Contents (Elt F)) : (⟨S420000, .i1⟩ : BufTy).Contents (Elt F) :=
  cmpi .slt (val_main_v125 (F := F) x1) (val_main_v141 (F := F))
def val_main_c_29 : (⟨S_, .i32⟩ : BufTy).Contents (Elt F) :=
  constantI S_ 32 100000#32
def val_main_v143 : (⟨S420000, .i32⟩ : BufTy).Contents (Elt F) :=
  broadcastInDim S420000 ![] bcast_S_S420000 (val_main_c_29 (F := F))
def val_main_v144 (x1 : (⟨S2x320000, .i32⟩ : BufTy).Contents (Elt F)) : (⟨S420000, .i32⟩ : BufTy).Contents (Elt F) :=
  addi (val_main_v125 (F := F) x1) (val_main_v143 (F := F))
def val_main_v145 (x1 : (⟨S2x320000, .i32⟩ : BufTy).Contents (Elt F)) : (⟨S420000, .i32⟩ : BufTy).Contents (Elt F) :=
  select (val_main_v142 (F := F) x1) (val_main_v144 (F := F) x1) (val_main_v125 (F := F) x1)
def val_main_v146 (x1 : (⟨S2x320000, .i32⟩ : BufTy).Contents (Elt F)) : (⟨S420000x1, .i32⟩ : BufTy).Contents (Elt F) :=
  broadcastInDim S420000x1 ![0] bcast_S420000_S420000x1_0 (val_main_v145 (F := F) x1)
def val_main_v147 (x1 : (⟨S2x320000, .i32⟩ : BufTy).Contents (Elt F)) : (⟨S420000, .f32⟩ : BufTy).Contents (Elt F) :=
  Host.gather gather_S100000_S420000x1_S420000_n_0_n_n_0_1_1 (val_main_v133 (F := F) x1) (val_main_v146 (F := F) x1)

def val_main_v148 (x1 : (⟨S2x320000, .i32⟩ : BufTy).Contents (Elt F)) : (⟨S420000, .f32⟩ : BufTy).Contents (Elt F) :=
  mulf (val_main_v140 (F := F) x1) (val_main_v147 (F := F) x1)
def val_main_v149 (x1 : (⟨S2x320000, .i32⟩ : BufTy).Contents (Elt F)) : (⟨S420000x1, .f32⟩ : BufTy).Contents (Elt F) :=
  broadcastInDim S420000x1 ![0] bcast_S420000_S420000x1_0 (val_main_v148 (F := F) x1)
def val_main_c_30 : (⟨S_, .i32⟩ : BufTy).Contents (Elt F) :=
  constantI S_ 32 0#32
def val_main_v150 : (⟨S420000, .i32⟩ : BufTy).Contents (Elt F) :=
  broadcastInDim S420000 ![] bcast_S_S420000 (val_main_c_30 (F := F))
def val_main_v151 (x1 : (⟨S2x320000, .i32⟩ : BufTy).Contents (Elt F)) : (⟨S420000, .i1⟩ : BufTy).Contents (Elt F) :=
  cmpi .slt (val_main_v124 (F := F) x1) (val_main_v150 (F := F))
def val_main_c_31 : (⟨S_, .i32⟩ : BufTy).Contents (Elt F) :=
  constantI S_ 32 100000#32
def val_main_v152 : (⟨S420000, .i32⟩ : BufTy).Contents (Elt F) :=
  broadcastInDim S420000 ![] bcast_S_S420000 (val_main_c_31 (F := F))
def val_main_v153 (x1 : (⟨S2x320000, .i32⟩ : BufTy).Contents (Elt F)) : (⟨S420000, .i32⟩ : BufTy).Contents (Elt F) :=
  addi (val_main_v124 (F := F) x1) (val_main_v152 (F := F))
def val_main_v154 (x1 : (⟨S2x320000, .i32⟩ : BufTy).Contents (Elt F)) : (⟨S420000, .i32⟩ : BufTy).Contents (Elt F) :=
  select (val_main_v151 (F := F) x1) (val_main_v153 (F := F) x1) (val_main_v124 (F := F) x1)
def val_main_v155 (x1 : (⟨S2x320000, .i32⟩ : BufTy).Contents (Elt F)) : (⟨S420000x1, .i32⟩ : BufTy).Contents (Elt F) :=
  broadcastInDim S420000x1 ![0] bcast_S420000_S420000x1_0 (val_main_v154 (F := F) x1)
def val_main_v156 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x10 x11 x12 x13 x14 x15 x16 x17 : (⟨S256, .f32⟩ : BufTy).Contents (Elt F)) : (⟨S420000x256, .f32⟩ : BufTy).Contents (Elt F) :=
  Host.gather gather_S100000x256_S420000x1_S420000x256_1_0_n_n_0_1_1256 (val_main_v122 (F := F) x0 x1 x3 x4 x5 x6 x7 x10 x11 x12 x13 x14 x15 x16 x17) (val_main_v155 (F := F) x1)

def val_main_v157 (x1 : (⟨S2x320000, .i32⟩ : BufTy).Contents (Elt F)) : (⟨S420000x256, .f32⟩ : BufTy).Contents (Elt F) :=
  broadcastInDim S420000x256 ![0, 1] bcast_S420000x1_S420000x256_0_1 (val_main_v149 (F := F) x1)
def val_main_v158 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x10 x11 x12 x13 x14 x15 x16 x17 : (⟨S256, .f32⟩ : BufTy).Contents (Elt F)) : (⟨S420000x256, .f32⟩ : BufTy).Contents (Elt F) :=
  mulf (val_main_v157 (F := F) x1) (val_main_v156 (F := F) x0 x1 x3 x4 x5 x6 x7 x10 x11 x12 x13 x14 x15 x16 x17)
def val_main_cst_32 : (⟨S_, .f32⟩ : BufTy).Contents (Elt F) :=
  constant S_ .f32 0x00000000#32
def val_main_v159 : (⟨S100000x256, .f32⟩ : BufTy).Contents (Elt F) :=
  broadcastInDim S100000x256 ![] bcast_S_S100000x256 (val_main_cst_32 (F := F))
def val_main_v160 (x1 : (⟨S2x320000, .i32⟩ : BufTy).Contents (Elt F)) : (⟨S420000x1, .i32⟩ : BufTy).Contents (Elt F) :=
  broadcastInDim S420000x1 ![0] bcast_S420000_S420000x1_0 (val_main_v125 (F := F) x1)
def val_main_v161 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x10 x11 x12 x13 x14 x15 x16 x17 : (⟨S256, .f32⟩ : BufTy).Contents (Elt F)) : (⟨S100000x256, .f32⟩ : BufTy).Contents (Elt F) :=
  Host.scatterAdd scatter_S100000x256_S420000x1_S420000x256_1_0_0_1 (val_main_v159 (F := F)) (val_main_v160 (F := F) x1) (val_main_v158 (F := F) x0 x1 x3 x4 x5 x6 x7 x10 x11 x12 x13 x14 x15 x16 x17)

def val_main_v162 (x8 : (⟨S256, .f32⟩ : BufTy).Contents (Elt F)) : (⟨S1x256, .f32⟩ : BufTy).Contents (Elt F) :=
  broadcastInDim S1x256 ![1] bcast_S256_S1x256_1 (x8)
def val_main_v163 (x8 : (⟨S256, .f32⟩ : BufTy).Contents (Elt F)) : (⟨S100000x256, .f32⟩ : BufTy).Contents (Elt F) :=
  broadcastInDim S100000x256 ![0, 1] bcast_S1x256_S100000x256_0_1 (val_main_v162 (F := F) x8)
def val_main_v164 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 : (⟨S256, .f32⟩ : BufTy).Contents (Elt F)) : (⟨S100000x256, .f32⟩ : BufTy).Contents (Elt F) :=
  addf (val_main_v161 (F := F) x0 x1 x3 x4 x5 x6 x7 x10 x11 x12 x13 x14 x15 x16 x17) (val_main_v163 (F := F) x8)
def val_main_v165 (x20 : (⟨S256, .f32⟩ : BufTy).Contents (Elt F)) : (⟨S1x256, .f32⟩ : BufTy).Contents (Elt F) :=
  broadcastInDim S1x256 ![1] bcast_S256_S1x256_1 (x20)
def val_main_v166 (x20 : (⟨S256, .f32⟩ : BufTy).Contents (Elt F)) : (⟨S100000x256, .f32⟩ : BufTy).Contents (Elt F) :=
  broadcastInDim S100000x256 ![0, 1] bcast_S1x256_S100000x256_0_1 (val_main_v165 (F := F) x20)
def val_main_v167 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x20 : (⟨S256, .f32⟩ : BufTy).Contents (Elt F)) : (⟨S100000x256, .f32⟩ : BufTy).Contents (Elt F) :=
  subf (val_main_v164 (F := F) x0 x1 x3 x4 x5 x6 x7 x8 x10 x11 x12 x13 x14 x15 x16 x17) (val_main_v166 (F := F) x20)
def val_main_cst_33 : (⟨S_, .f32⟩ : BufTy).Contents (Elt F) :=
  constant S_ .f32 0x3727C5AC#32
def val_main_v168 : (⟨S256, .f32⟩ : BufTy).Contents (Elt F) :=
  broadcastInDim S256 ![] bcast_S_S256 (val_main_cst_33 (F := F))
def val_main_v169 (x21 : (⟨S256, .f32⟩ : BufTy).Contents (Elt F)) : (⟨S256, .f32⟩ : BufTy).Contents (Elt F) :=
  addf (x21) (val_main_v168 (F := F))
def val_main_v170 (x21 : (⟨S256, .f32⟩ : BufTy).Contents (Elt F)) : (⟨S256, .f32⟩ : BufTy).Contents (Elt F) :=
  Host.rsqrt (val_main_v169 (F := F) x21)
def val_main_v171 (x21 : (⟨S256, .f32⟩ : BufTy).Contents (Elt F)) : (⟨S1x256, .f32⟩ : BufTy).Contents (Elt F) :=
  broadcastInDim S1x256 ![1] bcast_S256_S1x256_1 (val_main_v170 (F := F) x21)
def val_main_v172 (x21 : (⟨S256, .f32⟩ : BufTy).Contents (Elt F)) : (⟨S100000x256, .f32⟩ : BufTy).Contents (Elt F) :=
  broadcastInDim S100000x256 ![0, 1] bcast_S1x256_S100000x256_0_1 (val_main_v171 (F := F) x21)
def val_main_v173 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x20 x21 : (⟨S256, .f32⟩ : BufTy).Contents (Elt F)) : (⟨S100000x256, .f32⟩ : BufTy).Contents (Elt F) :=
  mulf (val_main_v167 (F := F) x0 x1 x3 x4 x5 x6 x7 x8 x10 x11 x12 x13 x14 x15 x16 x17 x20) (val_main_v172 (F := F) x21)
def val_main_v174 (x18 : (⟨S256, .f32⟩ : BufTy).Contents (Elt F)) : (⟨S1x256, .f32⟩ : BufTy).Contents (Elt F) :=
  broadcastInDim S1x256 ![1] bcast_S256_S1x256_1 (x18)
def val_main_v175 (x18 : (⟨S256, .f32⟩ : BufTy).Contents (Elt F)) : (⟨S100000x256, .f32⟩ : BufTy).Contents (Elt F) :=
  broadcastInDim S100000x256 ![0, 1] bcast_S1x256_S100000x256_0_1 (val_main_v174 (F := F) x18)
def val_main_v176 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x20 x21 : (⟨S256, .f32⟩ : BufTy).Contents (Elt F)) : (⟨S100000x256, .f32⟩ : BufTy).Contents (Elt F) :=
  mulf (val_main_v173 (F := F) x0 x1 x3 x4 x5 x6 x7 x8 x10 x11 x12 x13 x14 x15 x16 x17 x20 x21) (val_main_v175 (F := F) x18)
def val_main_v177 (x19 : (⟨S256, .f32⟩ : BufTy).Contents (Elt F)) : (⟨S1x256, .f32⟩ : BufTy).Contents (Elt F) :=
  broadcastInDim S1x256 ![1] bcast_S256_S1x256_1 (x19)
def val_main_v178 (x19 : (⟨S256, .f32⟩ : BufTy).Contents (Elt F)) : (⟨S100000x256, .f32⟩ : BufTy).Contents (Elt F) :=
  broadcastInDim S100000x256 ![0, 1] bcast_S1x256_S100000x256_0_1 (val_main_v177 (F := F) x19)
def val_main_v179 (x0 : (⟨S100000x256, .f32⟩ : BufTy).Contents (Elt F)) (x1 : (⟨S2x320000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x19 x20 x21 : (⟨S256, .f32⟩ : BufTy).Contents (Elt F)) : (⟨S100000x256, .f32⟩ : BufTy).Contents (Elt F) :=
  addf (val_main_v176 (F := F) x0 x1 x3 x4 x5 x6 x7 x8 x10 x11 x12 x13 x14 x15 x16 x17 x18 x20 x21) (val_main_v178 (F := F) x19)
def val_main_cst_34 : (⟨S_, .f32⟩ : BufTy).Contents (Elt F) :=
  constant S_ .f32 0x00000000#32
def val_main_v180 : (⟨S256x256, .f32⟩ : BufTy).Contents (Elt F) :=
  broadcastInDim S256x256 ![] bcast_S_S256x256 (val_main_cst_34 (F := F))
def val_main_v181 (x2 : (⟨S100000, .i32⟩ : BufTy).Contents (Elt F)) : (⟨S100000x1, .i32⟩ : BufTy).Contents (Elt F) :=
  broadcastInDim S100000x1 ![0] bcast_S100000_S100000x1_0 (x2)
def val_main_v182 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x19 x20 x21 : (⟨S256, .f32⟩ : BufTy).Contents (Elt F)) : (⟨S256x256, .f32⟩ : BufTy).Contents (Elt F) :=
  Host.scatterAdd scatter_S256x256_S100000x1_S100000x256_1_0_0_1 (val_main_v180 (F := F)) (val_main_v181 (F := F) x2) (val_main_v179 (F := F) x0 x1 x3 x4 x5 x6 x7 x8 x10 x11 x12 x13 x14 x15 x16 x17 x18 x19 x20 x21)

def val_main_cst_35 : (⟨S_, .f32⟩ : BufTy).Contents (Elt F) :=
  constant S_ .f32 0x3F800000#32
def val_main_v183 : (⟨S100000, .f32⟩ : BufTy).Contents (Elt F) :=
  broadcastInDim S100000 ![] bcast_S_S100000 (val_main_cst_35 (F := F))
def val_main_cst_36 : (⟨S_, .f32⟩ : BufTy).Contents (Elt F) :=
  constant S_ .f32 0x00000000#32
def val_main_v184 : (⟨S256, .f32⟩ : BufTy).Contents (Elt F) :=
  broadcastInDim S256 ![] bcast_S_S256 (val_main_cst_36 (F := F))
def val_main_v185 (x2 : (⟨S100000, .i32⟩ : BufTy).Contents (Elt F)) : (⟨S100000x1, .i32⟩ : BufTy).Contents (Elt F) :=
  broadcastInDim S100000x1 ![0] bcast_S100000_S100000x1_0 (x2)
def val_main_v186 (x2 : (⟨S100000, .i32⟩ : BufTy).Contents (Elt F)) : (⟨S256, .f32⟩ : BufTy).Contents (Elt F) :=
  Host.scatterAdd scatter_S256_S100000x1_S100000_n_0_0_1 (val_main_v184 (F := F)) (val_main_v185 (F := F) x2) (val_main_v183 (F := F))

def val_main_cst_37 : (⟨S_, .f32⟩ : BufTy).Contents (Elt F) :=
  constant S_ .f32 0x3F800000#32
def val_main_v187 : (⟨S256, .f32⟩ : BufTy).Contents (Elt F) :=
  broadcastInDim S256 ![] bcast_S_S256 (val_main_cst_37 (F := F))
def val_main_v188 (x2 : (⟨S100000, .i32⟩ : BufTy).Contents (Elt F)) : (⟨S256, .f32⟩ : BufTy).Contents (Elt F) :=
  maximumf (val_main_v186 (F := F) x2) (val_main_v187 (F := F))
def val_main_v189 (x2 : (⟨S100000, .i32⟩ : BufTy).Contents (Elt F)) : (⟨S256x1, .f32⟩ : BufTy).Contents (Elt F) :=
  broadcastInDim S256x1 ![0] bcast_S256_S256x1_0 (val_main_v188 (F := F) x2)
def val_main_v190 (x2 : (⟨S100000, .i32⟩ : BufTy).Contents (Elt F)) : (⟨S256x256, .f32⟩ : BufTy).Contents (Elt F) :=
  broadcastInDim S256x256 ![0, 1] bcast_S256x1_S256x256_0_1 (val_main_v189 (F := F) x2)
def val_main_v191 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x19 x20 x21 : (⟨S256, .f32⟩ : BufTy).Contents (Elt F)) : (⟨S256x256, .f32⟩ : BufTy).Contents (Elt F) :=
  Host.divf (val_main_v182 (F := F) x0 x1 x2 x3 x4 x5 x6 x7 x8 x10 x11 x12 x13 x14 x15 x16 x17 x18 x19 x20 x21) (val_main_v190 (F := F) x2)
def val_main_v192 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x19 x20 x21 : (⟨S256, .f32⟩ : BufTy).Contents (Elt F)) : (⟨S256x256, .f32⟩ : BufTy).Contents (Elt F) :=
  mulf (val_main_v191 (F := F) x0 x1 x2 x3 x4 x5 x6 x7 x8 x10 x11 x12 x13 x14 x15 x16 x17 x18 x19 x20 x21) (val_main_v191 (F := F) x0 x1 x2 x3 x4 x5 x6 x7 x8 x10 x11 x12 x13 x14 x15 x16 x17 x18 x19 x20 x21)
def val_main_cst_38 : (⟨S_, .f32⟩ : BufTy).Contents (Elt F) :=
  constant S_ .f32 0x00000000#32
def val_main_v193 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x19 x20 x21 : (⟨S256, .f32⟩ : BufTy).Contents (Elt F)) : (⟨S256, .f32⟩ : BufTy).Contents (Elt F) :=
  Host.reduceAdd (val_main_v192 (F := F) x0 x1 x2 x3 x4 x5 x6 x7 x8 x10 x11 x12 x13 x14 x15 x16 x17 x18 x19 x20 x21) (val_main_cst_38 (F := F)) reducesTo_S256x256_S256_d1 h_S_
def val_main_v194 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x19 x20 x21 : (⟨S256, .f32⟩ : BufTy).Contents (Elt F)) : (⟨S256x1, .f32⟩ : BufTy).Contents (Elt F) :=
  broadcastInDim S256x1 ![0] bcast_S256_S256x1_0 (val_main_v193 (F := F) x0 x1 x2 x3 x4 x5 x6 x7 x8 x10 x11 x12 x13 x14 x15 x16 x17 x18 x19 x20 x21)
def val_main_v195 (x9 : (⟨S96x256, .f32⟩ : BufTy).Contents (Elt F)) : (⟨S96x256, .f32⟩ : BufTy).Contents (Elt F) :=
  mulf (x9) (x9)
def val_main_cst_39 : (⟨S_, .f32⟩ : BufTy).Contents (Elt F) :=
  constant S_ .f32 0x00000000#32
def val_main_v196 (x9 : (⟨S96x256, .f32⟩ : BufTy).Contents (Elt F)) : (⟨S96, .f32⟩ : BufTy).Contents (Elt F) :=
  Host.reduceAdd (val_main_v195 (F := F) x9) (val_main_cst_39 (F := F)) reducesTo_S96x256_S96_d1 h_S_
def val_main_v197 (x9 : (⟨S96x256, .f32⟩ : BufTy).Contents (Elt F)) : (⟨S1x96, .f32⟩ : BufTy).Contents (Elt F) :=
  broadcastInDim S1x96 ![1] bcast_S96_S1x96_1 (val_main_v196 (F := F) x9)
def val_main_v198 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x19 x20 x21 : (⟨S256, .f32⟩ : BufTy).Contents (Elt F)) : (⟨S256x96, .f32⟩ : BufTy).Contents (Elt F) :=
  broadcastInDim S256x96 ![0, 1] bcast_S256x1_S256x96_0_1 (val_main_v194 (F := F) x0 x1 x2 x3 x4 x5 x6 x7 x8 x10 x11 x12 x13 x14 x15 x16 x17 x18 x19 x20 x21)
def val_main_v199 (x9 : (⟨S96x256, .f32⟩ : BufTy).Contents (Elt F)) : (⟨S256x96, .f32⟩ : BufTy).Contents (Elt F) :=
  broadcastInDim S256x96 ![0, 1] bcast_S1x96_S256x96_0_1 (val_main_v197 (F := F) x9)
def val_main_v200 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S96x256, .f32⟩ : BufTy).Contents (Elt F)) (x10 x11 x12 x13 x14 x15 x16 x17 x18 x19 x20 x21 : (⟨S256, .f32⟩ : BufTy).Contents (Elt F)) : (⟨S256x96, .f32⟩ : BufTy).Contents (Elt F) :=
  addf (val_main_v198 (F := F) x0 x1 x2 x3 x4 x5 x6 x7 x8 x10 x11 x12 x13 x14 x15 x16 x17 x18 x19 x20 x21) (val_main_v199 (F := F) x9)
def val_main_cst_40 : (⟨S_, .f32⟩ : BufTy).Contents (Elt F) :=
  constant S_ .f32 0x40000000#32
def val_main_v201 : (⟨S256x256, .f32⟩ : BufTy).Contents (Elt F) :=
  broadcastInDim S256x256 ![] bcast_S_S256x256 (val_main_cst_40 (F := F))
def val_main_v202 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 x10 x11 x12 x13 x14 x15 x16 x17 x18 x19 x20 x21 : (⟨S256, .f32⟩ : BufTy).Contents (Elt F)) : (⟨S256x256, .f32⟩ : BufTy).Contents (Elt F) :=
  mulf (val_main_v201 (F := F)) (val_main_v191 (F := F) x0 x1 x2 x3 x4 x5 x6 x7 x8 x10 x11 x12 x13 x14 x15 x16 x17 x18 x19 x20 x21)
def val_main_v203 (x9 : (⟨S96x256, .f32⟩ : BufTy).Contents (Elt F)) : (⟨S256x96, .f32⟩ : BufTy).Contents (Elt F) :=
  transpose S256x96 [1, 0] (x9) transposes_S96x256_S256x96_1_0
def val_main_v204 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S96x256, .f32⟩ : BufTy).Contents (Elt F)) (x10 x11 x12 x13 x14 x15 x16 x17 x18 x19 x20 x21 : (⟨S256, .f32⟩ : BufTy).Contents (Elt F)) : (⟨S256x96, .f32⟩ : BufTy).Contents (Elt F) :=
  Host.dotGeneral dot_S256x256_S256x96_S256x96_1_0_0_1_n_n none (val_main_v202 (F := F) x0 x1 x2 x3 x4 x5 x6 x7 x8 x10 x11 x12 x13 x14 x15 x16 x17 x18 x19 x20 x21) (val_main_v203 (F := F) x9)
def val_main_v205 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S96x256, .f32⟩ : BufTy).Contents (Elt F)) (x10 x11 x12 x13 x14 x15 x16 x17 x18 x19 x20 x21 : (⟨S256, .f32⟩ : BufTy).Contents (Elt F)) : (⟨S256x96, .f32⟩ : BufTy).Contents (Elt F) :=
  subf (val_main_v200 (F := F) x0 x1 x2 x3 x4 x5 x6 x7 x8 x9 x10 x11 x12 x13 x14 x15 x16 x17 x18 x19 x20 x21) (val_main_v204 (F := F) x0 x1 x2 x3 x4 x5 x6 x7 x8 x9 x10 x11 x12 x13 x14 x15 x16 x17 x18 x19 x20 x21)
def val_main_v206 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S96x256, .f32⟩ : BufTy).Contents (Elt F)) (x10 x11 x12 x13 x14 x15 x16 x17 x18 x19 x20 x21 : (⟨S256, .f32⟩ : BufTy).Contents (Elt F)) : (⟨S256x32x3, .f32⟩ : BufTy).Contents (Elt F) :=
  shapeCast _ (val_main_v205 (F := F) x0 x1 x2 x3 x4 x5 x6 x7 x8 x9 x10 x11 x12 x13 x14 x15 x16 x17 x18 x19 x20 x21) shapeCasts_S256x96_S256x32x3
def val_main_cst_41 : (⟨S_, .f32⟩ : BufTy).Contents (Elt F) :=
  constant S_ .f32 0x7F800000#32
def val_main_v207 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S96x256, .f32⟩ : BufTy).Contents (Elt F)) (x10 x11 x12 x13 x14 x15 x16 x17 x18 x19 x20 x21 : (⟨S256, .f32⟩ : BufTy).Contents (Elt F)) : (⟨S256x32, .f32⟩ : BufTy).Contents (Elt F) :=
  Host.reduce FloatOps.minimumf (val_main_v206 (F := F) x0 x1 x2 x3 x4 x5 x6 x7 x8 x9 x10 x11 x12 x13 x14 x15 x16 x17 x18 x19 x20 x21) (val_main_cst_41 (F := F)) reducesTo_S256x32x3_S256x32_d2 h_S_

def val_main_v208 (x0 : (⟨S100000x256, .f32⟩ : BufTy).Contents (Elt F)) (x1 : (⟨S2x320000, .i32⟩ : BufTy).Contents (Elt F)) (x2 : (⟨S100000, .i32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x256, .f32⟩ : BufTy).Contents (Elt F)) (x8 : (⟨S256, .f32⟩ : BufTy).Contents (Elt F)) (x9 : (⟨S96x256, .f32⟩ : BufTy).Contents (Elt F)) (x10 x11 x12 x13 x14 x15 x16 x17 x18 x19 x20 x21 : (⟨S256, .f32⟩ : BufTy).Contents (Elt F)) : (⟨S256x32, .f32⟩ : BufTy).Contents (Elt F) :=
  Host.negf (val_main_v207 (F := F) x0 x1 x2 x3 x4 x5 x6 x7 x8 x9 x10 x11 x12 x13 x14 x15 x16 x17 x18 x19 x20 x21)
theorem val_main_v208_eq (m : (ℓ : Loc nD τ sig) → Buf (Elt F) ℓ) (c : Dev nD) :
    Cert.ReferenceIdeal.Value.res_main_v208 m c = val_main_v208 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) := by
  unfold Cert.ReferenceIdeal.Value.res_main_v208; rfl

end Cert.ReferenceIdeal.Read

end
-- ==== Proof.Ref.RefHead.lean ====
import proofs.«405801_j48610439856177_2_alg».proof.Proof.Ref.RunP
import proofs.«405801_j48610439856177_2_alg».proof.Proof.Ref.ReadP
import proofs.«405801_j48610439856177_2_alg».proof.Proof.Spec.Forms
import Idealize.ShloMosaic.Lib.ValueIdx

noncomputable section

namespace Cert.ReferenceIdeal.RefRead

open Cert.ReferenceIdeal Cert.ReferenceIdeal.Gen Idealize.ShloMosaic Idealize.ShloMosaic.TcCoe Idealize.SL.Sem
  Idealize.ShloMosaic.StableHlo Idealize.ShloMosaic.ValueIdx Cert.GcnForms

variable (m : (ℓ : Loc nD τ sig) → Buf (Elt Ideal) ℓ) (c : Dev nD)

abbrev xR : Fin NN → Fin NF → EReal := fun i k => ((m (c.tc.loc main_arg0)) : FVec Ideal S100000x256 .f32) (ix2 i k)
abbrev srcR : Fin NE → BitVec 32 := fun e => ((m (c.tc.loc main_arg1)) : (⟨S2x320000, .i32⟩ : BufTy).Contents (Elt Ideal)) (ix2 (0 : Fin 2) e)
abbrev dstR : Fin NE → BitVec 32 := fun e => ((m (c.tc.loc main_arg1)) : (⟨S2x320000, .i32⟩ : BufTy).Contents (Elt Ideal)) (ix2 (1 : Fin 2) e)
abbrev batR : Fin NN → BitVec 32 := fun i => ((m (c.tc.loc main_arg2)) : (⟨S100000, .i32⟩ : BufTy).Contents (Elt Ideal)) (ix1 i)
abbrev W1R : Fin NF → Fin NF → EReal := fun k j => ((m (c.tc.loc main_arg3)) : FVec Ideal S256x256 .f32) (ix2 k j)
abbrev W2R : Fin NF → Fin NF → EReal := fun k j => ((m (c.tc.loc main_arg5)) : FVec Ideal S256x256 .f32) (ix2 k j)
abbrev W3R : Fin NF → Fin NF → EReal := fun k j => ((m (c.tc.loc main_arg7)) : FVec Ideal S256x256 .f32) (ix2 k j)
abbrev b1R : Fin NF → EReal := fun j => ((m (c.tc.loc main_arg4)) : FVec Ideal S256 .f32) (ix1 j)
abbrev b2R : Fin NF → EReal := fun j => ((m (c.tc.loc main_arg6)) : FVec Ideal S256 .f32) (ix1 j)
abbrev b3R : Fin NF → EReal := fun j => ((m (c.tc.loc main_arg8)) : FVec Ideal S256 .f32) (ix1 j)
abbrev g1R : Fin NF → EReal := fun j => ((m (c.tc.loc main_arg10)) : FVec Ideal S256 .f32) (ix1 j)
abbrev be1R : Fin NF → EReal := fun j => ((m (c.tc.loc main_arg11)) : FVec Ideal S256 .f32) (ix1 j)
abbrev mu1R : Fin NF → EReal := fun j => ((m (c.tc.loc main_arg12)) : FVec Ideal S256 .f32) (ix1 j)
abbrev v1R : Fin NF → EReal := fun j => ((m (c.tc.loc main_arg13)) : FVec Ideal S256 .f32) (ix1 j)
abbrev g2R : Fin NF → EReal := fun j => ((m (c.tc.loc main_arg14)) : FVec Ideal S256 .f32) (ix1 j)
abbrev be2R : Fin NF → EReal := fun j => ((m (c.tc.loc main_arg15)) : FVec Ideal S256 .f32) (ix1 j)
abbrev mu2R : Fin NF → EReal := fun j => ((m (c.tc.loc main_arg16)) : FVec Ideal S256 .f32) (ix1 j)
abbrev v2R : Fin NF → EReal := fun j => ((m (c.tc.loc main_arg17)) : FVec Ideal S256 .f32) (ix1 j)
abbrev g3R : Fin NF → EReal := fun j => ((m (c.tc.loc main_arg18)) : FVec Ideal S256 .f32) (ix1 j)
abbrev be3R : Fin NF → EReal := fun j => ((m (c.tc.loc main_arg19)) : FVec Ideal S256 .f32) (ix1 j)
abbrev mu3R : Fin NF → EReal := fun j => ((m (c.tc.loc main_arg20)) : FVec Ideal S256 .f32) (ix1 j)
abbrev v3R : Fin NF → EReal := fun j => ((m (c.tc.loc main_arg21)) : FVec Ideal S256 .f32) (ix1 j)

def embR : FVec Ideal S256x256 .f32 :=
  Read.val_main_v191 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg10)) (m (c.tc.loc main_arg11)) (m (c.tc.loc main_arg12)) (m (c.tc.loc main_arg13)) (m (c.tc.loc main_arg14)) (m (c.tc.loc main_arg15)) (m (c.tc.loc main_arg16)) (m (c.tc.loc main_arg17)) (m (c.tc.loc main_arg18)) (m (c.tc.loc main_arg19)) (m (c.tc.loc main_arg20)) (m (c.tc.loc main_arg21))

def headR (e : FVec Ideal S256x256 .f32) (cen : FVec Ideal S96x256 .f32) : FVec Ideal S256x32 .f32 :=
  Host.negf (Host.reduce FloatOps.minimumf
    (shapeCast S256x32x3
      (subf
        (addf
          (broadcastInDim S256x96 ![0, 1] bcast_S256x1_S256x96_0_1
            (broadcastInDim S256x1 ![0] bcast_S256_S256x1_0
              (Host.reduceAdd (mulf e e) (constant (F := Ideal) S_ .f32 0x00000000#32) reducesTo_S256x256_S256_d1 h_S_)))
          (broadcastInDim S256x96 ![0, 1] bcast_S1x96_S256x96_0_1
            (broadcastInDim S1x96 ![1] bcast_S96_S1x96_1
              (Host.reduceAdd (mulf cen cen) (constant (F := Ideal) S_ .f32 0x00000000#32) reducesTo_S96x256_S96_d1 h_S_))))
        (Host.dotGeneral dot_S256x256_S256x96_S256x96_1_0_0_1_n_n none
          (mulf (broadcastInDim S256x256 ![] bcast_S_S256x256 (constant (F := Ideal) S_ .f32 0x40000000#32)) e)
          (transpose S256x96 [1, 0] cen transposes_S96x256_S256x96_1_0)))
      shapeCasts_S256x96_S256x32x3)
    (constant (F := Ideal) S_ .f32 0x7F800000#32) reducesTo_S256x32x3_S256x32_d2 h_S_)

-- The last stage is the head of the embedding stage and the centroids: the stages between them, substituted into one another.
theorem ref_result : Cert.ReferenceIdeal.Value.res_main_v208 (F := Ideal) m c = headR (embR m c) (m (c.tc.loc main_arg9)) :=
  (Read.val_main_v208_eq (F := Ideal) m c).trans rfl

end Cert.ReferenceIdeal.RefRead
-- ==== Proof.Ref.RefLayer.lean ====
import proofs.«405801_j48610439856177_2_alg».proof.Proof.Ref.RefOps

noncomputable section

namespace Cert.ReferenceIdeal.RefOps

open Cert.ReferenceIdeal Cert.ReferenceIdeal.Gen Idealize.ShloMosaic Idealize.ShloMosaic.ValueIdx Cert.GcnForms

def col (w : IVec S420000 32) : IVec S420000x1 32 := broadcastInDim S420000x1 ![0] bcast_S420000_S420000x1_0 w

theorem col_apply (w : IVec S420000 32) (q : Fin 420000) : col w (ix2 q (0 : Fin 1)) = w (ix1 q) :=
  broadcastInDim_apply _ _ w _ (ix1 q) fun | ⟨0, _⟩ => rfl

def wrapCol (w : IVec S420000 32) : IVec S420000x1 32 :=
  col (select (cmpi .slt w (broadcastInDim S420000 ![] bcast_S_S420000 (constantI S_ 32 0#32)))
    (addi w (broadcastInDim S420000 ![] bcast_S_S420000 (constantI S_ 32 100000#32))) w)

theorem wrapCol_apply (w : IVec S420000 32) (q : Fin 420000) :
    wrapCol w (ix2 q (0 : Fin 1)) = if (w (ix1 q)).toInt < 0 then w (ix1 q) + 100000#32 else w (ix1 q) :=
  (col_apply _ q).trans (wrap_select (w (ix1 q)))

-- A gather at the wrapped words reads the row each word names.
theorem gather1_grow {α : Type} (x : S100000.Idx → α) (w : IVec S420000 32) (q : Fin 420000) :
    Host.gather gather_S100000_S420000x1_S420000_n_0_n_n_0_1_1 x (wrapCol w) (ix1 q) = x (ix1 (grow (w (ix1 q)))) := by
  rw [gather1_apply]
  simp only [wrapCol_apply, clamp_eq_grow]

theorem gather2_grow {α : Type} (x : S100000x256.Idx → α) (w : IVec S420000 32) (q : Fin 420000) (j : Fin 256) :
    Host.gather gather_S100000x256_S420000x1_S420000x256_1_0_n_n_0_1_1256 x (wrapCol w) (ix2 q j)
      = x (ix2 (grow (w (ix1 q))) j) := by
  rw [gather2_apply]
  simp only [wrapCol_apply, clamp_eq_grow]

abbrev zeroV (s : Shape) (h : S_.BroadcastsInDim s (![] : Fin 0 → Fin s.rank)) : FVec Ideal s .f32 :=
  broadcastInDim s ![] h (constant (F := Ideal) S_ .f32 0x00000000#32)

abbrev oneV (s : Shape) (h : S_.BroadcastsInDim s (![] : Fin 0 → Fin s.rank)) : FVec Ideal s .f32 :=
  broadcastInDim s ![] h (constant (F := Ideal) S_ .f32 0x3F800000#32)

theorem zeroV_apply {s : Shape} (h : S_.BroadcastsInDim s (![] : Fin 0 → Fin s.rank)) (i : s.Idx) : zeroV s h i = (0 : EReal) :=
  Ideal.ofBits_zero_f32

-- A vector spread along the rows of a rectangle, through a column.
theorem spread_apply {n m : Nat} (h₁ : (⟨1, ![n]⟩ : Shape).BroadcastsInDim ⟨2, ![n, 1]⟩ ![0])
    (h₂ : (⟨2, ![n, 1]⟩ : Shape).BroadcastsInDim ⟨2, ![n, m]⟩ ![0, 1]) (y : (⟨1, ![n]⟩ : Shape).Idx → EReal) (q : Fin n) (j : Fin m) :
    broadcastInDim ⟨2, ![n, m]⟩ ![0, 1] h₂ (broadcastInDim ⟨2, ![n, 1]⟩ ![0] h₁ y) (ix2 q j) = y (ix1 q) :=
  by rw [show ix2 q j = StableHlo.Predicate.ij q j from funext fun | ⟨0, _⟩ => rfl | ⟨1, _⟩ => rfl, StableHlo.Predicate.bcast_rows]; exact congrArg y (funext fun | ⟨0, _⟩ => rfl)

def degV (wd : IVec S420000 32) : FVec Ideal S100000 .f32 :=
  Ideal.hostScatterAdd (sc1 100000 420000 scatter_S100000_S420000x1_S420000_n_0_0_1_wf) (zeroV _ bcast_S_S100000) (col wd)
    (oneV _ bcast_S_S420000)

def dinvV (wd : IVec S420000 32) : FVec Ideal S100000 .f32 :=
  select (cmpf .ogt (degV wd) (zeroV _ bcast_S_S100000)) (Host.rsqrt (degV wd)) (zeroV _ bcast_S_S100000)

def coefV (ws wd : IVec S420000 32) : FVec Ideal S420000 .f32 :=
  mulf (Host.gather gather_S100000_S420000x1_S420000_n_0_n_n_0_1_1 (dinvV wd) (wrapCol ws))
    (Host.gather gather_S100000_S420000x1_S420000_n_0_n_n_0_1_1 (dinvV wd) (wrapCol wd))

def aggV (ws wd : IVec S420000 32) (P : FVec Ideal S100000x256 .f32) : FVec Ideal S100000x256 .f32 :=
  Ideal.hostScatterAdd (sc2 100000 420000 256 scatter_S100000x256_S420000x1_S420000x256_1_0_0_1_wf) (zeroV _ bcast_S_S100000x256) (col wd)
    (mulf (broadcastInDim S420000x256 ![0, 1] bcast_S420000x1_S420000x256_0_1
        (broadcastInDim S420000x1 ![0] bcast_S420000_S420000x1_0 (coefV ws wd)))
      (Host.gather gather_S100000x256_S420000x1_S420000x256_1_0_n_n_0_1_1256 P (wrapCol ws)))

def rowB (y : FVec Ideal S256 .f32) : FVec Ideal S100000x256 .f32 :=
  broadcastInDim S100000x256 ![0, 1] bcast_S1x256_S100000x256_0_1 (broadcastInDim S1x256 ![1] bcast_S256_S1x256_1 y)

theorem rowB_apply (y : FVec Ideal S256 .f32) (i : Fin 100000) (j : Fin 256) : rowB y (ix2 i j) = y (ix1 j) :=
  (broadcastInDim_apply _ _ _ _ (ix2 (0 : Fin 1) j) fun | ⟨0, _⟩ => rfl | ⟨1, _⟩ => rfl).trans
    (broadcastInDim_apply _ _ y _ (ix1 j) fun | ⟨0, _⟩ => rfl)

def layerV (ws wd : IVec S420000 32) (P : FVec Ideal S100000x256 .f32) (b : FVec Ideal S256 .f32) :
    FVec Ideal S100000x256 .f32 :=
  addf (aggV ws wd P) (rowB b)

def bnV (O : FVec Ideal S100000x256 .f32) (g be mu v : FVec Ideal S256 .f32) : FVec Ideal S100000x256 .f32 :=
  addf (mulf (mulf (subf O (rowB mu))
      (rowB (Host.rsqrt (addf v (broadcastInDim S256 ![] bcast_S_S256 (constant (F := Ideal) S_ .f32 0x3727C5AC#32))))))
    (rowB g)) (rowB be)

theorem bnV_apply (O : FVec Ideal S100000x256 .f32) (g be mu v : FVec Ideal S256 .f32) (i : Fin 100000) (j : Fin 256) :
    bnV O g be mu v (ix2 i j)
      = rBn (fun i j => O (ix2 i j)) (fun j => g (ix1 j)) (fun j => be (ix1 j)) (fun j => mu (ix1 j)) (fun j => v (ix1 j)) i j := by
  unfold bnV rBn
  rw [addf_apply, mulf_apply, mulf_apply, subf_apply, rowB_apply, rowB_apply, rowB_apply, rowB_apply]
  rfl

def reluV (X : FVec Ideal S100000x256 .f32) : FVec Ideal S100000x256 .f32 := maximumf X (zeroV _ bcast_S_S100000x256)

theorem reluV_apply (X : FVec Ideal S100000x256 .f32) (i : S100000x256.Idx) : reluV X i = max (X i) 0 := by
  unfold reluV
  rw [maximumf_apply, zeroV_apply]

def colB (bat : IVec S100000 32) : IVec S100000x1 32 := broadcastInDim S100000x1 ![0] bcast_S100000_S100000x1_0 bat

theorem colB_apply (bat : IVec S100000 32) (i : Fin 100000) : colB bat (ix2 i (0 : Fin 1)) = bat (ix1 i) :=
  broadcastInDim_apply _ _ bat _ (ix1 i) fun | ⟨0, _⟩ => rfl

def sumV (bat : IVec S100000 32) (Y : FVec Ideal S100000x256 .f32) : FVec Ideal S256x256 .f32 :=
  Ideal.hostScatterAdd (sc2 256 100000 256 scatter_S256x256_S100000x1_S100000x256_1_0_0_1_wf) (zeroV _ bcast_S_S256x256) (colB bat) Y

def cntV (bat : IVec S100000 32) : FVec Ideal S256 .f32 :=
  Ideal.hostScatterAdd (sc1 256 100000 scatter_S256_S100000x1_S100000_n_0_0_1_wf) (zeroV _ bcast_S_S256) (colB bat) (oneV _ bcast_S_S100000)

def poolV (bat : IVec S100000 32) (Y : FVec Ideal S100000x256 .f32) : FVec Ideal S256x256 .f32 :=
  Host.divf (sumV bat Y)
    (broadcastInDim S256x256 ![0, 1] bcast_S256x1_S256x256_0_1 (broadcastInDim S256x1 ![0] bcast_S256_S256x1_0
      (maximumf (cntV bat) (oneV _ bcast_S_S256))))

theorem hdivf_apply {s : Shape} {φ : FTy} (x y : FVec Ideal s φ) (i : s.Idx) : Host.divf x y i = Ideal.div (x i) (y i) := rfl

-- The mean pool at an index: the sums and the counts are the scatter lemmas', the filters compared word by word.
theorem poolV_apply (bat : IVec S100000 32) (Y : FVec Ideal S100000x256 .f32) (g j : Fin 256) :
    poolV bat Y (ix2 g j)
      = Ideal.div (rSum (fun i => bat (ix1 i)) (fun i j => Y (ix2 i j)) g j) (max (rCnt (fun i => bat (ix1 i)) g) one) := by
  unfold poolV sumV cntV rSum rCnt
  rw [hdivf_apply, scatterAdd2_apply, spread_apply, maximumf_apply, scatterAdd1_apply, zeroV_apply, zeroV_apply, zero_add, zero_add]
  exact congrArg₂ Ideal.div
    (Finset.sum_congr (Finset.filter_congr fun i _ => by rw [colB_apply]; exact Iff.rfl) fun _ _ => rfl)
    (congrArg (max · one) (Finset.sum_congr (Finset.filter_congr fun i _ => by rw [colB_apply]; exact Iff.rfl) fun _ _ => rfl))

section Against

variable (src dst : Fin NE → BitVec 32) (ws wd : IVec S420000 32)
  (hs : ∀ q : Fin 420000, ws (ix1 q) = catW src q) (hd : ∀ q : Fin 420000, wd (ix1 q) = catW dst q)

include hd in
theorem dinvV_rDinv (i : Fin 100000) : dinvV wd (ix1 i) = rDinv dst i := by
  have hdeg : degV wd (ix1 i) = rDeg dst i := by
    unfold degV rDeg
    rw [scatterAdd1_apply, zeroV_apply, zero_add]
    exact Finset.sum_congr (Finset.filter_congr fun q _ => by rw [col_apply, hd q]; exact Iff.rfl) fun _ _ => rfl
  unfold dinvV rDinv
  rw [← hdeg]
  generalize degV wd = D
  rw [select_apply, cmpf_apply, zeroV_apply, Ideal.cmpf_def]
  unfold dinvOf Scalar.select Ideal.cmp
  by_cases h : 0 < D (ix1 i) <;> simp [h] <;> rfl

include hs hd in
-- A layer's aggregate plus bias at `(i, j)`, for `P` the product of the previous layer's rows with the weights.
theorem layerV_rOut (P : FVec Ideal S100000x256 .f32) (H : Fin NN → Fin NF → EReal) (W : Fin NF → Fin NF → EReal)
    (b : FVec Ideal S256 .f32) (hP : ∀ (r : Fin 100000) (j : Fin 256), P (ix2 r j) = ∑ k : Fin NF, H r k * W k j)
    (i : Fin 100000) (j : Fin 256) :
    layerV ws wd P b (ix2 i j) = rOut src dst H W (fun j => b (ix1 j)) i j := by
  unfold layerV rOut aggV
  rw [addf_apply, scatterAdd2_apply, zeroV_apply, zero_add, rowB_apply]
  refine congrArg (fun s : EReal => s + b (ix1 j)) ?_
  refine Finset.sum_congr (Finset.filter_congr fun q _ => by rw [col_apply, hd q]; exact Iff.rfl) fun q _ => ?_
  unfold coefV
  rw [mulf_apply, spread_apply, mulf_apply, gather1_grow, gather1_grow, gather2_grow, dinvV_rDinv dst wd hd, dinvV_rDinv dst wd hd,
    hs q, hd q, hP]

end Against

end Cert.ReferenceIdeal.RefOps

end
-- ==== Proof.Ref.RefRead.lean ====
import proofs.«405801_j48610439856177_2_alg».proof.Proof.Ref.ReadP
import proofs.«405801_j48610439856177_2_alg».proof.Proof.Ref.RefLayer
import proofs.«405801_j48610439856177_2_alg».proof.Proof.Ref.RefHead

noncomputable section

namespace Cert.ReferenceIdeal.RefRead

open Cert.ReferenceIdeal Cert.ReferenceIdeal.Gen Idealize.ShloMosaic Idealize.ShloMosaic.TcCoe Idealize.SL.Sem
  Idealize.ShloMosaic.StableHlo Idealize.ShloMosaic.ValueIdx Cert.GcnForms Cert.ReferenceIdeal.RefOps Cert.ReferenceIdeal.Read

-- A rank-2 array and a rank-1 array as functions of their coordinates.
abbrev mat {α : Type} {a b : Nat} (x : (⟨2, ![a, b]⟩ : Shape).Idx → α) (i : Fin a) (k : Fin b) : α := x (ix2 i k)
abbrev vec {α : Type} {a : Nat} (x : (⟨1, ![a]⟩ : Shape).Idx → α) (j : Fin a) : α := x (ix1 j)

section Stages

variable (x0 : FVec Ideal S100000x256 .f32) (x1 : IVec S2x320000 32) (x2 : IVec S100000 32)
  (x3 : FVec Ideal S256x256 .f32) (x4 : FVec Ideal S256 .f32) (x5 : FVec Ideal S256x256 .f32) (x6 : FVec Ideal S256 .f32)
  (x7 : FVec Ideal S256x256 .f32) (x8 x10 x11 x12 x13 x14 x15 x16 x17 x18 x19 x20 x21 : FVec Ideal S256 .f32)

theorem srcCat_apply (q : Fin 420000) : val_main_v6 (F := Ideal) x1 (ix1 q) = catW (mat x1 0) q := by
  unfold val_main_v6 val_main_v5
  rw [cat_apply]
  refine congrArg (catW · q) (funext fun e => ?_)
  rw [val_main_v1_apply, val_main_v0_apply]
  exact congrArg x1 (funext fun a => Fin.ext (match a with | ⟨0, _⟩ => rfl | ⟨1, _⟩ => Nat.mod_eq_of_lt e.isLt))

theorem dstCat_apply (q : Fin 420000) : val_main_v7 (F := Ideal) x1 (ix1 q) = catW (mat x1 1) q := by
  unfold val_main_v7 val_main_v5
  rw [cat_apply]
  refine congrArg (catW · q) (funext fun e => ?_)
  rw [val_main_v3_apply, val_main_v2_apply]
  exact congrArg x1 (funext fun a => Fin.ext (match a with | ⟨0, _⟩ => rfl | ⟨1, _⟩ => Nat.mod_eq_of_lt e.isLt))

theorem prod_apply (H : FVec Ideal S100000x256 .f32) (W : FVec Ideal S256x256 .f32) (r : Fin 100000) (j : Fin 256) :
    val_main_v4 (F := Ideal) H W (ix2 r j) = ∑ k : Fin NF, H (ix2 r k) * W (ix2 k j) := by
  rw [val_main_v4_apply]
  exact Finset.sum_congr rfl fun k _ => congrArg₂ (· * ·)
    (congrArg H (funext fun a => Fin.ext (match a with | ⟨0, _⟩ => rfl | ⟨1, _⟩ => rfl)))
    (congrArg W (funext fun a => Fin.ext (match a with | ⟨0, _⟩ => rfl | ⟨1, _⟩ => rfl)))

-- One layer's aggregate, batch-normalised, at `(i, j)`, over any previous rows `A` known index by index.
theorem bnLayer_apply (A : FVec Ideal S100000x256 .f32) (H : Fin NN → Fin NF → EReal) (hA : ∀ r k, A (ix2 r k) = H r k)
    (W : FVec Ideal S256x256 .f32) (b g be mu v : FVec Ideal S256 .f32) (i : Fin 100000) (j : Fin 256) :
    bnV (layerV (val_main_v6 (F := Ideal) x1) (val_main_v7 (F := Ideal) x1) (val_main_v4 (F := Ideal) A W) b) g be mu v (ix2 i j)
      = rBn (rOut (mat x1 0) (mat x1 1) H (mat W) (vec b)) (vec g) (vec be) (vec mu) (vec v) i j := by
  rw [bnV_apply]
  refine congrArg (rBn · (vec g) (vec be) (vec mu) (vec v) i j) (funext fun r => funext fun c => ?_)
  exact layerV_rOut _ _ _ _ (srcCat_apply x1) (dstCat_apply x1) _ H _ b
    (fun r j => (prod_apply A W r j).trans (Finset.sum_congr rfl fun k _ => by rw [hA r k])) r c

set_option maxHeartbeats 400000 in
theorem layer1_apply (i : Fin 100000) (j : Fin 256) :
    val_main_v62 (F := Ideal) x0 x1 x3 x4 x10 x11 x12 x13 (ix2 i j)
      = rA1 (mat x0) (mat x1 0) (mat x1 1) (mat x3) (vec x4) (vec x10) (vec x11) (vec x12) (vec x13) i j := by
  show reluV (bnV (layerV (val_main_v6 (F := Ideal) x1) (val_main_v7 (F := Ideal) x1) (val_main_v4 (F := Ideal) x0 x3) x4)
    x10 x11 x12 x13) (ix2 i j) = _
  rw [reluV_apply, bnLayer_apply x1 x0 (mat x0) (fun _ _ => rfl)]
  rfl

set_option maxHeartbeats 400000 in
theorem layer2_apply (i : Fin 100000) (j : Fin 256) :
    val_main_v121 (F := Ideal) x0 x1 x3 x4 x5 x6 x10 x11 x12 x13 x14 x15 x16 x17 (ix2 i j)
      = rA2 (mat x0) (mat x1 0) (mat x1 1) (mat x3) (mat x5) (vec x4) (vec x6) (vec x10) (vec x11) (vec x12) (vec x13)
          (vec x14) (vec x15) (vec x16) (vec x17) i j := by
  show reluV (bnV (layerV (val_main_v6 (F := Ideal) x1) (val_main_v7 (F := Ideal) x1)
    (val_main_v4 (F := Ideal) (val_main_v62 (F := Ideal) x0 x1 x3 x4 x10 x11 x12 x13) x5) x6) x14 x15 x16 x17) (ix2 i j) = _
  rw [reluV_apply, bnLayer_apply x1 _ _ (layer1_apply x0 x1 x3 x4 x10 x11 x12 x13)]
  rfl

set_option maxHeartbeats 400000 in
theorem layer3_apply (i : Fin 100000) (j : Fin 256) :
    val_main_v179 (F := Ideal) x0 x1 x3 x4 x5 x6 x7 x8 x10 x11 x12 x13 x14 x15 x16 x17 x18 x19 x20 x21 (ix2 i j)
      = rA3 (mat x0) (mat x1 0) (mat x1 1) (mat x3) (mat x5) (mat x7) (vec x4) (vec x6) (vec x8) (vec x10) (vec x11) (vec x12)
          (vec x13) (vec x14) (vec x15) (vec x16) (vec x17) (vec x18) (vec x19) (vec x20) (vec x21) i j := by
  show bnV (layerV (val_main_v6 (F := Ideal) x1) (val_main_v7 (F := Ideal) x1)
    (val_main_v4 (F := Ideal) (val_main_v121 (F := Ideal) x0 x1 x3 x4 x5 x6 x10 x11 x12 x13 x14 x15 x16 x17) x7) x8) x18 x19 x20 x21 (ix2 i j) = _
  rw [bnLayer_apply x1 _ _ (layer2_apply x0 x1 x3 x4 x5 x6 x10 x11 x12 x13 x14 x15 x16 x17)]
  rfl

set_option maxHeartbeats 400000 in
-- The embedding at `(g, j)`: the mean over the nodes of graph `g` of the third layer's column `j`.
theorem emb_apply (g j : Fin 256) :
    val_main_v191 (F := Ideal) x0 x1 x2 x3 x4 x5 x6 x7 x8 x10 x11 x12 x13 x14 x15 x16 x17 x18 x19 x20 x21 (ix2 g j)
      = rEmb (mat x0) (mat x1 0) (mat x1 1) (vec x2) (mat x3) (mat x5) (mat x7) (vec x4) (vec x6) (vec x8) (vec x10) (vec x11)
          (vec x12) (vec x13) (vec x14) (vec x15) (vec x16) (vec x17) (vec x18) (vec x19) (vec x20) (vec x21) g j := by
  show poolV x2 (val_main_v179 (F := Ideal) x0 x1 x3 x4 x5 x6 x7 x8 x10 x11 x12 x13 x14 x15 x16 x17 x18 x19 x20 x21) (ix2 g j) = _
  rw [poolV_apply]
  exact congrArg (fun Y => Ideal.div (rSum (vec x2) Y g j) (max (rCnt (vec x2) g) one))
    (funext fun r => funext fun k => layer3_apply x0 x1 x3 x4 x5 x6 x7 x8 x10 x11 x12 x13 x14 x15 x16 x17 x18 x19 x20 x21 r k)

end Stages

theorem ref_emb (m : (ℓ : Loc nD τ sig) → Buf (Elt Ideal) ℓ) (c : Dev nD) (g j : Fin 256) :
    embR m c (ix2 g j)
      = rEmb (xR m c) (srcR m c) (dstR m c) (batR m c) (W1R m c) (W2R m c) (W3R m c) (b1R m c) (b2R m c) (b3R m c)
          (g1R m c) (be1R m c) (mu1R m c) (v1R m c) (g2R m c) (be2R m c) (mu2R m c) (v2R m c)
          (g3R m c) (be3R m c) (mu3R m c) (v3R m c) g j :=
  emb_apply _ _ _ _ _ _ _ _ _ _ _ _ _ _ _ _ _ _ _ _ _ g j

end Cert.ReferenceIdeal.RefRead

end
-- ==== Proof.Spec.Algebra1.lean ====
import proofs.«405801_j48610439856177_2_alg».proof.Proof.Spec.Forms

noncomputable section

namespace Cert.GcnForms

open Idealize.ShloMosaic

-- the laws that join the two arrangements hold on real numbers: finiteness is carried as "is the coercion of a real"
def IsReal (a : EReal) : Prop := ∃ r : ℝ, a = (r : EReal)

theorem isReal_coe (r : ℝ) : IsReal (r : EReal) := ⟨r, rfl⟩
theorem isReal_zero : IsReal 0 := ⟨0, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem coe_max (r s : ℝ) : ((max r s : ℝ) : EReal) = max (r : EReal) (s : EReal) :=
  EReal.coe_strictMono.monotone.map_max

theorem IsReal.max {a b : EReal} (ha : IsReal a) (hb : IsReal b) : IsReal (max a b) := by
  obtain ⟨r, rfl⟩ := ha; obtain ⟨s, rfl⟩ := hb; exact ⟨Max.max r s, (coe_max r s)⟩

-- the coercion commutes with a finite sum
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i ∈ s, IsReal (f i)) :
    IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

theorem one_eq : one = 1 := by
  unfold one; simp [Ideal.ofBits, Ideal.ieee, -EReal.coe_mul]; norm_num

theorem eps_eq : eps = ((10995116 * (2 : ℝ) ^ (-40 : ℤ) : ℝ) : EReal) := by
  unfold eps; simp [Ideal.ofBits, Ideal.ieee, -EReal.coe_mul]

theorem eps_pos : ∃ r : ℝ, 0 < r ∧ eps = (r : EReal) :=
  ⟨_, by positivity, eps_eq⟩

theorem catW_castAdd (w : Fin NE → BitVec 32) (e : Fin NE) : catW w (Fin.castAdd NN e) = w e := by
  unfold catW
  have h : (Fin.castAdd NN e).val < NE := e.isLt
  rw [dif_pos h]
  rfl

theorem catW_natAdd (w : Fin NE → BitVec 32) (i : Fin NN) :
    catW w (Fin.natAdd NE i) = BitVec.ofNat 32 i.val := by
  unfold catW
  have h : ¬ (Fin.natAdd NE i).val < NE := by
    show ¬ (NE + i.val < NE)
    omega
  rw [dif_neg h]
  show BitVec.ofNat 32 (NE + i.val - NE) = _
  rw [Nat.add_sub_cancel_left]

theorem lands_ofNat (i' i : Fin NN) : lands (BitVec.ofNat 32 i'.val) i ↔ i' = i := by
  have h' : i'.val < 100000 := i'.isLt
  have h : i.val < 100000 := i.isLt
  unfold lands
  rw [BitVec.toInt_ofNat', Fin.ext_iff]
  have e : ((i'.val : ℤ)).bmod (2 ^ 32) = (i'.val : ℤ) := by
    rw [Int.bmod_def]
    have : ((2:ℤ) ^ 32) = 4294967296 := by norm_num
    omega
  rw [e]
  omega

theorem grow_of_lands {v : BitVec 32} {i : Fin NN} (h : lands v i) : grow v = i := by
  have hi : i.val < 100000 := i.isLt
  unfold lands at h
  have hn : ¬ v.toInt < 0 := by omega
  apply Fin.ext
  show (max 0 (min (if v.toInt < 0 then v + 100000#32 else v).toInt 99999)).toNat = i.val
  rw [if_neg hn, h]
  omega

theorem grow_ofNat (i : Fin NN) : grow (BitVec.ofNat 32 i.val) = i :=
  grow_of_lands ((lands_ofNat i i).mpr rfl)

-- over the extended list, the entries whose word names i are the edges whose word names i and the one loop at i
theorem sum_filter_catW {M : Type*} [AddCommMonoid M] (w : Fin NE → BitVec 32) (i : Fin NN)
    (f : Fin (NE + NN) → M) :
    ∑ q ∈ Finset.univ.filter (fun q : Fin (NE + NN) => lands (catW w q) i), f q
      = ∑ e ∈ Finset.univ.filter (fun e : Fin NE => lands (w e) i), f (Fin.castAdd NN e)
        + f (Fin.natAdd NE i) := by
  rw [Finset.sum_filter, Fin.sum_univ_add, Finset.sum_filter]
  simp only [catW_castAdd, catW_natAdd, lands_ofNat, Finset.sum_ite_eq', Finset.mem_univ, if_true]

theorem rDeg_eq_kDeg (dst : Fin NE → BitVec 32) (i : Fin NN) : rDeg dst i = kDeg dst i := by
  unfold rDeg kDeg
  rw [sum_filter_catW dst i (fun _ => one)]

theorem rDinv_eq_kDinv (dst : Fin NE → BitVec 32) : rDinv dst = kDinv dst := by
  funext i
  unfold rDinv kDinv
  rw [rDeg_eq_kDeg]

-- the degree is a count plus one: a real that is at least one, so its reciprocal square root is a positive real
theorem kDeg_eq (dst : Fin NE → BitVec 32) (i : Fin NN) :
    kDeg dst i
      = ((((Finset.univ.filter (fun e : Fin NE => lands (dst e) i)).card : ℝ) + 1 : ℝ) : EReal) := by
  unfold kDeg
  rw [Finset.sum_const, one_eq, nsmul_one, EReal.coe_add, EReal.coe_one, EReal.coe_natCast]

theorem rsqrt_coe_pos {r : ℝ} (hr : 0 < r) :
    Ideal.rsqrt (r : EReal) = (((Real.sqrt r)⁻¹ : ℝ) : EReal) := by
  rw [Ideal.rsqrt_coe, if_neg (not_lt.mpr hr.le), if_neg hr.ne']

theorem kDinv_pos_real (dst : Fin NE → BitVec 32) (i : Fin NN) :
    ∃ r : ℝ, 0 < r ∧ kDinv dst i = (r : EReal) := by
  have hc : (0 : ℝ) < ((Finset.univ.filter (fun e : Fin NE => lands (dst e) i)).card : ℝ) + 1 := by
    positivity
  unfold kDinv dinvOf
  rw [kDeg_eq, if_pos (EReal.coe_pos.mpr hc), rsqrt_coe_pos hc]
  exact ⟨_, inv_pos.mpr (Real.sqrt_pos.mpr hc), rfl⟩

theorem isReal_kDinv (dst : Fin NE → BitVec 32) (i : Fin NN) : IsReal (kDinv dst i) := by
  obtain ⟨r, _, h⟩ := kDinv_pos_real dst i
  exact ⟨r, h⟩

theorem isReal_rsqrt_add_eps {v : EReal} (hv : IsReal v) (h0 : 0 ≤ v) : IsReal (Ideal.rsqrt (v + eps)) := by
  obtain ⟨r, rfl⟩ := hv
  obtain ⟨e, he, hee⟩ := eps_pos
  have hr : 0 ≤ r := EReal.coe_nonneg.mp h0
  rw [hee, ← EReal.coe_add, rsqrt_coe_pos (by positivity)]
  exact isReal_coe _

end Cert.GcnForms

end
-- ==== Proof.Spec.Algebra.lean ====
import proofs.«405801_j48610439856177_2_alg».proof.Proof.Spec.Algebra1

noncomputable section

namespace Cert.GcnForms

open Idealize.ShloMosaic

-- over the reals: the product dinv[s]·dinv[d] on every entry equals one factor before the sum and one after it
theorem agg_real {ι : Type*} (S : Finset ι) (g : ι → Fin NN) (d : Fin NN → ℝ) (hw : Fin NN → ℝ) (i : Fin NN) :
    ∑ e ∈ S, ((d (g e) : EReal) * (d i : EReal)) * (hw (g e) : EReal) + ((d i : EReal) * (d i : EReal)) * (hw i : EReal)
      = (d i : EReal) * (∑ e ∈ S, (hw (g e) : EReal) * (d (g e) : EReal) + (hw i : EReal) * (d i : EReal)) := by
  have key : ∑ e ∈ S, (d (g e) * d i) * hw (g e) + (d i * d i) * hw i
      = d i * (∑ e ∈ S, hw (g e) * d (g e) + hw i * d i) := by
    rw [mul_add, Finset.mul_sum]
    congr 1
    · exact Finset.sum_congr rfl fun e _ => by ring
    · ring
  have := congrArg Real.toEReal key
  simpa only [EReal.coe_add, EReal.coe_mul, coe_sum] using this

theorem isReal_dot (H : Fin NN → Fin NF → EReal) (W : Fin NF → Fin NF → EReal)
    (hH : ∀ i k, IsReal (H i k)) (hW : ∀ k j, IsReal (W k j)) (i : Fin NN) (j : Fin NF) :
    IsReal (∑ k : Fin NF, H i k * W k j) :=
  isReal_sum _ _ fun k _ => (hH i k).mul (hW k j)

theorem isReal_kPre (dst : Fin NE → BitVec 32) (H : Fin NN → Fin NF → EReal) (W : Fin NF → Fin NF → EReal)
    (hH : ∀ i k, IsReal (H i k)) (hW : ∀ k j, IsReal (W k j)) (i : Fin NN) (j : Fin NF) :
    IsReal (kPre dst H W i j) :=
  (isReal_dot H W hH hW i j).mul (isReal_kDinv dst i)

theorem rOut_eq (src dst : Fin NE → BitVec 32) (H : Fin NN → Fin NF → EReal) (W : Fin NF → Fin NF → EReal)
    (b : Fin NF → EReal) (hH : ∀ i k, IsReal (H i k)) (hW : ∀ k j, IsReal (W k j)) (i : Fin NN) (j : Fin NF) :
    rOut src dst H W b i j
      = kDinv dst i * (kScat src dst (kPre dst H W) i j + kPre dst H W i j) + b j := by
  choose d hd using isReal_kDinv dst
  choose hw hhw using fun i => isReal_dot H W hH hW i j
  unfold rOut kScat kPre
  rw [sum_filter_catW]
  simp only [catW_castAdd, catW_natAdd, grow_ofNat, rDinv_eq_kDinv]
  have hS : ∀ e ∈ Finset.univ.filter (fun e : Fin NE => lands (dst e) i),
      (kDinv dst (grow (src e)) * kDinv dst (grow (dst e))) * (∑ k : Fin NF, H (grow (src e)) k * W k j)
        = ((d (grow (src e)) : EReal) * (d i : EReal)) * (hw (grow (src e)) : EReal) := by
    intro e he
    rw [grow_of_lands (Finset.mem_filter.mp he).2, hd, hd, hhw]
  rw [Finset.sum_congr rfl hS]
  simp only [hd, hhw]
  rw [agg_real]

-- over the reals: centre, scale, gain, shift is one scale and one bias
theorem bn_fold (A b g be mu r : ℝ) :
    ((((A : EReal) + (b : EReal)) - (mu : EReal)) * (r : EReal)) * (g : EReal) + (be : EReal)
      = (A : EReal) * ((g : EReal) * (r : EReal))
        + ((b : EReal) * ((g : EReal) * (r : EReal)) + ((be : EReal) - (mu : EReal) * ((g : EReal) * (r : EReal)))) := by
  have key : (((A + b) - mu) * r) * g + be = A * (g * r) + (b * (g * r) + (be - mu * (g * r))) := by ring
  have := congrArg Real.toEReal key
  simpa only [EReal.coe_add, EReal.coe_mul, EReal.coe_sub] using this

theorem isReal_kScale (g v : Fin NF → EReal) (hg : ∀ j, IsReal (g j)) (hvr : ∀ j, IsReal (v j))
    (hv : ∀ j, 0 ≤ v j) (j : Fin NF) : IsReal (kScale g v j) :=
  (hg j).mul (isReal_rsqrt_add_eps (hvr j) (hv j))

theorem isReal_kBias (b g be mu v : Fin NF → EReal) (hb : ∀ j, IsReal (b j)) (hg : ∀ j, IsReal (g j))
    (hbe : ∀ j, IsReal (be j)) (hmu : ∀ j, IsReal (mu j)) (hvr : ∀ j, IsReal (v j))
    (hv : ∀ j, 0 ≤ v j) (j : Fin NF) : IsReal (kBias b g be mu v j) :=
  ((hb j).mul (isReal_kScale g v hg hvr hv j)).add ((hbe j).sub ((hmu j).mul (isReal_kScale g v hg hvr hv j)))

theorem isReal_kScat (src dst : Fin NE → BitVec 32) (P : Fin NN → Fin NF → EReal)
    (hP : ∀ i j, IsReal (P i j)) (i : Fin NN) (j : Fin NF) : IsReal (kScat src dst P i j) :=
  isReal_sum _ _ fun e _ => hP (grow (src e)) j

theorem isReal_agg (src dst : Fin NE → BitVec 32) (P : Fin NN → Fin NF → EReal)
    (hP : ∀ i j, IsReal (P i j)) (i : Fin NN) (j : Fin NF) :
    IsReal (kDinv dst i * (kScat src dst P i j + P i j)) :=
  (isReal_kDinv dst i).mul ((isReal_kScat src dst P hP i j).add (hP i j))

theorem isReal_kNorm (src dst : Fin NE → BitVec 32) (P : Fin NN → Fin NF → EReal) (s bi : Fin NF → EReal)
    (hP : ∀ i j, IsReal (P i j)) (hs : ∀ j, IsReal (s j)) (hbi : ∀ j, IsReal (bi j)) (i : Fin NN) (j : Fin NF) :
    IsReal (kNorm src dst P s bi i j) :=
  ((isReal_agg src dst P hP i j).mul (hs j)).add (hbi j)

theorem isReal_kRelu (src dst : Fin NE → BitVec 32) (P : Fin NN → Fin NF → EReal) (s bi : Fin NF → EReal)
    (hP : ∀ i j, IsReal (P i j)) (hs : ∀ j, IsReal (s j)) (hbi : ∀ j, IsReal (bi j)) (i : Fin NN) (j : Fin NF) :
    IsReal (kRelu src dst P s bi i j) :=
  (isReal_kNorm src dst P s bi hP hs hbi i j).max isReal_zero

-- one layer: on real data the factored output is the edge-list output
theorem kNorm_eq_rBn (src dst : Fin NE → BitVec 32) (H : Fin NN → Fin NF → EReal) (W : Fin NF → Fin NF → EReal)
    (b g be mu v : Fin NF → EReal)
    (hH : ∀ i k, IsReal (H i k)) (hW : ∀ k j, IsReal (W k j))
    (hb : ∀ j, IsReal (b j)) (hg : ∀ j, IsReal (g j)) (hbe : ∀ j, IsReal (be j)) (hmu : ∀ j, IsReal (mu j))
    (hvr : ∀ j, IsReal (v j)) (hv : ∀ j, 0 ≤ v j) :
    kNorm src dst (kPre dst H W) (kScale g v) (kBias b g be mu v) = rBn (rOut src dst H W b) g be mu v := by
  funext i j
  obtain ⟨A, hA⟩ := isReal_agg src dst (kPre dst H W) (isReal_kPre dst H W hH hW) i j
  obtain ⟨r, hr⟩ := isReal_rsqrt_add_eps (hvr j) (hv j)
  obtain ⟨b', hb'⟩ := hb j
  obtain ⟨g', hg'⟩ := hg j
  obtain ⟨be', hbe'⟩ := hbe j
  obtain ⟨mu', hmu'⟩ := hmu j
  unfold kNorm rBn kBias kScale
  rw [rOut_eq src dst H W b hH hW, hA, hr, hb', hg', hbe', hmu']
  exact (bn_fold A b' g' be' mu' r).symm

theorem kRelu_eq_rRelu (src dst : Fin NE → BitVec 32) (H : Fin NN → Fin NF → EReal) (W : Fin NF → Fin NF → EReal)
    (b g be mu v : Fin NF → EReal)
    (hH : ∀ i k, IsReal (H i k)) (hW : ∀ k j, IsReal (W k j))
    (hb : ∀ j, IsReal (b j)) (hg : ∀ j, IsReal (g j)) (hbe : ∀ j, IsReal (be j)) (hmu : ∀ j, IsReal (mu j))
    (hvr : ∀ j, IsReal (v j)) (hv : ∀ j, 0 ≤ v j) :
    kRelu src dst (kPre dst H W) (kScale g v) (kBias b g be mu v) = rRelu (rOut src dst H W b) g be mu v := by
  funext i j
  unfold kRelu rRelu
  rw [kNorm_eq_rBn src dst H W b g be mu v hH hW hb hg hbe hmu hvr hv]

theorem isReal_layer (src dst : Fin NE → BitVec 32) (H : Fin NN → Fin NF → EReal) (W : Fin NF → Fin NF → EReal)
    (b g be mu v : Fin NF → EReal)
    (hH : ∀ i k, IsReal (H i k)) (hW : ∀ k j, IsReal (W k j))
    (hb : ∀ j, IsReal (b j)) (hg : ∀ j, IsReal (g j)) (hbe : ∀ j, IsReal (be j)) (hmu : ∀ j, IsReal (mu j))
    (hvr : ∀ j, IsReal (v j)) (hv : ∀ j, 0 ≤ v j) (i : Fin NN) (j : Fin NF) :
    IsReal (kRelu src dst (kPre dst H W) (kScale g v) (kBias b g be mu v) i j) :=
  isReal_kRelu src dst _ _ _ (isReal_kPre dst H W hH hW) (isReal_kScale g v hg hvr hv)
    (isReal_kBias b g be mu v hb hg hbe hmu hvr hv) i j

-- a sum against a 0/1 membership factor is the sum over the members
theorem kSum_eq_rSum (bat : Fin NN → BitVec 32) (Y : Fin NN → Fin NF → EReal) (g : Fin NG) (j : Fin NF) :
    kSum bat Y g j = rSum bat Y g j := by
  unfold kSum rSum oh
  rw [Finset.sum_filter]
  refine Finset.sum_congr rfl fun i _ => ?_
  by_cases h : lands (bat i) g
  · rw [if_pos h, if_pos h, one_mul]
  · rw [if_neg h, if_neg h, zero_mul]

theorem kCnt_eq_rCnt (bat : Fin NN → BitVec 32) (g : Fin NG) : kCnt bat g = rCnt bat g := by
  unfold kCnt rCnt oh
  rw [Finset.sum_filter, one_eq]
  refine Finset.sum_congr rfl fun i _ => ?_
  by_cases h : lands (bat i) g
  · rw [if_pos h, one_mul]
  · rw [if_neg h, zero_mul]

section

variable (x : Fin NN → Fin NF → EReal) (src dst : Fin NE → BitVec 32) (bat : Fin NN → BitVec 32)
  (W1 W2 W3 : Fin NF → Fin NF → EReal) (b1 b2 b3 : Fin NF → EReal)
  (g1 be1 mu1 v1 g2 be2 mu2 v2 g3 be3 mu3 v3 : Fin NF → EReal)

theorem kY3_eq_rA3
    (hx : ∀ i k, IsReal (x i k))
    (hW1 : ∀ k j, IsReal (W1 k j)) (hW2 : ∀ k j, IsReal (W2 k j)) (hW3 : ∀ k j, IsReal (W3 k j))
    (hb1 : ∀ j, IsReal (b1 j)) (hb2 : ∀ j, IsReal (b2 j)) (hb3 : ∀ j, IsReal (b3 j))
    (hg1 : ∀ j, IsReal (g1 j)) (hbe1 : ∀ j, IsReal (be1 j)) (hmu1 : ∀ j, IsReal (mu1 j)) (hvr1 : ∀ j, IsReal (v1 j))
    (hg2 : ∀ j, IsReal (g2 j)) (hbe2 : ∀ j, IsReal (be2 j)) (hmu2 : ∀ j, IsReal (mu2 j)) (hvr2 : ∀ j, IsReal (v2 j))
    (hg3 : ∀ j, IsReal (g3 j)) (hbe3 : ∀ j, IsReal (be3 j)) (hmu3 : ∀ j, IsReal (mu3 j)) (hvr3 : ∀ j, IsReal (v3 j))
    (hv1 : ∀ j, 0 ≤ v1 j) (hv2 : ∀ j, 0 ≤ v2 j) (hv3 : ∀ j, 0 ≤ v3 j) :
    kY3 x src dst W1 W2 W3 b1 b2 b3 g1 be1 mu1 v1 g2 be2 mu2 v2 g3 be3 mu3 v3
      = rA3 x src dst W1 W2 W3 b1 b2 b3 g1 be1 mu1 v1 g2 be2 mu2 v2 g3 be3 mu3 v3 := by

  have e1 : kRelu src dst (kH1 x dst W1) (kScale g1 v1) (kBias b1 g1 be1 mu1 v1)
      = rA1 x src dst W1 b1 g1 be1 mu1 v1 :=
    kRelu_eq_rRelu src dst x W1 b1 g1 be1 mu1 v1 hx hW1 hb1 hg1 hbe1 hmu1 hvr1 hv1
  have r1 : ∀ i k, IsReal (rA1 x src dst W1 b1 g1 be1 mu1 v1 i k) := fun i k => by
    rw [← e1]; exact isReal_layer src dst x W1 b1 g1 be1 mu1 v1 hx hW1 hb1 hg1 hbe1 hmu1 hvr1 hv1 i k

  have e2 : kRelu src dst (kH2 x src dst W1 W2 b1 g1 be1 mu1 v1) (kScale g2 v2) (kBias b2 g2 be2 mu2 v2)
      = rA2 x src dst W1 W2 b1 b2 g1 be1 mu1 v1 g2 be2 mu2 v2 := by
    unfold kH2 rA2
    rw [e1]
    exact kRelu_eq_rRelu src dst _ W2 b2 g2 be2 mu2 v2 r1 hW2 hb2 hg2 hbe2 hmu2 hvr2 hv2
  have r2 : ∀ i k, IsReal (rA2 x src dst W1 W2 b1 b2 g1 be1 mu1 v1 g2 be2 mu2 v2 i k) := fun i k => by
    rw [← e2]; unfold kH2; rw [e1]
    exact isReal_layer src dst _ W2 b2 g2 be2 mu2 v2 r1 hW2 hb2 hg2 hbe2 hmu2 hvr2 hv2 i k

  unfold kY3 kH3 rA3
  rw [e2]
  exact kNorm_eq_rBn src dst _ W3 b3 g3 be3 mu3 v3 r2 hW3 hb3 hg3 hbe3 hmu3 hvr3 hv3

end

-- the two arrangements give one pooled embedding on real data with nonnegative variances
theorem kEmb_eq_rEmb (x : Fin NN → Fin NF → EReal) (src dst : Fin NE → BitVec 32) (bat : Fin NN → BitVec 32)
    (W1 W2 W3 : Fin NF → Fin NF → EReal)
    (b1 b2 b3 g1 be1 mu1 v1 g2 be2 mu2 v2 g3 be3 mu3 v3 : Fin NF → EReal)
    (hx : ∀ i k, ∃ r : ℝ, x i k = (r : EReal))
    (hW1 : ∀ k j, ∃ r : ℝ, W1 k j = (r : EReal)) (hW2 : ∀ k j, ∃ r : ℝ, W2 k j = (r : EReal))
    (hW3 : ∀ k j, ∃ r : ℝ, W3 k j = (r : EReal))
    (hb1 : ∀ j, ∃ r : ℝ, b1 j = (r : EReal)) (hb2 : ∀ j, ∃ r : ℝ, b2 j = (r : EReal))
    (hb3 : ∀ j, ∃ r : ℝ, b3 j = (r : EReal))
    (hg1 : ∀ j, ∃ r : ℝ, g1 j = (r : EReal)) (hbe1 : ∀ j, ∃ r : ℝ, be1 j = (r : EReal))
    (hmu1 : ∀ j, ∃ r : ℝ, mu1 j = (r : EReal)) (hvr1 : ∀ j, ∃ r : ℝ, v1 j = (r : EReal))
    (hg2 : ∀ j, ∃ r : ℝ, g2 j = (r : EReal)) (hbe2 : ∀ j, ∃ r : ℝ, be2 j = (r : EReal))
    (hmu2 : ∀ j, ∃ r : ℝ, mu2 j = (r : EReal)) (hvr2 : ∀ j, ∃ r : ℝ, v2 j = (r : EReal))
    (hg3 : ∀ j, ∃ r : ℝ, g3 j = (r : EReal)) (hbe3 : ∀ j, ∃ r : ℝ, be3 j = (r : EReal))
    (hmu3 : ∀ j, ∃ r : ℝ, mu3 j = (r : EReal)) (hvr3 : ∀ j, ∃ r : ℝ, v3 j = (r : EReal))
    (hv1 : ∀ j, 0 ≤ v1 j) (hv2 : ∀ j, 0 ≤ v2 j) (hv3 : ∀ j, 0 ≤ v3 j) :
    kEmb x src dst bat W1 W2 W3 b1 b2 b3 g1 be1 mu1 v1 g2 be2 mu2 v2 g3 be3 mu3 v3
      = rEmb x src dst bat W1 W2 W3 b1 b2 b3 g1 be1 mu1 v1 g2 be2 mu2 v2 g3 be3 mu3 v3 := by
  funext g j
  unfold kEmb rEmb
  rw [kSum_eq_rSum, kCnt_eq_rCnt,
    kY3_eq_rA3 x src dst W1 W2 W3 b1 b2 b3 g1 be1 mu1 v1 g2 be2 mu2 v2 g3 be3 mu3 v3
      hx hW1 hW2 hW3 hb1 hb2 hb3 hg1 hbe1 hmu1 hvr1 hg2 hbe2 hmu2 hvr2 hg3 hbe3 hmu3 hvr3 hv1 hv2 hv3]

end Cert.GcnForms

end
-- ==== Proof.Spec.PreFacts.lean ====
import proofs.«405801_j48610439856177_2_alg».proof.Defs
import Idealize.ShloMosaic.Lib.ReduceAll
import Idealize.ShloMosaic.Lib.StableHlo.Predicate
import Idealize.ShloMosaic.Lib.ValueIdx

noncomputable section

namespace Cert.PreFacts

open Cert.KernelIdeal
open Idealize.ShloMosaic Idealize.SL.Sem Idealize.ShloMosaic.ValueIdx

instance : Subsingleton (⟨0, ![]⟩ : Shape).Idx := ⟨fun a b => funext fun d => d.elim0⟩

-- On the extended reals |x| = max x (-x) and the word 0x7F800000 is the top element: below it, x is a real number.
theorem real_of_abs_lt_top (x : EReal)
    (h : Ideal.cmp .olt (max x (-x)) (Ideal.ofBits .f32 0x7F800000#32) = 1#1) : ∃ r : ℝ, x = (r : EReal) := by
  rw [show Ideal.ofBits .f32 0x7F800000#32 = (⊤ : EReal) by simp [Ideal.ofBits, Ideal.ieee]] at h
  unfold Ideal.cmp at h
  rw [StableHlo.Predicate.ofBool_eq_one_iff] at h
  have hlt : max x (-x) < ⊤ := of_decide_eq_true h
  induction x using EReal.rec with
  | bot => simp at hlt
  | top => simp at hlt
  | coe r => exact ⟨r, rfl⟩

theorem nonneg_of_oge_zero (x : EReal)
    (h : Ideal.cmp .oge x (Ideal.ofBits .f32 0x00000000#32) = 1#1) : (0 : EReal) ≤ x := by
  rw [show Ideal.ofBits .f32 0x00000000#32 = (0 : EReal) by simp [Ideal.ofBits, Ideal.ieee]] at h
  unfold Ideal.cmp at h
  rw [StableHlo.Predicate.ofBool_eq_one_iff] at h
  exact of_decide_eq_true h

section
variable {s : Shape} {axes : List (Fin s.rank)} {x : FVec Ideal s .f32}
  {bc : (⟨0, ![]⟩ : Shape).BroadcastsInDim s (![] : Fin 0 → Fin s.rank)} {red : s.ReducesTo axes ⟨0, ![]⟩}
  {h0 : 0 < (⟨0, ![]⟩ : Shape).numel}

-- An all-reduction by "and", from 1, of one-bit tests is 1 only when every test is: here the tests |a| < +∞,
theorem real_of_all
    (e : Host.reduce IntOp.andi (cmpf .olt (Host.absf x) (broadcastInDim s ![] bc (constant (⟨0, ![]⟩ : Shape) .f32 0x7F800000#32)))
      (constantI (⟨0, ![]⟩ : Shape) 1 1#1) red h0 ix0 = 1#1) (i : s.Idx) : ∃ r : ℝ, x i = (r : EReal) :=
  real_of_abs_lt_top (x i) (Host.reduce_andi_all _ _ red h0 ix0 e i)

-- and here the tests a ≥ 0.
theorem nonneg_of_all
    (e : Host.reduce IntOp.andi (cmpf .oge x (broadcastInDim s ![] bc (constant (⟨0, ![]⟩ : Shape) .f32 0x00000000#32)))
      (constantI (⟨0, ![]⟩ : Shape) 1 1#1) red h0 ix0 = 1#1) (i : s.Idx) : (0 : EReal) ≤ x i :=
  nonneg_of_oge_zero (x i) (Host.reduce_andi_all _ _ red h0 ix0 e i)
end

variable [hPre_finite_inputs : Cert.Pre_finite_inputs.Facts]

-- The precondition is the conjunction of one finiteness test per float argument and one sign test per variance vector.
theorem facts (m : (ℓ : Loc nD τ sig) → Buf (Elt Ideal) ℓ) (hpre : Cert.Pre_KernelIdeal m) (c : Dev nD) :
    (∀ i : S100000x256.Idx, ∃ r : ℝ, m ((c.tc : Thread nD τ).loc main_arg0) i = (r : EReal))
    ∧ (∀ i : S256x256.Idx, ∃ r : ℝ, m ((c.tc : Thread nD τ).loc main_arg3) i = (r : EReal))
    ∧ (∀ i : S256.Idx, ∃ r : ℝ, m ((c.tc : Thread nD τ).loc main_arg4) i = (r : EReal))
    ∧ (∀ i : S256x256.Idx, ∃ r : ℝ, m ((c.tc : Thread nD τ).loc main_arg5) i = (r : EReal))
    ∧ (∀ i : S256.Idx, ∃ r : ℝ, m ((c.tc : Thread nD τ).loc main_arg6) i = (r : EReal))
    ∧ (∀ i : S256x256.Idx, ∃ r : ℝ, m ((c.tc : Thread nD τ).loc main_arg7) i = (r : EReal))
    ∧ (∀ i : S256.Idx, ∃ r : ℝ, m ((c.tc : Thread nD τ).loc main_arg8) i = (r : EReal))
    ∧ (∀ i : S256.Idx, ∃ r : ℝ, m ((c.tc : Thread nD τ).loc main_arg10) i = (r : EReal))
    ∧ (∀ i : S256.Idx, ∃ r : ℝ, m ((c.tc : Thread nD τ).loc main_arg11) i = (r : EReal))
    ∧ (∀ i : S256.Idx, ∃ r : ℝ, m ((c.tc : Thread nD τ).loc main_arg12) i = (r : EReal))
    ∧ (∀ i : S256.Idx, ∃ r : ℝ, m ((c.tc : Thread nD τ).loc main_arg13) i = (r : EReal))
    ∧ (∀ i : S256.Idx, ∃ r : ℝ, m ((c.tc : Thread nD τ).loc main_arg14) i = (r : EReal))
    ∧ (∀ i : S256.Idx, ∃ r : ℝ, m ((c.tc : Thread nD τ).loc main_arg15) i = (r : EReal))
    ∧ (∀ i : S256.Idx, ∃ r : ℝ, m ((c.tc : Thread nD τ).loc main_arg16) i = (r : EReal))
    ∧ (∀ i : S256.Idx, ∃ r : ℝ, m ((c.tc : Thread nD τ).loc main_arg17) i = (r : EReal))
    ∧ (∀ i : S256.Idx, ∃ r : ℝ, m ((c.tc : Thread nD τ).loc main_arg18) i = (r : EReal))
    ∧ (∀ i : S256.Idx, ∃ r : ℝ, m ((c.tc : Thread nD τ).loc main_arg19) i = (r : EReal))
    ∧ (∀ i : S256.Idx, ∃ r : ℝ, m ((c.tc : Thread nD τ).loc main_arg20) i = (r : EReal))
    ∧ (∀ i : S256.Idx, ∃ r : ℝ, m ((c.tc : Thread nD τ).loc main_arg21) i = (r : EReal))
    ∧ (∀ i : S256.Idx, (0 : EReal) ≤ m ((c.tc : Thread nD τ).loc main_arg13) i)
    ∧ (∀ i : S256.Idx, (0 : EReal) ≤ m ((c.tc : Thread nD τ).loc main_arg17) i)
    ∧ (∀ i : S256.Idx, (0 : EReal) ≤ m ((c.tc : Thread nD τ).loc main_arg21) i) := by
  have e := congrFun (hpre c) ix0
  dsimp only [Cert.Pre_finite_inputs.fn, Cert.Pre_finite_inputs.fn_part1, Cert.Pre_finite_inputs.fn_part2, Cert.Pre_finite_inputs.fn_part3, Cert.Pre_finite_inputs.fn_part4, Cert.Pre_finite_inputs.fn_part5, Cert.Pre_finite_inputs.fn_part6] at e
  simp only [andi, IntOp.andi_eq_one] at e
  obtain ⟨⟨⟨⟨⟨⟨⟨⟨⟨⟨⟨⟨⟨⟨⟨⟨⟨⟨⟨⟨⟨⟨f0, f3⟩, f4⟩, f5⟩, f6⟩, f7⟩, f8⟩, f9⟩, f10⟩, f11⟩, f12⟩, f13⟩, f14⟩, f15⟩, f16⟩, f17⟩, f18⟩, f19⟩, f20⟩, f21⟩, g13⟩, g17⟩, g21⟩ := e
  exact ⟨real_of_all f0, real_of_all f3, real_of_all f4, real_of_all f5, real_of_all f6, real_of_all f7, real_of_all f8, real_of_all f10, real_of_all f11, real_of_all f12, real_of_all f13, real_of_all f14, real_of_all f15, real_of_all f16, real_of_all f17, real_of_all f18, real_of_all f19, real_of_all f20, real_of_all f21, nonneg_of_all g13, nonneg_of_all g17, nonneg_of_all g21⟩

end Cert.PreFacts

end
-- ==== Proof.Assemble.lean ====
import proofs.«405801_j48610439856177_2_alg».proof.Defs
import proofs.«405801_j48610439856177_2_alg».proof.Proof.Gen.Kernel
import proofs.«405801_j48610439856177_2_alg».proof.Proof.Gen.KernelIdeal
import proofs.«405801_j48610439856177_2_alg».proof.Proof.Gen.ReferenceIdeal
import proofs.«405801_j48610439856177_2_alg».proof.Proof.Gen.Pre_finite_inputs
import proofs.«405801_j48610439856177_2_alg».proof.Proof.KI.Run
import proofs.«405801_j48610439856177_2_alg».proof.Proof.K.Run
import proofs.«405801_j48610439856177_2_alg».proof.Proof.KI.KHost
import proofs.«405801_j48610439856177_2_alg».proof.Proof.Ref.RunP
import proofs.«405801_j48610439856177_2_alg».proof.Proof.Ref.RefHead
import proofs.«405801_j48610439856177_2_alg».proof.Proof.Ref.RefRead
import proofs.«405801_j48610439856177_2_alg».proof.Proof.Spec.Algebra
import proofs.«405801_j48610439856177_2_alg».proof.Proof.Spec.PreFacts

noncomputable section

open Idealize.ShloMosaic Idealize.ShloMosaic.TcCoe Idealize.SL.Sem Idealize.ShloMosaic.ValueIdx

namespace Cert.Proof.Assemble

open Cert.GcnForms Cert.KernelIdeal.Hand Cert.ReferenceIdeal.RefRead Cert.PreFacts

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both results are one distance head of a pooled embedding and the centroids. The embeddings agree entry by entry: the
-- arguments' readings agree where the memories do, and on real data with nonnegative variances the factored
-- arrangement of the three-layer graph convolution with mean pooling equals the edge-list arrangement.
theorem algebraic : Cert.algebraic_KernelIdeal_ReferenceIdeal := by
  intro m ρ m' ρ' hpre hagree
  refine ⟨fun c => W11 (F := Ideal) m ρ c (Proc.devRef .tc Cert.KernelIdeal.main_v96),
    (θ_run (Cert.KernelIdeal.defs (F := Ideal)) _ _).mono (fun _ h c => ?_) (run_all (F := Ideal) m ρ),
    (θ_run Cert.ReferenceIdeal.defs _ _).mono (fun _ h c => ⟨(h c).1.trans ?_, (h c).2⟩)
      (Cert.ReferenceIdeal.Value.run (F := Ideal) m' ρ')⟩
  · have a := fun b hb => h c _ (mem_uc b hb)
    exact ⟨a Cert.KernelIdeal.main_v96 (by decide),
      (a Cert.KernelIdeal.main_arg0 (by decide)).trans (W11_main_arg0 m ρ c),
      (a Cert.KernelIdeal.main_arg1 (by decide)).trans (W11_main_arg1 m ρ c),
      (a Cert.KernelIdeal.main_arg2 (by decide)).trans (W11_main_arg2 m ρ c),
      (a Cert.KernelIdeal.main_arg3 (by decide)).trans (W11_main_arg3 m ρ c),
      (a Cert.KernelIdeal.main_arg4 (by decide)).trans (W11_main_arg4 m ρ c),
      (a Cert.KernelIdeal.main_arg5 (by decide)).trans (W11_main_arg5 m ρ c),
      (a Cert.KernelIdeal.main_arg6 (by decide)).trans (W11_main_arg6 m ρ c),
      (a Cert.KernelIdeal.main_arg7 (by decide)).trans (W11_main_arg7 m ρ c),
      (a Cert.KernelIdeal.main_arg8 (by decide)).trans (W11_main_arg8 m ρ c),
      (a Cert.KernelIdeal.main_arg9 (by decide)).trans (W11_main_arg9 m ρ c),
      (a Cert.KernelIdeal.main_arg10 (by decide)).trans (W11_main_arg10 m ρ c),
      (a Cert.KernelIdeal.main_arg11 (by decide)).trans (W11_main_arg11 m ρ c),
      (a Cert.KernelIdeal.main_arg12 (by decide)).trans (W11_main_arg12 m ρ c),
      (a Cert.KernelIdeal.main_arg13 (by decide)).trans (W11_main_arg13 m ρ c),
      (a Cert.KernelIdeal.main_arg14 (by decide)).trans (W11_main_arg14 m ρ c),
      (a Cert.KernelIdeal.main_arg15 (by decide)).trans (W11_main_arg15 m ρ c),
      (a Cert.KernelIdeal.main_arg16 (by decide)).trans (W11_main_arg16 m ρ c),
      (a Cert.KernelIdeal.main_arg17 (by decide)).trans (W11_main_arg17 m ρ c),
      (a Cert.KernelIdeal.main_arg18 (by decide)).trans (W11_main_arg18 m ρ c),
      (a Cert.KernelIdeal.main_arg19 (by decide)).trans (W11_main_arg19 m ρ c),
      (a Cert.KernelIdeal.main_arg20 (by decide)).trans (W11_main_arg20 m ρ c),
      (a Cert.KernelIdeal.main_arg21 (by decide)).trans (W11_main_arg21 m ρ c)⟩
  · obtain ⟨h0, h1, h2, h3, h4, h5, h6, h7, h8, h9, h10, h11, h12, h13, h14, h15, h16, h17, h18, h19, h20, h21⟩ := hagree c
    have emb : embR m' c = W10 (F := Ideal) m ρ c (Proc.devRef .tc Cert.KernelIdeal.main_v79) := by
      funext i
      obtain ⟨g, j, rfl⟩ : ∃ (g : Fin 256) (j : Fin 256), i = ix2 g j := ⟨i 0, i 1, eq_ix2 i⟩
      rw [ref_emb, kernel_emb,
        show xR m' c = xK m c from funext₂ fun i k => congrFun h0 (ix2 i k),
        show srcR m' c = srcK m c from funext fun e => congrFun h1 (ix2 0 e),
        show dstR m' c = dstK m c from funext fun e => congrFun h1 (ix2 1 e),
        show batR m' c = batK m c from funext fun j => congrFun h2 (ix1 j),
        show W1R m' c = W1K m c from funext₂ fun i k => congrFun h3 (ix2 i k),
        show W2R m' c = W2K m c from funext₂ fun i k => congrFun h5 (ix2 i k),
        show W3R m' c = W3K m c from funext₂ fun i k => congrFun h7 (ix2 i k),
        show b1R m' c = b1K m c from funext fun j => congrFun h4 (ix1 j),
        show b2R m' c = b2K m c from funext fun j => congrFun h6 (ix1 j),
        show b3R m' c = b3K m c from funext fun j => congrFun h8 (ix1 j),
        show g1R m' c = g1K m c from funext fun j => congrFun h10 (ix1 j),
        show be1R m' c = be1K m c from funext fun j => congrFun h11 (ix1 j),
        show mu1R m' c = mu1K m c from funext fun j => congrFun h12 (ix1 j),
        show v1R m' c = v1K m c from funext fun j => congrFun h13 (ix1 j),
        show g2R m' c = g2K m c from funext fun j => congrFun h14 (ix1 j),
        show be2R m' c = be2K m c from funext fun j => congrFun h15 (ix1 j),
        show mu2R m' c = mu2K m c from funext fun j => congrFun h16 (ix1 j),
        show v2R m' c = v2K m c from funext fun j => congrFun h17 (ix1 j),
        show g3R m' c = g3K m c from funext fun j => congrFun h18 (ix1 j),
        show be3R m' c = be3K m c from funext fun j => congrFun h19 (ix1 j),
        show mu3R m' c = mu3K m c from funext fun j => congrFun h20 (ix1 j),
        show v3R m' c = v3K m c from funext fun j => congrFun h21 (ix1 j)]
      obtain ⟨r0, r3, r4, r5, r6, r7, r8, r10, r11, r12, r13, r14, r15, r16, r17, r18, r19, r20, r21, n13, n17, n21⟩ := facts m hpre c
      exact (congrFun (congrFun (kEmb_eq_rEmb (xK m c) (srcK m c) (dstK m c) (batK m c) (W1K m c) (W2K m c) (W3K m c) (b1K m c) (b2K m c) (b3K m c) (g1K m c) (be1K m c) (mu1K m c) (v1K m c) (g2K m c) (be2K m c) (mu2K m c) (v2K m c) (g3K m c) (be3K m c) (mu3K m c) (v3K m c)
        (fun i k => r0 (ix2 i k)) (fun i k => r3 (ix2 i k)) (fun i k => r5 (ix2 i k)) (fun i k => r7 (ix2 i k)) (fun j => r4 (ix1 j)) (fun j => r6 (ix1 j)) (fun j => r8 (ix1 j)) (fun j => r10 (ix1 j)) (fun j => r11 (ix1 j)) (fun j => r12 (ix1 j)) (fun j => r13 (ix1 j)) (fun j => r14 (ix1 j)) (fun j => r15 (ix1 j)) (fun j => r16 (ix1 j)) (fun j => r17 (ix1 j)) (fun j => r18 (ix1 j)) (fun j => r19 (ix1 j)) (fun j => r20 (ix1 j)) (fun j => r21 (ix1 j))
        (fun j => n13 (ix1 j)) (fun j => n17 (ix1 j)) (fun j => n21 (ix1 j))) g) j).symm
    beta_reduce
    rw [ref_result, kernel_result, emb, show headR = headK from rfl]
    exact congrArg _ h9

end Cert.Proof.Assemble

end
-- ==== Proof.lean ====
-- The five claims of Proof/Assemble.lean behind the witnesses of the side conditions the programs and the precondition state.
import proofs.«405801_j48610439856177_2_alg».proof.Defs
import proofs.«405801_j48610439856177_2_alg».proof.Proof.Assemble
import proofs.«405801_j48610439856177_2_alg».proof.Proof.Gen.Kernel
import proofs.«405801_j48610439856177_2_alg».proof.Proof.Gen.KernelIdeal
import proofs.«405801_j48610439856177_2_alg».proof.Proof.Gen.ReferenceIdeal
import proofs.«405801_j48610439856177_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Assemble.frame_k, Assemble.frame_ki, Assemble.frame_ri, Assemble.preserves, Assemble.algebraic⟩

end Cert.Proof

end
